-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S64x64 : Shape := ⟨2, ![64, 64]⟩
abbrev S128x64 : Shape := ⟨2, ![128, 64]⟩
abbrev S128 : Shape := ⟨1, ![128]⟩
abbrev S64x128 : Shape := ⟨2, ![64, 128]⟩
abbrev S1x64 : Shape := ⟨2, ![1, 64]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64 .f32) (main_arg16 : FVec F S1x64 .f32) (main_arg17 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S1x64 .f32 := Host.absf main_arg16
  let main_cst_28 : FVec F S_ .f32 := constant S_ .f32 0x7F800000#32
  let main_v75 : FVec F S1x64 .f32 := broadcastInDim S1x64 ![] bcast_S_S1x64 main_cst_28
  let main_v76 : IVec S1x64 1 := cmpf .olt main_v74 main_v75
  let main_c_29 : IVec S_ 1 := constantI S_ 1 1#1
  let main_v77 : IVec S_ 1 := (fun x v => Host.reduce IntOp.andi x v reducesTo_S1x64_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S64x128 .f32) (main_arg13 : FVec F S64 .f32) (main_arg14 : FVec F S64 .f32) (main_arg15 : FVec F S64 .f32) (main_arg16 : FVec F S1x64 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_v63 main_v67

def fn_part2 {F : FTy → Type} [FloatOps F] (main_arg8 : FVec F S128x64 .f32) (main_arg9 : FVec F S128 .f32) (main_arg10 : FVec F S128 .f32) (main_arg11 : FVec F S128 .f32) (main_arg12 : FVec F S64x128 .f32) (main_arg13 : FVec F S64 .f32) (main_arg14 : FVec F S64 .f32) (main_arg15 : FVec F S64 .f32) (main_arg16 : FVec F S1x64 .f32) (main_arg17 : FVec F S1 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S64x64 .f32) (main_arg6 : FVec F S64 .f32) (main_arg7 : FVec F S64x64 .f32) (main_arg8 : FVec F S128x64 .f32) (main_arg9 : FVec F S128 .f32) (main_arg10 : FVec F S128 .f32) (main_arg11 : FVec F S128 .f32) (main_arg12 : FVec F S64x128 .f32) (main_arg13 : FVec F S64 .f32) (main_arg14 : FVec F S64 .f32) (main_arg15 : FVec F S64 .f32) (main_arg16 : FVec F S1x64 .f32) (main_arg17 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x32 .f32) (main_arg1 : IVec S2x1600000 32) (main_arg2 : FVec F S64x32 .f32) (main_arg3 : FVec F S64 .f32) (main_arg4 : FVec F S64x32 .f32) (main_arg5 : FVec F S64x64 .f32) (main_arg6 : FVec F S64 .f32) (main_arg7 : FVec F S64x64 .f32) (main_arg8 : FVec F S128x64 .f32) (main_arg9 : FVec F S128 .f32) (main_arg10 : FVec F S128 .f32) (main_arg11 : FVec F S128 .f32) (main_arg12 : FVec F S64x128 .f32) (main_arg13 : FVec F S64 .f32) (main_arg14 : FVec F S64 .f32) (main_arg15 : FVec F S64 .f32) (main_arg16 : FVec F S1x64 .f32) (main_arg17 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S64x64 : Shape := ⟨2, ![64, 64]⟩
abbrev S128x64 : Shape := ⟨2, ![128, 64]⟩
abbrev S128 : Shape := ⟨1, ![128]⟩
abbrev S64x128 : Shape := ⟨2, ![64, 128]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S32x64 : Shape := ⟨2, ![32, 64]⟩
abbrev S100000x64 : Shape := ⟨2, ![100000, 64]⟩
abbrev S5000x32 : Shape := ⟨2, ![5000, 32]⟩
abbrev S5000x64 : Shape := ⟨2, ![5000, 64]⟩
abbrev S1600000x64 : Shape := ⟨2, ![1600000, 64]⟩
abbrev S1x128 : Shape := ⟨2, ![1, 128]⟩
abbrev S100000x128 : Shape := ⟨2, ![100000, 128]⟩
abbrev S5000x128 : Shape := ⟨2, ![5000, 128]⟩
abbrev S64x1 : Shape := ⟨2, ![64, 1]⟩
abbrev S1x1 : Shape := ⟨2, ![1, 1]⟩
abbrev S5000x1 : Shape := ⟨2, ![5000, 1]⟩

abbrev nBuf : Space → Nat
  | .hbm => 121
  | .vmem => 48
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S64x32, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S128x64, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x32, .f32⟩
  | .hbm, ⟨44, _⟩ => ⟨S_, .f32⟩
  | .hbm, ⟨45, _⟩ => ⟨S100000x32, .f32⟩
  | .hbm, ⟨46, _⟩ => ⟨S1600000x1, .i32⟩
  | .hbm, ⟨47, _⟩ => ⟨S100000x32, .f32⟩
  | .hbm, ⟨48, _⟩ => ⟨S100000x32, .f32⟩
  | .hbm, ⟨49, _⟩ => ⟨S100000x32, .f32⟩
  | .hbm, ⟨50, _⟩ => ⟨S32x64, .f32⟩
  | .hbm, ⟨51, _⟩ => ⟨S1x64, .f32⟩
  | .hbm, ⟨52, _⟩ => ⟨S32x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S64x64, .f32⟩
  | .hbm, ⟨70, _⟩ => ⟨S1x64, .f32⟩
  | .hbm, ⟨71, _⟩ => ⟨S64x64, .f32⟩
  | .hbm, ⟨72, _⟩ => ⟨S100000x64, .f32⟩
  | .hbm, ⟨73, _⟩ => ⟨S64x128, .f32⟩
  | .hbm, ⟨74, _⟩ => ⟨S1x128, .f32⟩
  | .hbm, ⟨75, _⟩ => ⟨S100000x128, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S128x64, .f32⟩
  | .hbm, ⟨96, _⟩ => ⟨S1x64, .f32⟩
  | .hbm, ⟨97, _⟩ => ⟨S100000x64, .f32⟩
  | .hbm, ⟨98, _⟩ => ⟨S1x64, .f32⟩
  | .hbm, ⟨99, _⟩ => ⟨S1x64, .f32⟩
  | .hbm, ⟨100, _⟩ => ⟨S_, .f32⟩
  | .hbm, ⟨101, _⟩ => ⟨S1x64, .f32⟩
  | .hbm, ⟨102, _⟩ => ⟨S1x64, .f32⟩
  | .hbm, ⟨103, _⟩ => ⟨S_, .f32⟩
  | .hbm, ⟨104, _⟩ => ⟨S1x64, .f32⟩
  | .hbm, ⟨105, _⟩ => ⟨S1x64, .f32⟩
  | .hbm, ⟨106, _⟩ => ⟨S1x64, .f32⟩
  | .hbm, ⟨107, _⟩ => ⟨S1x64, .f32⟩
  | .hbm, ⟨108, _⟩ => ⟨S_, .f32⟩
  | .hbm, ⟨109, _⟩ => ⟨S1x64, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S1x64, .f32⟩
  | .hbm, ⟨114, _⟩ => ⟨S1x64, .f32⟩
  | .hbm, ⟨115, _⟩ => ⟨S1x64, .f32⟩
  | .hbm, ⟨116, _⟩ => ⟨S1x64, .f32⟩
  | .hbm, ⟨117, _⟩ => ⟨S64x1, .f32⟩
  | .hbm, ⟨118, _⟩ => ⟨S1x1, .f32⟩
  | .hbm, ⟨119, _⟩ => ⟨S100000x1, .f32⟩
  | .hbm, ⟨120, _⟩ => ⟨S100000, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x64, .f32⟩
  | .local _ .vmem, ⟨5, _⟩ => ⟨S1x64, .f32⟩
  | .local _ .vmem, ⟨6, _⟩ => ⟨S32x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S1x64, .f32⟩
  | .local _ .vmem, ⟨43, _⟩ => ⟨S1x64, .f32⟩
  | .local _ .vmem, ⟨44, _⟩ => ⟨S64x1, .f32⟩
  | .local _ .vmem, ⟨45, _⟩ => ⟨S1x1, .f32⟩
  | .local _ .vmem, ⟨46, _⟩ => ⟨S5000x1, .f32⟩
  | .local _ .vmem, ⟨47, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47_0 : Ref sig .tc := ⟨.hbm, 75, rfl⟩
abbrev main_v47_1 : Ref sig .tc := ⟨.hbm, 76, rfl⟩
abbrev main_v47_2 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64_0 : Ref sig .tc := ⟨.hbm, 97, rfl⟩
abbrev main_v64_1 : Ref sig .tc := ⟨.hbm, 98, rfl⟩
abbrev main_v64_2 : Ref sig .tc := ⟨.hbm, 99, rfl⟩
abbrev main_cst_11 : Ref sig .tc := ⟨.hbm, 100, rfl⟩
abbrev main_v65 : Ref sig .tc := ⟨.hbm, 101, rfl⟩
abbrev main_v66 : Ref sig .tc := ⟨.hbm, 102, rfl⟩
abbrev main_cst_12 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_13 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_scratch0 : Ref sig .tc := ⟨.vmem, 26, rfl⟩
abbrev cc2_scratch1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg7_0 : Ref sig .tc := ⟨.vmem, 37, rfl⟩
abbrev cc3_scratch0 : Ref sig .tc := ⟨.vmem, 38, rfl⟩
abbrev cc3_scratch1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem7_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v30 : BitVec 1 := Scalar.cmpi .eq arg0 c19_i32
  let v31 : BitVec 32 := Scalar.extui v30
  let c0_i32_18 : BitVec 32 := 0#32
  let v32 : BitVec 1 := Scalar.cmpi .ne v31 c0_i32_18
  v32

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v40 : BitVec 1 := Scalar.cmpi .eq arg0 c19_i32
  let v41 : BitVec 32 := Scalar.extui v40
  let c0_i32_23 : BitVec 32 := 0#32
  let v42 : BitVec 1 := Scalar.cmpi .ne v41 c0_i32_23
  v42

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S64x32_S32x64_1_0 : S64x32.Transposes [1, 0] S32x64
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S128x64_S64x128_1_0 : S128x64.Transposes [1, 0] S64x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  transposes_S64x128_S128x64_1_0 : S64x128.Transposes [1, 0] S128x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reduces_S5000x64_S64 : S5000x64.Reduces [0] S64
  bcast_S_S1x64 : S_.BroadcastsInDim S1x64 (![] : Fin 0 → Fin S1x64.rank)
  transposes_S1x64_S64x1_1_0 : S1x64.Transposes [1, 0] S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S100000x1.size a
  hwx4_5 : ∀ i : grid4.Coords, EltTy.bits .f32 = 32 ∨ (Rect.block (s := S100000x1) S5000x1.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v24) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v47_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64_0) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v64_1) S1x64.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v64_2) S1x64.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun i => !(k3_cond2 i == 1#1) | 7 => fun i => !(k3_cond2 i == 1#1) | ⟨_ + 8, h⟩ => absurd h (Nat.not_lt.2 (Nat.le_add_left _ _))

abbrev win4_0 : Pipeline.Window sig grid4 :=
  Pipeline.Window.ofSpec (Memref.whole main_v64_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v80) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S64x64 : Shape := ⟨2, ![64, 64]⟩
abbrev S128x64 : Shape := ⟨2, ![128, 64]⟩
abbrev S128 : Shape := ⟨1, ![128]⟩
abbrev S64x128 : Shape := ⟨2, ![64, 128]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S32x64 : Shape := ⟨2, ![32, 64]⟩
abbrev S100000x64 : Shape := ⟨2, ![100000, 64]⟩
abbrev S1600000x64 : Shape := ⟨2, ![1600000, 64]⟩
abbrev S100000x128 : Shape := ⟨2, ![100000, 128]⟩
abbrev S1x128 : Shape := ⟨2, ![1, 128]⟩
abbrev S64x1 : Shape := ⟨2, ![64, 1]⟩
abbrev S1x1 : Shape := ⟨2, ![1, 1]⟩

abbrev nBuf : Space → Nat
  | .hbm => 208
  | .vmem => 0
  | .smem => 0
  | _ => 0

abbrev hbmTy0_0 (i : Nat) : BufTy := match i % 128 with
  | 0 => ⟨S100000x32, .f32⟩
  | 1 => ⟨S2x1600000, .i32⟩
  | 2 => ⟨S64x32, .f32⟩
  | 3 => ⟨S64, .f32⟩
  | 4 => ⟨S64x32, .f32⟩
  | 5 => ⟨S64x64, .f32⟩
  | 6 => ⟨S64, .f32⟩
  | 7 => ⟨S64x64, .f32⟩
  | 8 => ⟨S128x64, .f32⟩
  | 9 => ⟨S128, .f32⟩
  | 10 => ⟨S128, .f32⟩
  | 11 => ⟨S128, .f32⟩
  | 12 => ⟨S64x128, .f32⟩
  | 13 => ⟨S64, .f32⟩
  | 14 => ⟨S64, .f32⟩
  | 15 => ⟨S64, .f32⟩
  | 16 => ⟨S1x64, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x32, .f32⟩
  | 31 => ⟨S_, .f32⟩
  | 32 => ⟨S100000x32, .f32⟩
  | 33 => ⟨S1600000x1, .i32⟩
  | 34 => ⟨S100000x32, .f32⟩
  | 35 => ⟨S_, .f32⟩
  | 36 => ⟨S1600000, .f32⟩
  | 37 => ⟨S_, .f32⟩
  | 38 => ⟨S100000, .f32⟩
  | 39 => ⟨S1600000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x32, .f32⟩
  | 46 => ⟨S100000x32, .f32⟩
  | 47 => ⟨S32x64, .f32⟩
  | 48 => ⟨S100000x64, .f32⟩
  | 49 => ⟨S1x64, .f32⟩
  | 50 => ⟨S100000x64, .f32⟩
  | 51 => ⟨S100000x64, .f32⟩
  | 52 => ⟨S32x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S1x1600000, .i32⟩
  | 59 => ⟨S1600000, .i32⟩
  | 60 => ⟨S1x1600000, .i32⟩
  | 61 => ⟨S1600000, .i32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S_, .f32⟩
  | 76 => ⟨S1600000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x64, .f32⟩
  | 86 => ⟨S100000x64, .f32⟩
  | 87 => ⟨S64x64, .f32⟩
  | 88 => ⟨S100000x64, .f32⟩
  | 89 => ⟨S1x64, .f32⟩
  | 90 => ⟨S100000x64, .f32⟩
  | 91 => ⟨S100000x64, .f32⟩
  | 92 => ⟨S64x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S64x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S100000x128, .f32⟩
  | 116 => ⟨S100000x128, .f32⟩
  | 117 => ⟨S100000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S100000x32, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S_, .f32⟩
  | 7 => ⟨S128, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S128x64, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S64, .f32⟩
  | 29 => ⟨S_, .f32⟩
  | 30 => ⟨S64, .f32⟩
  | 31 => ⟨S64, .f32⟩
  | 32 => ⟨S_, .i32⟩
  | 33 => ⟨S_, .f32⟩
  | 34 => ⟨S64, .f32⟩
  | 35 => ⟨S1x64, .f32⟩
  | 36 => ⟨S_, .f32⟩
  | 37 => ⟨S1x64, .f32⟩
  | 38 => ⟨S1x64, .f32⟩
  | 39 => ⟨S100000x64, .f32⟩
  | 40 => ⟨S100000x64, .f32⟩
  | 41 => ⟨S100000x64, .f32⟩
  | 42 => ⟨S_, .f32⟩
  | 43 => ⟨S_, .f32⟩
  | 44 => ⟨S_, .f32⟩
  | 45 => ⟨S_, .f32⟩
  | 46 => ⟨S64, .f32⟩
  | 47 => ⟨S64, .f32⟩
  | 48 => ⟨S64, .f32⟩
  | 49 => ⟨S_, .f32⟩
  | 50 => ⟨S_, .i1⟩
  | 51 => ⟨S_, .f32⟩
  | 52 => ⟨S_, .f32⟩
  | 53 => ⟨S64, .f32⟩
  | 54 => ⟨S64, .f32⟩
  | 55 => ⟨S1x64, .f32⟩
  | 56 => ⟨S100000x64, .f32⟩
  | 57 => ⟨S100000x64, .f32⟩
  | 58 => ⟨S_, .f32⟩
  | 59 => ⟨S64, .f32⟩
  | 60 => ⟨S64, .f32⟩
  | 61 => ⟨S64, .f32⟩
  | 62 => ⟨S1x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S64x1, .f32⟩
  | 75 => ⟨S100000x1, .f32⟩
  | 76 => ⟨S1x1, .f32⟩
  | 77 => ⟨S100000x1, .f32⟩
  | 78 => ⟨S100000x1, .f32⟩
  | 79 => ⟨S100000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call0_cst : Ref sig .tc := ⟨.hbm, 55, rfl⟩
abbrev main_call0_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_4 : Ref sig .tc := ⟨.hbm, 62, rfl⟩
abbrev main_v36 : Ref sig .tc := ⟨.hbm, 63, rfl⟩
abbrev main_v37 : Ref sig .tc := ⟨.hbm, 64, rfl⟩
abbrev main_c_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call1_cst : Ref sig .tc := ⟨.hbm, 95, rfl⟩
abbrev main_call1_v0 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_10 : Ref sig .tc := ⟨.hbm, 103, rfl⟩
abbrev main_v69 : Ref sig .tc := ⟨.hbm, 104, rfl⟩
abbrev main_cst_11 : Ref sig .tc := ⟨.hbm, 105, rfl⟩
abbrev main_v70 : Ref sig .tc := ⟨.hbm, 106, rfl⟩
abbrev main_v71 : Ref sig .tc := ⟨.hbm, 107, rfl⟩
abbrev main_c_12 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_cst_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_cst_1 : Ref sig .tc := ⟨.hbm, 119, rfl⟩
abbrev main_call2_v8 : Ref sig .tc := ⟨.hbm, 120, rfl⟩
abbrev main_call2_cst_2 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_cst_3 : Ref sig .tc := ⟨.hbm, 125, rfl⟩
abbrev main_call2_v12 : Ref sig .tc := ⟨.hbm, 126, rfl⟩
abbrev main_call2_cst_4 : Ref sig .tc := ⟨.hbm, 127, rfl⟩
abbrev main_call2_call0_v0 : Ref sig .tc := ⟨.hbm, 128, rfl⟩
abbrev main_call2_call0_v1 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_13 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_call3_cst : Ref sig .tc := ⟨.hbm, 147, rfl⟩
abbrev main_call3_v0 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_cst_14 : Ref sig .tc := ⟨.hbm, 155, rfl⟩
abbrev main_v94 : Ref sig .tc := ⟨.hbm, 156, rfl⟩
abbrev main_cst_15 : Ref sig .tc := ⟨.hbm, 157, rfl⟩
abbrev main_v95 : Ref sig .tc := ⟨.hbm, 158, rfl⟩
abbrev main_v96 : Ref sig .tc := ⟨.hbm, 159, rfl⟩
abbrev main_c_16 : Ref sig .tc := ⟨.hbm, 160, rfl⟩
abbrev main_call4_cst : Ref sig .tc := ⟨.hbm, 161, rfl⟩
abbrev main_call4_v0 : Ref sig .tc := ⟨.hbm, 162, rfl⟩
abbrev main_call4_v1 : Ref sig .tc := ⟨.hbm, 163, rfl⟩
abbrev main_call4_cst_0 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_v6 : Ref sig .tc := ⟨.hbm, 169, rfl⟩
abbrev main_call4_v7 : Ref sig .tc := ⟨.hbm, 170, rfl⟩
abbrev main_call4_cst_1 : Ref sig .tc := ⟨.hbm, 171, rfl⟩
abbrev main_call4_v8 : Ref sig .tc := ⟨.hbm, 172, rfl⟩
abbrev main_call4_cst_2 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_cst_3 : Ref sig .tc := ⟨.hbm, 177, rfl⟩
abbrev main_call4_v12 : Ref sig .tc := ⟨.hbm, 178, rfl⟩
abbrev main_call4_cst_4 : Ref sig .tc := ⟨.hbm, 179, rfl⟩
abbrev main_call4_call0_v0 : Ref sig .tc := ⟨.hbm, 180, rfl⟩
abbrev main_call4_call0_v1 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_cst_17 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_call5_cst : Ref sig .tc := ⟨.hbm, 199, rfl⟩
abbrev main_call5_v0 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  transposes_S64x128_S128x64_1_0 : S64x128.Transposes [1, 0] S128x64
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibInput.lean ====
import Idealize.ShloMosaic.Lib.Pipeline.FrameBody

noncomputable section

namespace Cert.LibInput

open Idealize.ShloMosaic Idealize.ShloMosaic.Pipeline Idealize.SL Idealize.SL.RA

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (dat : Dat τ Val Ix Name U Lvl cfg c)

theorem before_in_eq_after (w : Fin cfg.W) (hw : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (h : ∀ t d, dat.fetched w t d = dat.after w t)
    (t : Fin cfg.N) (d : (cfg.win w).block.Idx → Val (cfg.win w).elt) : dat.before w t d = dat.after w t :=
  (dat.before_in_eq_fetched w hw hlive hclip
    (fun t => (congrArg ((cfg.win w).cut _) (h t (dat.after w t)).symm).trans (dat.cut_fetched w t _)) t d).trans (h t d)

end Cert.LibInput

end
-- ==== Proof.RegA0.lean ====
import proofs.«117495_j42150809043597_1_alg».proof.Proof.Gen.KernelIdeal.Launch
import proofs.«117495_j42150809043597_1_alg».proof.Proof.Gen.KernelIdeal.Skeleton
import proofs.«117495_j42150809043597_1_alg».proof.Proof.Gen.KernelIdeal.Points
import proofs.«117495_j42150809043597_1_alg».proof.Proof.LibInput
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S5000x32 := Rect.unit (s := S5000x32) ![0, 0] S5000x32.size inb_S5000x32_S5000x32_0_0
abbrev rW0 : Rect S32x64 := Rect.unit (s := S32x64) ![0, 0] S32x64.size inb_S32x64_S32x64_0_0
abbrev rB0 : Rect S1x64 := Rect.unit (s := S1x64) ![0, 0] S1x64.size inb_S1x64_S1x64_0_0
abbrev rO0 : Rect S5000x64 := Rect.unit (s := S5000x64) ![0, 0] S5000x64.size inb_S5000x64_S5000x64_0_0

def out0_5 (x0 x1 : Vec F S5000x32 .f32) (x2 : Vec F S32x64 .f32) (x3 : Vec F S1x64 .f32) (x4 : Vec F S32x64 .f32) :
    Vec F S5000x64 .f32 :=
  View.canon [⟨rO0, k0_pay1 (View.ld x0 rA0) (View.ld x1 rA0) (View.ld x2 rW0) (View.ld x4 rW0) (View.ld x3 rB0)⟩]

theorem cover0_5 (p0 : Vec F S5000x64 .f32) (y : S5000x64.Idx) :
    ∃ pc ∈ ([⟨rO0, p0⟩] : List (View.Piece (Elt F) S5000x64 .f32)), y ∈ pc.1.set :=
  View.cover_of_tiled [⟨rO0, p0⟩] S5000x64.size (by rfl) y

set_option maxHeartbeats 1000000 in
-- The body's one store covers the output buffer: what it leaves there is a function of the five inputs alone.
theorem sound_kernel0 (c : Dev nD) (E : Set ℕ) (i : grid0.Coords)
    (a1 : Memref sig .tc .vmem S5000x32 .f32) (h1 : a1.IsWhole) (a2 : Memref sig .tc .vmem S5000x32 .f32) (h2 : a2.IsWhole)
    (a3 : Memref sig .tc .vmem S32x64 .f32) (h3 : a3.IsWhole) (a4 : Memref sig .tc .vmem S1x64 .f32) (h4 : a4.IsWhole)
    (a5 : Memref sig .tc .vmem S32x64 .f32) (h5 : a5.IsWhole) (a6 : Memref sig .tc .vmem S5000x64 .f32) (h6 : a6.IsWhole)
    (x0 x1 : Vec F S5000x32 .f32) (x2 : Vec F S32x64 .f32) (x3 : Vec F S1x64 .f32) (x4 : Vec F S32x64 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out0_5 x0 x1 x2 x3 x4)) -∗ K ⟨⟩))
      ⊢ wp frame (wpE (defs₀ (F := F)) Variants.none c none) E (cc0__sage_combine_kernel i a1 h1 a2 h2 a3 h3 a4 h4 a5 h5 a6 h6) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Phi_eq0 (c : Dev nD) (t : Fin (cfg0.N + 1)) : (dat0 V c).Φ t = Pipeline.ΦA spec0 c := by dsimp only [dat0]
theorem owed_eq0 (c : Dev nD) (t : Fin (cfg0.N + 1)) : (dat0 V c).owed t = 0 := by dsimp only [dat0]
theorem q_eq0 (c : Dev nD) (w : Fin cfg0.W) : (dat0 V c).q w = fullShare := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0 (c : Dev nD) (t : Fin cfg0.N) : ∀ w : Fin cfg0.W, w.val < 5 → ∀ d, (dat0 V c).before w t d = (dat0 V c).after w t
  | ⟨0, _⟩, _, d | ⟨1, _⟩, _, d | ⟨2, _⟩, _, d | ⟨3, _⟩, _, d | ⟨4, _⟩, _, d =>
    LibInput.before_in_eq_after (dat0 V c) _ rfl (fun _ => rfl) (fun _ _ _ => rfl)
      (fun _ _ => by dsimp only [dat0, Dat.fetched, Dat.blockOf]; rfl) t d
  | ⟨5, _⟩, h, _ => absurd h (Nat.lt_irrefl 5)

-- The body's triple applies at every point; the invariant and the dues pass through unread.
theorem body_obligation0 (c : Dev nD) : BodyObligation (dat0 (F := F) V c) (defs₀ (F := F)) Variants.none () Set.univ := fun t => by
  rw [bigSep_W0, bigSep_W0]
  simp (disch := decide) only [before0 V c t]
  dsimp only [dat0]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  iframe
  iexact Ho

end Cert.KernelIdeal.Reg

end
-- ==== Proof.RegA1.lean ====
import proofs.«117495_j42150809043597_1_alg».proof.Proof.Gen.KernelIdeal.Launch
import proofs.«117495_j42150809043597_1_alg».proof.Proof.Gen.KernelIdeal.Skeleton
import proofs.«117495_j42150809043597_1_alg».proof.Proof.Gen.KernelIdeal.Points
import proofs.«117495_j42150809043597_1_alg».proof.Proof.LibInput
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0
abbrev rO1 : Rect S5000x64 := Rect.unit (s := S5000x64) ![0, 0] S5000x64.size inb_S5000x64_S5000x64_0_0

def out1_5 (x0 x1 : Vec F S5000x64 .f32) (x2 : Vec F S64x64 .f32) (x3 : Vec F S1x64 .f32) (x4 : Vec F S64x64 .f32) :
    Vec F S5000x64 .f32 :=
  View.canon [⟨rO1, k1_pay1 (View.ld x0 rA1) (View.ld x1 rA1) (View.ld x2 rW1) (View.ld x4 rW1) (View.ld x3 rB1)⟩]

theorem cover1_5 (p0 : Vec F S5000x64 .f32) (y : S5000x64.Idx) :
    ∃ pc ∈ ([⟨rO1, p0⟩] : List (View.Piece (Elt F) S5000x64 .f32)), y ∈ pc.1.set :=
  View.cover_of_tiled [⟨rO1, p0⟩] S5000x64.size (by rfl) y

set_option maxHeartbeats 1000000 in
-- The body's one store covers the output buffer: what it leaves there is a function of the five inputs alone.
theorem sound_kernel1 (c : Dev nD) (E : Set ℕ) (i : grid1.Coords)
    (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S64x64 .f32) (h5 : a5.IsWhole) (a6 : Memref sig .tc .vmem S5000x64 .f32) (h6 : a6.IsWhole)
    (x0 x1 : Vec F S5000x64 .f32) (x2 : Vec F S64x64 .f32) (x3 : Vec F S1x64 .f32) (x4 : Vec F S64x64 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out1_5 x0 x1 x2 x3 x4)) -∗ K ⟨⟩))
      ⊢ wp frame (wpE (defs₀ (F := F)) Variants.none c none) E (cc1__sage_combine_kernel i a1 h1 a2 h2 a3 h3 a4 h4 a5 h5 a6 h6) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem Phi_eq1 (c : Dev nD) (t : Fin (cfg1.N + 1)) : (dat1 V c).Φ t = Pipeline.ΦA spec1 c := by dsimp only [dat1]
theorem owed_eq1 (c : Dev nD) (t : Fin (cfg1.N + 1)) : (dat1 V c).owed t = 0 := by dsimp only [dat1]
theorem q_eq1 (c : Dev nD) (w : Fin cfg1.W) : (dat1 V c).q w = fullShare := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1 (c : Dev nD) (t : Fin cfg1.N) : ∀ w : Fin cfg1.W, w.val < 5 → ∀ d, (dat1 V c).before w t d = (dat1 V c).after w t
  | ⟨0, _⟩, _, d | ⟨1, _⟩, _, d | ⟨2, _⟩, _, d | ⟨3, _⟩, _, d | ⟨4, _⟩, _, d =>
    LibInput.before_in_eq_after (dat1 V c) _ rfl (fun _ => rfl) (fun _ _ _ => rfl)
      (fun _ _ => by dsimp only [dat1, Dat.fetched, Dat.blockOf]; rfl) t d
  | ⟨5, _⟩, h, _ => absurd h (Nat.lt_irrefl 5)

-- The body's triple applies at every point; the invariant and the dues pass through unread.
theorem body_obligation1 (c : Dev nD) : BodyObligation (dat1 (F := F) V c) (defs₀ (F := F)) Variants.none () Set.univ := fun t => by
  rw [bigSep_W1, bigSep_W1]
  simp (disch := decide) only [before1 V c t]
  dsimp only [dat1]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe
  iexact Ho

end Cert.KernelIdeal.Reg

end
-- ==== Proof.LibWhole.lean ====
import Idealize.ShloMosaic.Lib.Pipeline.FrameBody
import Idealize.ShloMosaic.Lib.Pipeline.Value

noncomputable section

namespace Cert.LibWhole

open Idealize.ShloMosaic Idealize.SL Idealize.SL.RA
open Idealize.SL.BI (sProp)
open scoped Idealize.SL.BI
open Idealize.SL.BI.BIBase Idealize.SL.BI.Laws Idealize.SL.ProofMode

variable {nD : Nat} {τ : Topo} {sig : RefSig} {Val : EltTy → Type}
variable {Ix : Type} [DecidableEq Ix] {Name : Type} [DecidableEq Name] {U : Type} [URA U] {Lvl : Type}
variable {κ : Kind} {sp : Space} {e : EltTy} {d : Fin 2 → ℕ}

theorem off2_zero : (![0, 0] : Fin 2 → ℕ) = fun _ => 0 := by funext a; fin_cases a <;> rfl

-- A load of a whole rank-2 buffer reads its contents.
theorem readAt_whole2 (v : View sig κ sp ⟨2, d⟩ e) (f : v.ty.Contents Val) (inb : ∀ a, (![0, 0] : Fin 2 → ℕ) a + d a ≤ d a) :
    v.readAt Val (Rect.unit (s := ⟨2, d⟩) ![0, 0] d inb).toLoadRect f = v.read Val f :=
  (View.readAt_eq_ld v f _).trans (View.ld_unit_zero off2_zero inb _)

-- A whole store, last, leaves its payload whatever was stored before.
theorem read_writes_whole2 [∀ e, Nonempty (Val e)] (v : View sig κ sp ⟨2, d⟩ e) (f : v.ty.Contents Val)
    (inb : ∀ a, (![0, 0] : Fin 2 → ℕ) a + d a ≤ d a) (w : (⟨2, d⟩ : Shape).Idx → Val e) (L : List (View.Piece Val ⟨2, d⟩ e)) :
    v.read Val (v.writes Val f (⟨Rect.unit (s := ⟨2, d⟩) ![0, 0] d inb, w⟩ :: L)) = w :=
  (View.read_writes_eq_canon v f _ fun y => ⟨_, List.mem_cons_self, View.mem_set_unit_zero off2_zero inb y⟩).trans
    (View.canon_cons_unit_zero off2_zero inb w L)

-- A buffer whose contents read X is owned at X.
theorem owns_of (c : Thread nD τ) {sh : Shape} (m : Memref sig c.2.kind sp sh e) (q : PosShare TreeShare)
    (f : m.view.ty.Contents Val) {X : sh.Idx → Val e} (h : m.view.read Val f = X) :
    (m.view.loc c ↦[m.view.set]{q} f : sProp (MT nD τ sig Ix Val Name U Lvl))
      ⊢ iprop(∃ g, ⌜m.view.read Val g = X⌝ ∗ (m.view.loc c ↦[m.view.set]{q} g)) :=
  h ▸ owns_intro c m q f

end Cert.LibWhole

end
-- ==== Proof.RegR2.lean ====
import proofs.«117495_j42150809043597_1_alg».proof.Proof.Gen.KernelIdeal.Launch
import proofs.«117495_j42150809043597_1_alg».proof.Proof.Gen.KernelIdeal.Skeleton
import proofs.«117495_j42150809043597_1_alg».proof.Proof.Gen.KernelIdeal.Points
import proofs.«117495_j42150809043597_1_alg».proof.Proof.LibWhole
import Idealize.ShloMosaic.Lib.Tactic

noncomputable section

namespace Cert.KernelIdeal.Reg

open Cert.KernelIdeal Cert.KernelIdeal.Gen Cert.LibWhole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop :=
  (Scalar.cmpi .ne (Scalar.extui (Scalar.cmpi .eq (BitVec.ofNat 32 (i 0).val) 0#32)) 0#32) = 1#1
abbrev cond2_1 (i : grid2.Coords) : Prop := k2_cond2 i = 1#1

-- The first condition holds at the first point only; the second alone tells the two small outputs' points from the rest.
theorem pts2 : ∀ t : Fin cfg2.N, (cond2_0 (grid2.coords t) ↔ t.val = 0) ∧ ∀ w : Fin cfg2.W,
    if w.val < 4 ∨ cond2_1 (grid2.coords t) then cfg2.idle w (grid2.coords t) = false
    else cfg2.idle w (grid2.coords t) = true ∧ (cfg2.win w).flush t = false :=
  (by decide +kernel : ∀ t : Fin grid2.N, _)

abbrev scM2_0 : Memref sig .tc .vmem S1x128 .f32 := Memref.whole cc2_scratch0
abbrev scM2_1 : Memref sig .tc .vmem S1x128 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ rest2 (F := F) c) ∗ (∃ r, prngReg c r)) := by
  unfold Pipeline.ΦA; rw [scopedRest2_split]; simp only [scM2_0, scM2_1, owns_whole]; try rfl

-- The two carried rows after n points: zero, then each point adds its block's column sums (of the values, of their squares).
def rows2 (c : Dev nD) : (n : ℕ) → n ≤ cfg2.N → Vec F S1x128 .f32 × Vec F S1x128 .f32
  | 0, _ => (k2_pay1, k2_pay2)
  | n + 1, h => (k2_pay4 (iblk2 V c 0 ⟨n, h⟩) (iblk2 V c 1 ⟨n, h⟩) (iblk2 V c 2 ⟨n, h⟩) (rows2 c n (Nat.le_of_lt h)).1,
      k2_pay5 (iblk2 V c 0 ⟨n, h⟩) (iblk2 V c 1 ⟨n, h⟩) (iblk2 V c 2 ⟨n, h⟩) (rows2 c n (Nat.le_of_lt h)).2)

-- Point t finds them so once the first point has reset them.
theorem rows2_at (c : Dev nD) (t : Fin cfg2.N) (s : Vec F S1x128 .f32 × Vec F S1x128 .f32) (hs : t.val ≠ 0 → s = rows2 V c t.val (Nat.le_of_lt t.isLt)) :
    rows2 V c t.val (Nat.le_of_lt t.isLt) = if cond2_0 (grid2.coords t) then (k2_pay1, k2_pay2) else (s.1, s.2) := by
  obtain ⟨n, hn⟩ := t
  cases n with
  | zero => exact (if_pos ((pts2 ⟨0, hn⟩).1.mpr rfl)).symm
  | succ n => exact ((if_neg fun hc => Nat.succ_ne_zero n ((pts2 ⟨n + 1, hn⟩).1.mp hc)).trans (hs (Nat.succ_ne_zero n))).symm

-- The invariant: the two rows at some contents, which from the second point on are the accumulated ones.
def PhiS2 (c : Dev nD) (t : Fin (cfg2.N + 1)) : sProp 𝕄 :=
  iprop(∃ s : Vec F S1x128 .f32 × Vec F S1x128 .f32, ⌜t.val ≠ 0 → s = rows2 V c t.val (Nat.le_of_lt_succ t.isLt)⌝
    ∗ owns (c : Thread nD τ) scM2_0 fullShare s.1 ∗ owns (c : Thread nD τ) scM2_1 fullShare s.2 ∗ rest2 (F := F) c ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (iblk2 V c 0 t) (iblk2 V c 1 t) (iblk2 V c 2 t)
    | ⟨4, _⟩ => (rows2 V c (t.val + 1) t.isLt).1
    | ⟨5, _⟩ => (rows2 V c (t.val + 1) t.isLt).2
  Φ := PhiS2 V c
  q _ := fullShare
  owed _ := 0

theorem A_eq2 (c : Dev nD) (w : Fin cfg2.W) : (dat2 V c).A w = V c (Pipeline.arrRef spec2 w) := by
  dsimp only [dat2]
theorem owed_eq2 (c : Dev nD) (t : Fin (cfg2.N + 1)) : (dat2 V c).owed t = 0 := by dsimp only [dat2]
theorem q_eq2 (c : Dev nD) (w : Fin cfg2.W) : (dat2 V c).q w = fullShare := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem leaves2_live (c : Dev nD) (t : Fin cfg2.N) (w : Fin cfg2.W) (hw : w.val < 4) :
    owns (c : Thread nD τ) ((cfg2.win w).stage (cfg2.slots t w)) fullShare ((dat2 V c).after w t) ⊢ (dat2 V c).leavesExact w t := by
  have h := (pts2 t).2 w
  rw [if_pos (.inl hw)] at h; unfold Dat.leavesExact; rw [h]

theorem leaves2_small (c : Dev nD) (t : Fin cfg2.N) (w : Fin cfg2.W) (hw : ¬w.val < 4) (d) :
    owns (c : Thread nD τ) ((cfg2.win w).stage (cfg2.slots t w)) fullShare
        (if cond2_1 (grid2.coords t) then (dat2 V c).after w t else (dat2 V c).before w t d)
      ⊢ (dat2 V c).leavesExact w t := by
  have h := (pts2 t).2 w
  by_cases hc : cond2_1 (grid2.coords t)
  · rw [if_pos (.inr hc)] at h; rw [if_pos hc]; unfold Dat.leavesExact; rw [h]
  · rw [if_neg (not_or.mpr ⟨hw, hc⟩)] at h; rw [if_neg hc, Dat.leavesExact_idle _ w t h.1 h.2]; iintro H; iexists d; iexact H

-- The body on whole buffers: it resets the rows under the first condition, stores the block and adds its column sums to the rows, and copies the rows out under the second.
theorem sound_kernel2 (c : Dev nD) (E : Set ℕ) (i : grid2.Coords)
    (a1 : Memref sig .tc .vmem S5000x64 .f32) (h1 : a1.IsWhole) (a2 : Memref sig .tc .vmem S64x128 .f32) (h2 : a2.IsWhole)
    (a3 : Memref sig .tc .vmem S1x128 .f32) (h3 : a3.IsWhole) (a4 : Memref sig .tc .vmem S5000x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (a8 : Memref sig .tc .vmem S1x128 .f32) (h8 : a8.IsWhole)
    (x : Vec F S5000x64 .f32) (w : Vec F S64x128 .f32) (b : Vec F S1x128 .f32) (o : Vec F S5000x128 .f32) (o4 o5 s0 s1 : Vec F S1x128 .f32) (s : Vec F S1x128 .f32 × Vec F S1x128 .f32)
    (hs : s = if cond2_0 i then (k2_pay1, k2_pay2) else (s0, s1)) (K : PUnit → sProp 𝕄) :
    iprop(owns (c : Thread nD τ) a1 fullShare x ∗ owns (c : Thread nD τ) a2 fullShare w ∗ owns (c : Thread nD τ) a3 fullShare b
        ∗ owns (c : Thread nD τ) a4 fullShare o ∗ owns (c : Thread nD τ) a5 fullShare o4 ∗ owns (c : Thread nD τ) a6 fullShare o5
        ∗ owns (c : Thread nD τ) a7 fullShare s0 ∗ owns (c : Thread nD τ) a8 fullShare s1
        ∗ (iprop(owns (c : Thread nD τ) a1 fullShare x ∗ owns (c : Thread nD τ) a2 fullShare w ∗ owns (c : Thread nD τ) a3 fullShare b
            ∗ owns (c : Thread nD τ) a4 fullShare (k2_pay3 x w b)
            ∗ owns (c : Thread nD τ) a5 fullShare (if cond2_1 i then k2_pay4 x w b s.1 else o4)
            ∗ owns (c : Thread nD τ) a6 fullShare (if cond2_1 i then k2_pay5 x w b s.2 else o5)
            ∗ owns (c : Thread nD τ) a7 fullShare (k2_pay4 x w b s.1) ∗ owns (c : Thread nD τ) a8 fullShare (k2_pay5 x w b s.2)) -∗ K ⟨⟩))
      ⊢ wp frame (wpE (defs₀ (F := F)) Variants.none c none) E (cc2__fc_stats_kernel i a1 h1 a2 h2 a3 h3 a4 h4 a5 h5 a6 h6 a7 h7 a8 h8) K := by
  simp only [cc2__fc_stats_kernel_eq_skeleton]; unfold cc2__fc_stats_kernel_skel
  simp only [k2_part1_eq_skeleton]; unfold k2_part1_skel
  by_cases hc0 : cond2_0 i <;> by_cases hc1 : cond2_1 i
  all_goals
    first | rw [if_pos hc0] at hs | rw [if_neg hc0] at hs
    first | rw [if_pos hc1, if_pos hc1] | rw [if_neg hc1, if_neg hc1]
    subst hs
    unfold owns
    iintro ⟨⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    subst hf1 hf2 hf3 hf5 hf6 hf7 hf8
    sl_exec (disch := first | exact hc0 | exact hc1)
    sl_step
    iapply Hk
    isplitl [H1]; · iapply owns_of _ _ _ _ rfl $$ H1
    isplitl [H2]; · iapply owns_of _ _ _ _ rfl $$ H2
    isplitl [H3]; · iapply owns_of _ _ _ _ rfl $$ H3
    isplitl [H4]; iapply owns_of _ _ _ _ ?_ $$ H4; rotate_left
    isplitl [H5]; iapply owns_of _ _ _ _ ?_ $$ H5; rotate_left
    isplitl [H6]; iapply owns_of _ _ _ _ ?_ $$ H6; rotate_left
    isplitl [H7]; iapply owns_of _ _ _ _ ?_ $$ H7; rotate_left
    iapply owns_of _ _ _ _ ?_ $$ H8
  all_goals first | with_reducible rfl | (sl_unfold_run_names; simp only [readAt_whole2, View.readCov_cons_toLoadRect, read_writes_whole2])

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

-- The body at any point: the invariant lends it the two rows and takes them back one point further; the rest passes through unread.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.castSucc = PhiS2 V c t.castSucc from rfl, show (dat2 V c).Φ t.succ = PhiS2 V c t.succ from rfl]
  unfold PhiS2
  iintro ⟨⟨%s, %hs, HS0, HS1, Hr, Hg⟩, Ho, ⟨%e0, H0⟩, ⟨%e1, H1⟩, ⟨%e2, H2⟩, ⟨%e3, H3⟩, ⟨%e4, H4⟩, ⟨%e5, H5⟩⟩
  iapply sound_kernel2 c Set.univ (grid2.coords t) _ _ _ _ _ _ _ _ _ _ _ _ _ _ _ _ (iblk2 V c 0 t) (iblk2 V c 1 t) (iblk2 V c 2 t)
    _ _ _ s.1 s.2 _ (rows2_at V c t s hs)
  iframe H0 H1 H2 H3 H4 H5 HS0 HS1
  iintro ⟨H0, H1, H2, H3, H4, H5, HS0, HS1⟩
  isplitl [HS0 HS1 Hr Hg]
  · iexists rows2 V c (t.val + 1) t.isLt; iframe Hr Hg
    isplitr; · ipureintro; exact fun _ => rfl
    isplitl [HS0]; · iexact HS0
    iexact HS1
  iframe Ho
  isplitl [H0]; · iapply leaves2_live V c t 0 (by decide); iexact H0
  isplitl [H1]; · iapply leaves2_live V c t 1 (by decide); iexact H1
  isplitl [H2]; · iapply leaves2_live V c t 2 (by decide); iexact H2
  isplitl [H3]; · iapply leaves2_live V c t 3 (by decide); iexact H3
  isplitl [H4]; · iapply leaves2_small V c t 4 (by decide) e4; iexact H4
  iapply leaves2_small V c t 5 (by decide) e5; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq, show (dat2 V c).Φ 0 = PhiS2 V c 0 from rfl]; unfold PhiS2
  iintro ⟨⟨⟨⟨%d0, H0⟩, ⟨%d1, H1⟩⟩, Hr⟩, Hg⟩
  iexists (d0, d1); iframe
  ipureintro; exact fun h => absurd rfl h

theorem hout2 (c : Dev nD) : (dat2 V c).Φ (Fin.last cfg2.N) ⊢ Pipeline.ΦA spec2 c := by
  rw [PhiA2_eq, show (dat2 V c).Φ (Fin.last cfg2.N) = PhiS2 V c (Fin.last cfg2.N) from rfl]; unfold PhiS2
  iintro ⟨%s, -, H0, H1, Hr, Hg⟩
  iframe Hr Hg
  isplitl [H0]; · iexists _; iexact H0
  iexists _; iexact H1

end Cert.KernelIdeal.Reg

end
-- ==== Proof.RegR3.lean ====
import proofs.«117495_j42150809043597_1_alg».proof.Proof.Gen.KernelIdeal.Launch
import proofs.«117495_j42150809043597_1_alg».proof.Proof.Gen.KernelIdeal.Skeleton
import proofs.«117495_j42150809043597_1_alg».proof.Proof.Gen.KernelIdeal.Points
import proofs.«117495_j42150809043597_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 20 = 0 := by decide +kernel

abbrev cond3_1 (i : grid3.Coords) : Prop := k3_cond2 i = 1#1
theorem hcond3_1 : ∀ t : Fin cfg3.N, cond3_1 (grid3.coords t) ↔ t.val % 20 = 19 := by decide +kernel

theorem idle3 : ∀ t : Fin cfg3.N, (¬t.val % 20 = 19 → cfg3.idle 6 (grid3.coords t) = true ∧ (cfg3.win 6).flush t = false
      ∧ cfg3.idle 7 (grid3.coords t) = true ∧ (cfg3.win 7).flush t = false)
    ∧ (t.val % 20 = 19 → cfg3.idle 6 (grid3.coords t) = false ∧ cfg3.idle 7 (grid3.coords t) = false) := by decide +kernel

abbrev scM3_0 : Memref sig .tc .vmem S1x64 .f32 := Memref.whole cc3_scratch0
abbrev scM3_1 : Memref sig .tc .vmem S1x64 .f32 := Memref.whole cc3_scratch1

abbrev rest3 (c : Dev nD) : sProp 𝕄 :=
  Pipeline.scopedRestBut (Ix := Unit) (Name := ℕ) (U := UR sig nD τ) (Lvl := ℕ) (Val := Elt F) spec3 c [cc3_scratch0, cc3_scratch1]

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 (F := F) c) ∗ (∃ r, prngReg c r)) := by
  unfold Pipeline.ΦA; rw [scopedRest3_split]; simp only [scM3_0, scM3_1, owns_whole]; try rfl

def owns3 (c : Dev nD) (a1 : Memref sig .tc .vmem S5000x128 .f32) (a2 a3 : Memref sig .tc .vmem S1x128 .f32) (a4 : Memref sig .tc .vmem S128x64 .f32)
    (a5 : Memref sig .tc .vmem S1x64 .f32) (a6 : Memref sig .tc .vmem S5000x64 .f32) (a7 a8 a9 a10 : Memref sig .tc .vmem S1x64 .f32)
    (x0 : Vec F S5000x128 .f32) (x1 x2 : Vec F S1x128 .f32) (x3 : Vec F S128x64 .f32) (x4 : Vec F S1x64 .f32) (x5 : Vec F S5000x64 .f32)
    (x6 x7 x8 x9 : Vec F S1x64 .f32) : sProp 𝕄 :=
  iprop(owns (c : Thread nD τ) a1 fullShare x0 ∗ owns (c : Thread nD τ) a2 fullShare x1 ∗ owns (c : Thread nD τ) a3 fullShare x2
    ∗ owns (c : Thread nD τ) a4 fullShare x3 ∗ owns (c : Thread nD τ) a5 fullShare x4 ∗ owns (c : Thread nD τ) a6 fullShare x5
    ∗ owns (c : Thread nD τ) a7 fullShare x6 ∗ owns (c : Thread nD τ) a8 fullShare x7 ∗ owns (c : Thread nD τ) a9 fullShare x8
    ∗ owns (c : Thread nD τ) a10 fullShare x9)

set_option maxHeartbeats 2000000 in
-- The body on whole memrefs: the carried rows, reset at the first point, gain the block's column sums; the small outputs take them at the last point only.
theorem sound_kernel3 (c : Dev nD) (E : Set ℕ) (i : grid3.Coords) (arg1 : Memref sig .tc .vmem S5000x128 .f32) (arg2 arg3 : Memref sig .tc .vmem S1x128 .f32) (arg4 : Memref sig .tc .vmem S128x64 .f32) (arg5 : Memref sig .tc .vmem S1x64 .f32)
    (arg6 : Memref sig .tc .vmem S5000x64 .f32) (arg7 arg8 arg9 arg10 : Memref sig .tc .vmem S1x64 .f32) (harg1 : arg1.IsWhole) (harg2 : arg2.IsWhole) (harg3 : arg3.IsWhole) (harg4 : arg4.IsWhole)
    (harg5 : arg5.IsWhole) (harg6 : arg6.IsWhole) (harg7 : arg7.IsWhole) (harg8 : arg8.IsWhole) (harg9 : arg9.IsWhole) (harg10 : arg10.IsWhole)
    (hc : cond3_0 i → ¬cond3_1 i) (x0 : Vec F S5000x128 .f32) (x1 x2 : Vec F S1x128 .f32) (x3 : Vec F S128x64 .f32) (x4 : Vec F S1x64 .f32)
    (x5 : Vec F S5000x64 .f32) (x6 x7 x8 x9 y6 y7 : Vec F S1x64 .f32)
    (hy : (cond3_1 i → y6 = k3_pay5 x0 x1 x2 x3 x4 (if cond3_0 i then k3_pay2 else x8) ∧ y7 = k3_pay1 (k3_pay4 x0 x1 x2 x3 x4) (if cond3_0 i then k3_pay3 else x9))
      ∧ (¬cond3_1 i → y6 = x6 ∧ y7 = x7)) (K : PUnit → sProp 𝕄) :
    iprop(owns3 c arg1 arg2 arg3 arg4 arg5 arg6 arg7 arg8 arg9 arg10 x0 x1 x2 x3 x4 x5 x6 x7 x8 x9
        ∗ (owns3 c arg1 arg2 arg3 arg4 arg5 arg6 arg7 arg8 arg9 arg10 x0 x1 x2 x3 x4 (k3_pay4 x0 x1 x2 x3 x4) y6 y7
            (k3_pay5 x0 x1 x2 x3 x4 (if cond3_0 i then k3_pay2 else x8)) (k3_pay1 (k3_pay4 x0 x1 x2 x3 x4) (if cond3_0 i then k3_pay3 else x9)) -∗ K ⟨⟩))
      ⊢ wp frame (wpE (defs₀ (F := F)) Variants.none c none) E (cc3__bn_fc_stats_kernel i arg1 harg1 arg2 harg2 arg3 harg3 arg4 harg4 arg5 harg5 arg6 harg6 arg7 harg7 arg8 harg8 arg9 harg9 arg10 harg10) K := by
  by_cases hc0 : cond3_0 i <;> by_cases hc1 : cond3_1 i
  · exact absurd hc1 (hc hc0)
  all_goals
    obtain ⟨rfl, rfl⟩ : y6 = _ ∧ y7 = _ := by first | exact hy.1 hc1 | exact hy.2 hc1
    first | rw [if_pos hc0, if_pos hc0] | rw [if_neg hc0, if_neg hc0]
    simp only [cc3__bn_fc_stats_kernel_eq_skeleton]; unfold cc3__bn_fc_stats_kernel_skel
    simp only [k3_part1_eq_skeleton]
    unfold owns3 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]; rotate_left; isplitl [H1]; rotate_left; isplitl [H2]; rotate_left; isplitl [H3]; rotate_left; isplitl [H4]; rotate_left
    isplitl [H5]; rotate_left; isplitl [H6]; rotate_left; isplitl [H7]; rotate_left; isplitl [H8]; rotate_left
    all_goals
      iexists _; isplitr; swap; iassumption
      ipureintro
      first
        | (sl_unfold_run_names; rw [Cert.LibWhole.read_writes_whole2]
           simp only [Cert.LibWhole.readAt_whole2, View.readCov_cons_toLoadRect, harg1.read_unread, harg2.read_unread, harg3.read_unread, harg4.read_unread,
             harg5.read_unread, harg9.read_unread, harg10.read_unread])
        | exact Memref.IsWhole.read_unread _ _

def step3 (a : Vec F S5000x128 .f32) (sc sh : Vec F S1x128 .f32) (w : Vec F S128x64 .f32) (b : Vec F S1x64 .f32) (s0 s1 : Vec F S1x64 .f32) :
    Vec F S5000x64 .f32 × Vec F S1x64 .f32 × Vec F S1x64 .f32 × Vec F S1x64 .f32 × Vec F S1x64 .f32 :=
  (k3_pay4 a sc sh w b, k3_pay5 a sc sh w b s0, k3_pay1 (k3_pay4 a sc sh w b) s1, k3_pay5 a sc sh w b s0, k3_pay1 (k3_pay4 a sc sh w b) s1)

-- After the body at position n: the output block, the two small outputs' rows, the two carried rows.
def outsAt3 (c : Dev nD) : (n : ℕ) → n < cfg3.N →
    Vec F S5000x64 .f32 × Vec F S1x64 .f32 × Vec F S1x64 .f32 × Vec F S1x64 .f32 × Vec F S1x64 .f32
  | 0, hn => step3 (iblk3 V c 0 ⟨0, hn⟩) (iblk3 V c 1 ⟨0, hn⟩) (iblk3 V c 2 ⟨0, hn⟩) (iblk3 V c 3 ⟨0, hn⟩) (iblk3 V c 4 ⟨0, hn⟩) (k3_pay2 (F := F)) (k3_pay3 (F := F))
  | n + 1, hn => step3 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
      (outsAt3 c n (Nat.lt_of_succ_lt hn)).2.2.2.1 (outsAt3 c n (Nat.lt_of_succ_lt hn)).2.2.2.2

-- One step from the rows the point finds, whatever they are at the first point.
theorem outsAt3_eq (c : Dev nD) (t : Fin cfg3.N) (s0 s1 : Vec F S1x64 .f32)
    (hs : t.val ≠ 0 → s0 = (outsAt3 V c (t.val - 1) (Nat.lt_of_le_of_lt (Nat.sub_le _ _) t.isLt)).2.2.2.1
      ∧ s1 = (outsAt3 V c (t.val - 1) (Nat.lt_of_le_of_lt (Nat.sub_le _ _) t.isLt)).2.2.2.2) :
    outsAt3 V c t.val t.isLt = step3 (iblk3 V c 0 t) (iblk3 V c 1 t) (iblk3 V c 2 t) (iblk3 V c 3 t) (iblk3 V c 4 t)
      (if cond3_0 (grid3.coords t) then k3_pay2 else s0) (if cond3_0 (grid3.coords t) then k3_pay3 else s1) := by
  obtain ⟨n, hn⟩ := t
  cases n with
  | zero => rw [if_pos ((hcond3_0 _).2 rfl), if_pos ((hcond3_0 _).2 rfl)]; rfl
  | succ n =>
    have h0 : ¬cond3_0 (grid3.coords ⟨n + 1, hn⟩) := fun h => by
      have := (hcond3_0 _).1 h; have : n + 1 < 20 := lt_of_lt_of_eq hn N_3; dsimp only at *; omega
    obtain ⟨rfl, rfl⟩ := hs (Nat.succ_ne_zero n)
    rw [if_neg h0, if_neg h0]; rfl

-- The region invariant before position n: the two carried rows at what the point before left (at anything before the first point).
def PhiS3 (c : Dev nD) (n : ℕ) (hn : n ≤ cfg3.N) : sProp 𝕄 :=
  iprop(∃ s0 s1, ⌜∀ h : n ≠ 0, s0 = (outsAt3 V c (n - 1) (by omega)).2.2.2.1 ∧ s1 = (outsAt3 V c (n - 1) (by omega)).2.2.2.2⌝
    ∗ owns (c : Thread nD τ) scM3_0 fullShare s0 ∗ owns (c : Thread nD τ) scM3_1 fullShare s1 ∗ rest3 (F := F) c ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
    | ⟨7, _⟩ => (outsAt3 V c t.val t.isLt).2.2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem owed_eq3 (c : Dev nD) (t : Fin (cfg3.N + 1)) : (dat3 V c).owed t = 0 := by dsimp only [dat3]
theorem q_eq3 (c : Dev nD) (w : Fin cfg3.W) : (dat3 V c).q w = fullShare := by dsimp only [dat3]
theorem recorded_eq3 (c : Dev nD) (t : Fin (cfg3.N + 1)) : (dat3 V c).recorded t = Set.univ := by dsimp only [dat3]

theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]
theorem after3_7 (c : Dev nD) (t : Fin cfg3.N) : (dat3 V c).after 7 t = (outsAt3 V c t.val t.isLt).2.2.1 := by dsimp only [dat3]

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) := by
  refine ⟨?_, ?_, ?_, ?_, ?_⟩ <;>
    exact fun d => ((dat3 V c).before_in_eq_fetched _ rfl (fun _ => rfl) (fun _ _ _ => rfl) (fun _ => rfl) t d).trans rfl

def bodyPre3 (c : Dev nD) (t : Fin cfg3.N) : sProp 𝕄 :=
  iprop(PhiS3 V c t.val (Nat.le_of_lt t.isLt) ∗ (dat3 V c).owesAt () t.castSucc
    ∗ (∃ d, owns (c : Thread nD τ) (win3_0.stage (cfg3.slots t 0)) fullShare ((dat3 V c).before 0 t d))
    ∗ (∃ d, owns (c : Thread nD τ) (win3_1.stage (cfg3.slots t 1)) fullShare ((dat3 V c).before 1 t d))
    ∗ (∃ d, owns (c : Thread nD τ) (win3_2.stage (cfg3.slots t 2)) fullShare ((dat3 V c).before 2 t d))
    ∗ (∃ d, owns (c : Thread nD τ) (win3_3.stage (cfg3.slots t 3)) fullShare ((dat3 V c).before 3 t d))
    ∗ (∃ d, owns (c : Thread nD τ) (win3_4.stage (cfg3.slots t 4)) fullShare ((dat3 V c).before 4 t d))
    ∗ (∃ d, owns (c : Thread nD τ) (win3_5.stage (cfg3.slots t 5)) fullShare ((dat3 V c).before 5 t d))
    ∗ (∃ d, owns (c : Thread nD τ) (win3_6.stage (cfg3.slots t 6)) fullShare ((dat3 V c).before 6 t d))
    ∗ (∃ d, owns (c : Thread nD τ) (win3_7.stage (cfg3.slots t 7)) fullShare ((dat3 V c).before 7 t d)))

def bodyPost3 (c : Dev nD) (t : Fin cfg3.N) : sProp 𝕄 :=
  iprop(PhiS3 V c (t.val + 1) t.isLt ∗ (dat3 V c).owesAt () t.castSucc
    ∗ owns (c : Thread nD τ) (win3_0.stage (cfg3.slots t 0)) fullShare (iblk3 V c 0 t)
    ∗ owns (c : Thread nD τ) (win3_1.stage (cfg3.slots t 1)) fullShare (iblk3 V c 1 t)
    ∗ owns (c : Thread nD τ) (win3_2.stage (cfg3.slots t 2)) fullShare (iblk3 V c 2 t)
    ∗ owns (c : Thread nD τ) (win3_3.stage (cfg3.slots t 3)) fullShare (iblk3 V c 3 t)
    ∗ owns (c : Thread nD τ) (win3_4.stage (cfg3.slots t 4)) fullShare (iblk3 V c 4 t)
    ∗ owns (c : Thread nD τ) (win3_5.stage (cfg3.slots t 5)) fullShare (outsAt3 V c t.val t.isLt).1
    ∗ (dat3 V c).leavesExact 6 t ∗ (dat3 V c).leavesExact 7 t)

set_option maxHeartbeats 4800000 in
-- The body at any point: the invariant hands over the carried rows and takes them back one step on; the small outputs are written at the last point only.
theorem sound_body3 (c : Dev nD) (t : Fin cfg3.N) :
    bodyPre3 V c t ⊢ wp frame (wpE (defs₀ (F := F)) Variants.none c none) Set.univ (bodyAt3 t) (fun _ => bodyPost3 V c t) := by
  obtain ⟨b0, b1, b2, b3, b4⟩ := before3 V c t
  obtain ⟨hI, hL⟩ := idle3 t
  have hN : t.val < 20 := lt_of_lt_of_eq t.isLt N_3
  have hc : cond3_0 (grid3.coords t) → ¬cond3_1 (grid3.coords t) := fun h0 h1 => by
    have := (hcond3_0 t).1 h0; have := (hcond3_1 t).1 h1; omega
  unfold bodyPre3 bodyPost3 bodyAt3
  simp only [b0, b1, b2, b3, b4]
  unfold PhiS3
  by_cases h1 : t.val % 20 = 19
  on_goal 1 =>
    rw [show (dat3 V c).leavesExact 6 t = owns (c : Thread nD τ) (win3_6.stage (cfg3.slots t 6)) fullShare (outsAt3 V c t.val t.isLt).2.1 from by
        unfold Dat.leavesExact; rw [(hL h1).1]; rfl,
      show (dat3 V c).leavesExact 7 t = owns (c : Thread nD τ) (win3_7.stage (cfg3.slots t 7)) fullShare (outsAt3 V c t.val t.isLt).2.2.1 from by
        unfold Dat.leavesExact; rw [(hL h1).2]; rfl]
  on_goal 2 => rw [Dat.leavesExact_idle _ 6 t (hI h1).1 (hI h1).2.1, Dat.leavesExact_idle _ 7 t (hI h1).2.2.1 (hI h1).2.2.2]
  all_goals
    iintro ⟨⟨%s0, %s1, %hs, HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e := outsAt3_eq V c t s0 s1 hs
    conv => { arg 2; rw [e]; unfold step3; dsimp only }
    iapply (sound_kernel3 c Set.univ (grid3.coords t) _ _ _ _ _ _ _ _ _ _ _ _ _ _ _ _ _ _ _ _ hc (iblk3 V c 0 t) (iblk3 V c 1 t) (iblk3 V c 2 t) (iblk3 V c 3 t) (iblk3 V c 4 t) _ ((dat3 V c).before 6 t d6) ((dat3 V c).before 7 t d7) s0 s1 _ _
      (by first | exact ⟨fun _ => ⟨rfl, rfl⟩, fun h => absurd ((hcond3_1 t).2 h1) h⟩ | exact ⟨fun h => absurd ((hcond3_1 t).1 h) h1, fun _ => ⟨rfl, rfl⟩⟩))
    unfold owns3
    isplitl [H0 H1 H2 H3 H4 H5 H6 H7 HS0 HS1]; · iframe
    iintro ⟨H0, H1, H2, H3, H4, H5, H6, H7, HS0, HS1⟩
    isplitl [HS0 HS1 HR Hg]
    · iexists _, _; isplitr; swap; · iframe
      ipureintro; exact fun _ => ⟨congrArg (·.2.2.2.1) e.symm, congrArg (·.2.2.2.2) e.symm⟩
    iframe Ho H0 H1 H2 H3 H4 H5
    first | (isplitl [H6] <;> iexists _ <;> iassumption) | iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [PhiA3_eq]; dsimp only [dat3]; unfold PhiS3
  iintro ⟨⟨⟨⟨%d0, H0⟩, ⟨%d1, H1⟩⟩, HR⟩, Hg⟩
  iexists d0, d1
  isplitr; · ipureintro; exact fun h => absurd rfl h
  iframe

-- After the last point the carried rows' contents are forgotten.
theorem hout3 (c : Dev nD) : (dat3 V c).Φ (Fin.last cfg3.N) ⊢ Pipeline.ΦA spec3 c := by
  rw [PhiA3_eq]; dsimp only [dat3]; unfold PhiS3
  iintro ⟨%s0, %s1, -, H0, H1, HR, Hg⟩
  iframe HR Hg
  isplitl [H0] <;> iexists _ <;> iassumption

end Cert.KernelIdeal.Reg

end
-- ==== Proof.RegA4.lean ====
import proofs.«117495_j42150809043597_1_alg».proof.Proof.Gen.KernelIdeal.Launch
import proofs.«117495_j42150809043597_1_alg».proof.Proof.Gen.KernelIdeal.Skeleton
import proofs.«117495_j42150809043597_1_alg».proof.Proof.Gen.KernelIdeal.Points
import proofs.«117495_j42150809043597_1_alg».proof.Proof.LibInput
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rA4 : Rect S5000x64 := Rect.unit (s := S5000x64) ![0, 0] S5000x64.size inb_S5000x64_S5000x64_0_0
abbrev rS4 : Rect S1x64 := Rect.unit (s := S1x64) ![0, 0] S1x64.size inb_S1x64_S1x64_0_0
abbrev rW4 : Rect S64x1 := Rect.unit (s := S64x1) ![0, 0] S64x1.size inb_S64x1_S64x1_0_0
abbrev rB4 : Rect S1x1 := Rect.unit (s := S1x1) ![0, 0] S1x1.size inb_S1x1_S1x1_0_0
abbrev rO4 : Rect S5000x1 := Rect.unit (s := S5000x1) ![0, 0] S5000x1.size inb_S5000x1_S5000x1_0_0

def out4_5 (x0 : Vec F S5000x64 .f32) (x1 x2 : Vec F S1x64 .f32) (x3 : Vec F S64x1 .f32) (x4 : Vec F S1x1 .f32) :
    Vec F S5000x1 .f32 :=
  View.canon [⟨rO4, k4_pay1 (View.ld x0 rA4) (View.ld x1 rS4) (View.ld x2 rS4) (View.ld x3 rW4) (View.ld x4 rB4)⟩]

theorem cover4_5 (p0 : Vec F S5000x1 .f32) (y : S5000x1.Idx) :
    ∃ pc ∈ ([⟨rO4, p0⟩] : List (View.Piece (Elt F) S5000x1 .f32)), y ∈ pc.1.set :=
  View.cover_of_tiled [⟨rO4, p0⟩] S5000x1.size (by rfl) y

set_option maxHeartbeats 1000000 in
-- The body's one store covers the output buffer: what it leaves there is a function of the five inputs alone.
theorem sound_kernel4 (c : Dev nD) (E : Set ℕ) (i : grid4.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S64x1 .f32) (h4 : a4.IsWhole)
    (a5 : Memref sig .tc .vmem S1x1 .f32) (h5 : a5.IsWhole) (a6 : Memref sig .tc .vmem S5000x1 .f32) (h6 : a6.IsWhole)
    (x0 : Vec F S5000x64 .f32) (x1 x2 : Vec F S1x64 .f32) (x3 : Vec F S64x1 .f32) (x4 : Vec F S1x1 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out4_5 x0 x1 x2 x3 x4)) -∗ K ⟨⟩))
      ⊢ wp frame (wpE (defs₀ (F := F)) Variants.none c none) E (cc4__bn_fc3_kernel i a1 h1 a2 h2 a3 h3 a4 h4 a5 h5 a6 h6) K := by
  simp only [cc4__bn_fc3_kernel_eq_skeleton]; unfold cc4__bn_fc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem Phi_eq4 (c : Dev nD) (t : Fin (cfg4.N + 1)) : (dat4 V c).Φ t = Pipeline.ΦA spec4 c := by dsimp only [dat4]
theorem owed_eq4 (c : Dev nD) (t : Fin (cfg4.N + 1)) : (dat4 V c).owed t = 0 := by dsimp only [dat4]
theorem q_eq4 (c : Dev nD) (w : Fin cfg4.W) : (dat4 V c).q w = fullShare := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

theorem before4 (c : Dev nD) (t : Fin cfg4.N) : ∀ w : Fin cfg4.W, w.val < 5 → ∀ d, (dat4 V c).before w t d = (dat4 V c).after w t
  | ⟨0, _⟩, _, d | ⟨1, _⟩, _, d | ⟨2, _⟩, _, d | ⟨3, _⟩, _, d | ⟨4, _⟩, _, d =>
    LibInput.before_in_eq_after (dat4 V c) _ rfl (fun _ => rfl) (fun _ _ _ => rfl)
      (fun _ _ => by dsimp only [dat4, Dat.fetched, Dat.blockOf]; rfl) t d
  | ⟨5, _⟩, h, _ => absurd h (Nat.lt_irrefl 5)

-- The body's triple applies at every point; the invariant and the dues pass through unread.
theorem body_obligation4 (c : Dev nD) : BodyObligation (dat4 (F := F) V c) (defs₀ (F := F)) Variants.none () Set.univ := fun t => by
  rw [bigSep_W4, bigSep_W4]
  simp (disch := decide) only [before4 V c t]
  dsimp only [dat4]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe
  iexact Ho

end Cert.KernelIdeal.Reg

end
-- ==== Proof.Run.lean ====
import proofs.«117495_j42150809043597_1_alg».proof.Proof.Gen.KernelIdeal.Launch
import proofs.«117495_j42150809043597_1_alg».proof.Proof.Gen.KernelIdeal.Regions
import proofs.«117495_j42150809043597_1_alg».proof.Proof.RegA0
import proofs.«117495_j42150809043597_1_alg».proof.Proof.RegA1
import proofs.«117495_j42150809043597_1_alg».proof.Proof.RegR2
import proofs.«117495_j42150809043597_1_alg».proof.Proof.RegR3
import proofs.«117495_j42150809043597_1_alg».proof.Proof.RegA4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev adm : (p : Fin 5) → (pcfgs (F := F) p).Adm := fun p => (cfgs p).toPCfg_adm

-- A region's exit contents: each of its arrays at what the write-backs leave in it, every other buffer as entered.
def exitOf (p : Fin 5) (Wi : Dev nD → Valuation τ sig (Elt F))
    (d : (c : Dev nD) → Dat τ (Elt F) Unit ℕ (UR sig nD τ) ℕ (cfgs p) c) : Dev nD → Valuation τ sig (Elt F) :=
  fun c => Pipeline.withArrays (cfgs p).spec c (Wi c) fun w => (d c).arrAt w (cfgs p).N

theorem exitOf_arr {p : Fin 5} (lf : Pipeline.LaunchFacts (nD := nD) (τ := τ) cfgs p) (Wi : Dev nD → Valuation τ sig (Elt F))
    (d : (c : Dev nD) → Dat τ (Elt F) Unit ℕ (UR sig nD τ) ℕ (cfgs p) c) (c : Dev nD) (w : Fin (cfgs p).W) :
    exitOf p Wi d c (Proc.devRef .tc (Pipeline.arrRef (cfgs p).spec w)) = (d c).arrAt w (cfgs p).N :=
  Pipeline.withArrays_arr _ lf.win.arr_inj c _ _ w

theorem exitOf_of_ne (p : Fin 5) (Wi : Dev nD → Valuation τ sig (Elt F))
    (d : (c : Dev nD) → Dat τ (Elt F) Unit ℕ (UR sig nD τ) ℕ (cfgs p) c) (c : Dev nD) (b : Ref sig .tc)
    (hb : ∀ w, Pipeline.arrRef (cfgs p).spec w ≠ b) : exitOf p Wi d c (Proc.devRef .tc b) = Wi c (Proc.devRef .tc b) :=
  Pipeline.withArrays_of_ne _ c _ _ b hb

abbrev atTc (W : Dev nD → Valuation τ sig (Elt F)) : (c : Dev nD) → (b : Ref sig .tc) → Buf (Elt F) ((c : Thread nD τ).loc b) := fun c b => W c b

-- A region leaves an input window's array as it entered.
theorem exitOf_in {p : Fin 5} (lf : Pipeline.LaunchFacts (nD := nD) (τ := τ) cfgs p) (Wi : Dev nD → Valuation τ sig (Elt F))
    (d : (c : Dev nD) → Dat τ (Elt F) Unit ℕ (UR sig nD τ) ℕ (cfgs p) c) (c : Dev nD) (w : Fin (cfgs p).W)
    (hw : ((cfgs p).win w).isOut = false) (hA : (d c).A w = atTc Wi c (Pipeline.arrRef (cfgs p).spec w)) :
    exitOf p Wi d c (Proc.devRef .tc (Pipeline.arrRef (cfgs p).spec w)) = Wi c (Proc.devRef .tc (Pipeline.arrRef (cfgs p).spec w)) :=
  (exitOf_arr lf Wi d c w).trans (((d c).arrAt_in w hw _).trans hA)

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := atTc (W1 m ρ)
abbrev W2 : Dev nD → Valuation τ sig (Elt F) := exitOf 0 (W1 m ρ) (dat0 (V1 m ρ))
abbrev W3 : Dev nD → Valuation τ sig (Elt F) := fun c => StableHlo.after hostOps1 (W2 m ρ c)
abbrev V3 := atTc (W3 m ρ)
abbrev W4 : Dev nD → Valuation τ sig (Elt F) := exitOf 1 (W3 m ρ) (dat1 (V3 m ρ))
abbrev W5 : Dev nD → Valuation τ sig (Elt F) := fun c => StableHlo.after hostOps2 (W4 m ρ c)
abbrev V5 := atTc (W5 m ρ)
abbrev W6 : Dev nD → Valuation τ sig (Elt F) := exitOf 2 (W5 m ρ) (dat2 (V5 m ρ))
abbrev W7 : Dev nD → Valuation τ sig (Elt F) := fun c => StableHlo.after hostOps3 (W6 m ρ c)
abbrev V7 := atTc (W7 m ρ)
abbrev W8 : Dev nD → Valuation τ sig (Elt F) := exitOf 3 (W7 m ρ) (dat3 (V7 m ρ))
abbrev W9 : Dev nD → Valuation τ sig (Elt F) := fun c => StableHlo.after hostOps4 (W8 m ρ c)
abbrev V9 := atTc (W9 m ρ)
abbrev W10 : Dev nD → Valuation τ sig (Elt F) := exitOf 4 (W9 m ρ) (dat4 (V9 m ρ))
abbrev W11 : Dev nD → Valuation τ sig (Elt F) := fun c => StableHlo.after hostOps5 (W10 m ρ c)

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
-- What rides beside the buffers through every segment: the generator register at some state, and nothing owed.
abbrev R (c : Dev nD) : sProp 𝕄 := iprop((∃ r, prngReg c r) ∗ ∃ W, owes (c : Thread nD τ) (0 : CellTallies nD τ sig Unit) W)
abbrev held (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region as a segment: its arrays are split out of the unscoped buffers at the entry and put back at the exit contents.
def reg (p : Fin 5) (lf : Pipeline.LaunchFacts (nD := nD) (τ := τ) cfgs p) (Wi : Dev nD → Valuation τ sig (Elt F))
    (hbody : ∀ c, BodyObligation (pdats m ρ p c) (defs₀ (F := F)) 𝒱₀ () Set.univ)
    (hA : ∀ c w, (pdats m ρ p c).A w = atTc Wi c (Pipeline.arrRef (cfgs p).spec w))
    (hq : ∀ c w, (pdats m ρ p c).q w = fullShare) (howed : ∀ c t, (pdats m ρ p c).owed t = 0)
    (hrec : ∀ c, (pdats m ρ p c).recorded 0 = Set.univ)
    (hin : ∀ c, Pipeline.ΦA (cfgs p).spec c ⊢ (pdats m ρ p c).Φ 0)
    (hout : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := held Wi
  post := held (exitOf p Wi (pdats m ρ p))
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atTc Wi c)
  hentry c := by
    rw [Pipeline.ownSems0_none]
    have hsplit := Pipeline.arrays_of_unscopedBufs (p := p) (pcfgs (F := F)) adm (pdats m ρ) lf.win lf.arr_whole c
      ((pdats m ρ p c).share_full (hq c)) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun x _ => Or.inl (by rw [hrec c]; exact trivial)
      iexact HO
    isplitl [Hp]; · iexact Hp
    iexact Hrest
  hin c := by
    refine BI.Entails.trans ?_ (hin c)
    show (_ : sProp 𝕄) ⊢ (_ : sProp 𝕄)
    unfold Pipeline.ΦA
    iintro ⟨Hp, -, Hr⟩
    isplitl [Hr]; · iexact Hr
    iexact Hp
  hout c := by
    refine BI.Entails.trans (hout c) ?_
    show (_ : sProp 𝕄) ⊢ (_ : sProp 𝕄)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Wi c) (atTc (exitOf p Wi (pdats m ρ p)) c) ((pdats m ρ p c).arrAt · (Pipeline.pin (pcfgs (F := F)) adm p).N)
      (fun w => (exitOf_arr lf Wi (pdats m ρ p) c w).symm)
      (fun b hb => exitOf_of_ne p Wi (pdats m ρ p) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev reg0 := reg m ρ 0 launch0 (W1 m ρ) (body_obligation0 (V1 m ρ)) (A_eq0 (V1 m ρ)) (q_eq0 (V1 m ρ)) (owed_eq0 (V1 m ρ))
  (fun _ => rfl) (fun c => .of_eq (Phi_eq0 (V1 m ρ) c 0).symm) (fun c => .of_eq (Phi_eq0 (V1 m ρ) c (Fin.last _)))
abbrev reg1 := reg m ρ 1 launch1 (W3 m ρ) (body_obligation1 (V3 m ρ)) (A_eq1 (V3 m ρ)) (q_eq1 (V3 m ρ)) (owed_eq1 (V3 m ρ))
  (fun _ => rfl) (fun c => .of_eq (Phi_eq1 (V3 m ρ) c 0).symm) (fun c => .of_eq (Phi_eq1 (V3 m ρ) c (Fin.last _)))
abbrev reg2 := reg m ρ 2 launch2 (W5 m ρ) (body_obligation2 (V5 m ρ)) (A_eq2 (V5 m ρ)) (q_eq2 (V5 m ρ)) (owed_eq2 (V5 m ρ))
  (fun _ => rfl) (hin2 (V5 m ρ)) (hout2 (V5 m ρ))
abbrev reg3 := reg m ρ 3 launch3 (W7 m ρ) (body_obligation3 (V7 m ρ)) (A_eq3 (V7 m ρ)) (q_eq3 (V7 m ρ)) (owed_eq3 (V7 m ρ))
  (fun c => recorded_eq3 (V7 m ρ) c 0) (hin3 (V7 m ρ)) (hout3 (V7 m ρ))
abbrev reg4 := reg m ρ 4 launch4 (W9 m ρ) (body_obligation4 (V9 m ρ)) (A_eq4 (V9 m ρ)) (q_eq4 (V9 m ρ)) (owed_eq4 (V9 m ρ))
  (fun _ => rfl) (fun c => .of_eq (Phi_eq4 (V9 m ρ) c 0).symm) (fun c => .of_eq (Phi_eq4 (V9 m ρ) c (Fin.last _)))

abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ),
    .host (hseg hostOps3 hostOps3_sub hostOps3_fresh (W6 m ρ)), .region (reg3 m ρ),
    .host (hseg hostOps4 hostOps4_sub hostOps4_fresh (W8 m ρ)), .region (reg4 m ρ),
    .host (hseg hostOps5 hostOps5_sub hostOps5_fresh (W10 m ρ)) ]
theorem main_run (c : Dev nD) : main (F := F) c = Pipeline.Seg.run (segs m ρ) := (main_chain c).trans (by chain_rfl)

set_option backward.isDefEq.respectTransparency.types false in
-- Every weakly fair execution of @main terminates, nothing faulting, each core's unscoped buffers ending at `W11`.
theorem run_all : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := held (W0 m ρ)) (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ (∃ r, prngReg c r) ∗ ∃ W, owes (c : Thread nD τ) (0 : CellTallies nD τ sig Unit) W)
          ⊢ (iprop((StableHlo.held (c : Thread nD τ) (Pipeline.ucRefs τ sig) (W11 m ρ c) ∗ ∃ r, prngReg c r) ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

-- A buffer no host stretch writes and no region has as an array holds its launch contents at every region's exit and at the end.
theorem kept (c : Dev nD) (r : Ref sig .tc)
    (h : (r ∉ hostOps0_W ∧ r ∉ hostOps1_W ∧ r ∉ hostOps2_W ∧ r ∉ hostOps3_W ∧ r ∉ hostOps4_W ∧ r ∉ hostOps5_W)
      ∧ ∀ p w, Pipeline.arrRef (cfgs p).spec w ≠ r) :
    W2 m ρ c (Proc.devRef .tc r) = m ((c : Thread nD τ).loc r) ∧ W4 m ρ c (Proc.devRef .tc r) = m ((c : Thread nD τ).loc r)
      ∧ W6 m ρ c (Proc.devRef .tc r) = m ((c : Thread nD τ).loc r) ∧ W8 m ρ c (Proc.devRef .tc r) = m ((c : Thread nD τ).loc r)
      ∧ W11 m ρ c (Proc.devRef .tc r) = m ((c : Thread nD τ).loc r) := by
  obtain ⟨⟨h0, h1, h2, h3, h4, h5⟩, a⟩ := h
  have e2 : W2 m ρ c (Proc.devRef .tc r) = m ((c : Thread nD τ).loc r) :=
    (exitOf_of_ne 0 (W1 m ρ) (dat0 (V1 m ρ)) c r (a 0)).trans (StableHlo.after_of_writes_sub hostOps0 _ hostOps0_writes h0)
  have e4 : W4 m ρ c (Proc.devRef .tc r) = m ((c : Thread nD τ).loc r) :=
    (exitOf_of_ne 1 (W3 m ρ) (dat1 (V3 m ρ)) c r (a 1)).trans ((StableHlo.after_of_writes_sub hostOps1 _ hostOps1_writes h1).trans e2)
  have e6 : W6 m ρ c (Proc.devRef .tc r) = m ((c : Thread nD τ).loc r) :=
    (exitOf_of_ne 2 (W5 m ρ) (dat2 (V5 m ρ)) c r (a 2)).trans ((StableHlo.after_of_writes_sub hostOps2 _ hostOps2_writes h2).trans e4)
  have e8 : W8 m ρ c (Proc.devRef .tc r) = m ((c : Thread nD τ).loc r) :=
    (exitOf_of_ne 3 (W7 m ρ) (dat3 (V7 m ρ)) c r (a 3)).trans ((StableHlo.after_of_writes_sub hostOps3 _ hostOps3_writes h3).trans e6)
  exact ⟨e2, e4, e6, e8, (StableHlo.after_of_writes_sub hostOps5 _ hostOps5_writes h5).trans
    ((exitOf_of_ne 4 (W9 m ρ) (dat4 (V9 m ρ)) c r (a 4)).trans ((StableHlo.after_of_writes_sub hostOps4 _ hostOps4_writes h4).trans e8))⟩

-- A buffer that is no array of regions 1 to 4 and that no stretch after region 0 writes ends as region 0 left it.
theorem W11_eq_W2 (c : Dev nD) (r : Ref sig .tc)
    (h : (r ∉ hostOps1_W ∧ r ∉ hostOps2_W ∧ r ∉ hostOps3_W ∧ r ∉ hostOps4_W ∧ r ∉ hostOps5_W)
      ∧ ∀ p : Fin 5, p ≠ 0 → ∀ w, Pipeline.arrRef (cfgs p).spec w ≠ r) :
    W11 m ρ c (Proc.devRef .tc r) = W2 m ρ c (Proc.devRef .tc r) := by
  obtain ⟨⟨h1, h2, h3, h4, h5⟩, a⟩ := h
  exact (StableHlo.after_of_writes_sub hostOps5 _ hostOps5_writes h5).trans <|
    (exitOf_of_ne 4 (W9 m ρ) (dat4 (V9 m ρ)) c r (a 4 (by decide))).trans <| (StableHlo.after_of_writes_sub hostOps4 _ hostOps4_writes h4).trans <|
    (exitOf_of_ne 3 (W7 m ρ) (dat3 (V7 m ρ)) c r (a 3 (by decide))).trans <| (StableHlo.after_of_writes_sub hostOps3 _ hostOps3_writes h3).trans <|
    (exitOf_of_ne 2 (W5 m ρ) (dat2 (V5 m ρ)) c r (a 2 (by decide))).trans <| (StableHlo.after_of_writes_sub hostOps2 _ hostOps2_writes h2).trans <|
    (exitOf_of_ne 1 (W3 m ρ) (dat1 (V3 m ρ)) c r (a 1 (by decide))).trans <| StableHlo.after_of_writes_sub hostOps1 _ hostOps1_writes h1

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

set_option backward.isDefEq.respectTransparency.types false in
-- Every argument array ends as launched: the node features pass region 0 as an input window's array, the others are untouched.
theorem W11_arg (c : Dev nD) (r : Ref sig .tc) (hr : r ∈ args) : W11 m ρ c (Proc.devRef .tc r) = m ((c : Thread nD τ).loc r) := by
  rcases List.mem_cons.mp hr with rfl | hr
  · exact (W11_eq_W2 m ρ c main_arg0 (by decide)).trans <| (exitOf_in launch0 (W1 m ρ) (dat0 (V1 m ρ)) c 1 rfl (A_eq0 (V1 m ρ) c 1)).trans <|
      StableHlo.after_of_writes_sub hostOps0 _ hostOps0_writes (by decide)
  · exact (kept m ρ c r (by revert r; decide)).2.2.2.2

-- What a final state that holds `W11` holds at an argument array.
theorem arg_kept (c : Dev nD) (r : Ref sig .tc) (hr : r ∈ args) (mem : (ℓ : Loc nD τ sig) → Buf (Elt F) ℓ)
    (h : ∀ b ∈ Pipeline.ucRefs τ sig, mem ((c : Thread nD τ).1, b) = W11 m ρ c b) :
    mem ((c : Thread nD τ).loc r) = m ((c : Thread nD τ).loc r) :=
  (h _ (mem_uc r (by revert r; decide))).trans (W11_arg m ρ c r hr)

end Cert.KernelIdeal.Run

end
-- ==== Proof.KRegA0.lean ====
import proofs.«117495_j42150809043597_1_alg».proof.Proof.Gen.Kernel.Launch
import proofs.«117495_j42150809043597_1_alg».proof.Proof.Gen.Kernel.Skeleton
import proofs.«117495_j42150809043597_1_alg».proof.Proof.Gen.Kernel.Points
import proofs.«117495_j42150809043597_1_alg».proof.Proof.LibInput
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S5000x32 := Rect.unit (s := S5000x32) ![0, 0] S5000x32.size inb_S5000x32_S5000x32_0_0
abbrev rW0 : Rect S32x64 := Rect.unit (s := S32x64) ![0, 0] S32x64.size inb_S32x64_S32x64_0_0
abbrev rB0 : Rect S1x64 := Rect.unit (s := S1x64) ![0, 0] S1x64.size inb_S1x64_S1x64_0_0
abbrev rO0 : Rect S5000x64 := Rect.unit (s := S5000x64) ![0, 0] S5000x64.size inb_S5000x64_S5000x64_0_0

def out0_5 (x0 x1 : Vec F S5000x32 .f32) (x2 : Vec F S32x64 .f32) (x3 : Vec F S1x64 .f32) (x4 : Vec F S32x64 .f32) :
    Vec F S5000x64 .f32 :=
  View.canon [⟨rO0, k0_pay1 (View.ld x0 rA0) (View.ld x1 rA0) (View.ld x2 rW0) (View.ld x4 rW0) (View.ld x3 rB0)⟩]

theorem cover0_5 (p0 : Vec F S5000x64 .f32) (y : S5000x64.Idx) :
    ∃ pc ∈ ([⟨rO0, p0⟩] : List (View.Piece (Elt F) S5000x64 .f32)), y ∈ pc.1.set :=
  View.cover_of_tiled [⟨rO0, p0⟩] S5000x64.size (by rfl) y

set_option maxHeartbeats 1000000 in
-- The body's one store covers the output buffer: what it leaves there is a function of the five inputs alone.
theorem sound_kernel0 (c : Dev nD) (E : Set ℕ) (i : grid0.Coords)
    (a1 : Memref sig .tc .vmem S5000x32 .f32) (h1 : a1.IsWhole) (a2 : Memref sig .tc .vmem S5000x32 .f32) (h2 : a2.IsWhole)
    (a3 : Memref sig .tc .vmem S32x64 .f32) (h3 : a3.IsWhole) (a4 : Memref sig .tc .vmem S1x64 .f32) (h4 : a4.IsWhole)
    (a5 : Memref sig .tc .vmem S32x64 .f32) (h5 : a5.IsWhole) (a6 : Memref sig .tc .vmem S5000x64 .f32) (h6 : a6.IsWhole)
    (x0 x1 : Vec F S5000x32 .f32) (x2 : Vec F S32x64 .f32) (x3 : Vec F S1x64 .f32) (x4 : Vec F S32x64 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out0_5 x0 x1 x2 x3 x4)) -∗ K ⟨⟩))
      ⊢ wp frame (wpE (defs₀ (F := F)) Variants.none c none) E (cc0__sage_combine_kernel i a1 h1 a2 h2 a3 h3 a4 h4 a5 h5 a6 h6) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Phi_eq0 (c : Dev nD) (t : Fin (cfg0.N + 1)) : (dat0 V c).Φ t = Pipeline.ΦA spec0 c := by dsimp only [dat0]
theorem owed_eq0 (c : Dev nD) (t : Fin (cfg0.N + 1)) : (dat0 V c).owed t = 0 := by dsimp only [dat0]
theorem q_eq0 (c : Dev nD) (w : Fin cfg0.W) : (dat0 V c).q w = fullShare := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0 (c : Dev nD) (t : Fin cfg0.N) : ∀ w : Fin cfg0.W, w.val < 5 → ∀ d, (dat0 V c).before w t d = (dat0 V c).after w t
  | ⟨0, _⟩, _, d | ⟨1, _⟩, _, d | ⟨2, _⟩, _, d | ⟨3, _⟩, _, d | ⟨4, _⟩, _, d =>
    LibInput.before_in_eq_after (dat0 V c) _ rfl (fun _ => rfl) (fun _ _ _ => rfl)
      (fun _ _ => by dsimp only [dat0, Dat.fetched, Dat.blockOf]; rfl) t d
  | ⟨5, _⟩, h, _ => absurd h (Nat.lt_irrefl 5)

-- The body's triple applies at every point; the invariant and the dues pass through unread.
theorem body_obligation0 (c : Dev nD) : BodyObligation (dat0 (F := F) V c) (defs₀ (F := F)) Variants.none () Set.univ := fun t => by
  rw [bigSep_W0, bigSep_W0]
  simp (disch := decide) only [before0 V c t]
  dsimp only [dat0]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  iframe
  iexact Ho

end Cert.Kernel.Reg

end
-- ==== Proof.KRegA1.lean ====
import proofs.«117495_j42150809043597_1_alg».proof.Proof.Gen.Kernel.Launch
import proofs.«117495_j42150809043597_1_alg».proof.Proof.Gen.Kernel.Skeleton
import proofs.«117495_j42150809043597_1_alg».proof.Proof.Gen.Kernel.Points
import proofs.«117495_j42150809043597_1_alg».proof.Proof.LibInput
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0
abbrev rO1 : Rect S5000x64 := Rect.unit (s := S5000x64) ![0, 0] S5000x64.size inb_S5000x64_S5000x64_0_0

def out1_5 (x0 x1 : Vec F S5000x64 .f32) (x2 : Vec F S64x64 .f32) (x3 : Vec F S1x64 .f32) (x4 : Vec F S64x64 .f32) :
    Vec F S5000x64 .f32 :=
  View.canon [⟨rO1, k1_pay1 (View.ld x0 rA1) (View.ld x1 rA1) (View.ld x2 rW1) (View.ld x4 rW1) (View.ld x3 rB1)⟩]

theorem cover1_5 (p0 : Vec F S5000x64 .f32) (y : S5000x64.Idx) :
    ∃ pc ∈ ([⟨rO1, p0⟩] : List (View.Piece (Elt F) S5000x64 .f32)), y ∈ pc.1.set :=
  View.cover_of_tiled [⟨rO1, p0⟩] S5000x64.size (by rfl) y

set_option maxHeartbeats 1000000 in
-- The body's one store covers the output buffer: what it leaves there is a function of the five inputs alone.
theorem sound_kernel1 (c : Dev nD) (E : Set ℕ) (i : grid1.Coords)
    (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S64x64 .f32) (h5 : a5.IsWhole) (a6 : Memref sig .tc .vmem S5000x64 .f32) (h6 : a6.IsWhole)
    (x0 x1 : Vec F S5000x64 .f32) (x2 : Vec F S64x64 .f32) (x3 : Vec F S1x64 .f32) (x4 : Vec F S64x64 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out1_5 x0 x1 x2 x3 x4)) -∗ K ⟨⟩))
      ⊢ wp frame (wpE (defs₀ (F := F)) Variants.none c none) E (cc1__sage_combine_kernel i a1 h1 a2 h2 a3 h3 a4 h4 a5 h5 a6 h6) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem Phi_eq1 (c : Dev nD) (t : Fin (cfg1.N + 1)) : (dat1 V c).Φ t = Pipeline.ΦA spec1 c := by dsimp only [dat1]
theorem owed_eq1 (c : Dev nD) (t : Fin (cfg1.N + 1)) : (dat1 V c).owed t = 0 := by dsimp only [dat1]
theorem q_eq1 (c : Dev nD) (w : Fin cfg1.W) : (dat1 V c).q w = fullShare := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1 (c : Dev nD) (t : Fin cfg1.N) : ∀ w : Fin cfg1.W, w.val < 5 → ∀ d, (dat1 V c).before w t d = (dat1 V c).after w t
  | ⟨0, _⟩, _, d | ⟨1, _⟩, _, d | ⟨2, _⟩, _, d | ⟨3, _⟩, _, d | ⟨4, _⟩, _, d =>
    LibInput.before_in_eq_after (dat1 V c) _ rfl (fun _ => rfl) (fun _ _ _ => rfl)
      (fun _ _ => by dsimp only [dat1, Dat.fetched, Dat.blockOf]; rfl) t d
  | ⟨5, _⟩, h, _ => absurd h (Nat.lt_irrefl 5)

-- The body's triple applies at every point; the invariant and the dues pass through unread.
theorem body_obligation1 (c : Dev nD) : BodyObligation (dat1 (F := F) V c) (defs₀ (F := F)) Variants.none () Set.univ := fun t => by
  rw [bigSep_W1, bigSep_W1]
  simp (disch := decide) only [before1 V c t]
  dsimp only [dat1]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe
  iexact Ho

end Cert.Kernel.Reg

end
-- ==== Proof.KRegR2.lean ====
import proofs.«117495_j42150809043597_1_alg».proof.Proof.Gen.Kernel.Launch
import proofs.«117495_j42150809043597_1_alg».proof.Proof.Gen.Kernel.Skeleton
import proofs.«117495_j42150809043597_1_alg».proof.Proof.Gen.Kernel.Points
import proofs.«117495_j42150809043597_1_alg».proof.Proof.LibWhole
import Idealize.ShloMosaic.Lib.Tactic

noncomputable section

namespace Cert.Kernel.Reg

open Cert.Kernel Cert.Kernel.Gen Cert.LibWhole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop :=
  (Scalar.cmpi .ne (Scalar.extui (Scalar.cmpi .eq (BitVec.ofNat 32 (i 0).val) 0#32)) 0#32) = 1#1
abbrev cond2_1 (i : grid2.Coords) : Prop := k2_cond2 i = 1#1

-- The first condition holds at the first point only; the second alone tells the two small outputs' points from the rest.
theorem pts2 : ∀ t : Fin cfg2.N, (cond2_0 (grid2.coords t) ↔ t.val = 0) ∧ ∀ w : Fin cfg2.W,
    if w.val < 4 ∨ cond2_1 (grid2.coords t) then cfg2.idle w (grid2.coords t) = false
    else cfg2.idle w (grid2.coords t) = true ∧ (cfg2.win w).flush t = false :=
  (by decide +kernel : ∀ t : Fin grid2.N, _)

abbrev scM2_0 : Memref sig .tc .vmem S1x128 .f32 := Memref.whole cc2_scratch0
abbrev scM2_1 : Memref sig .tc .vmem S1x128 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ rest2 (F := F) c) ∗ (∃ r, prngReg c r)) := by
  unfold Pipeline.ΦA; rw [scopedRest2_split]; simp only [scM2_0, scM2_1, owns_whole]; try rfl

-- The two carried rows after n points: zero, then each point adds its block's column sums (of the values, of their squares).
def rows2 (c : Dev nD) : (n : ℕ) → n ≤ cfg2.N → Vec F S1x128 .f32 × Vec F S1x128 .f32
  | 0, _ => (k2_pay1, k2_pay2)
  | n + 1, h => (k2_pay4 (iblk2 V c 0 ⟨n, h⟩) (iblk2 V c 1 ⟨n, h⟩) (iblk2 V c 2 ⟨n, h⟩) (rows2 c n (Nat.le_of_lt h)).1,
      k2_pay5 (iblk2 V c 0 ⟨n, h⟩) (iblk2 V c 1 ⟨n, h⟩) (iblk2 V c 2 ⟨n, h⟩) (rows2 c n (Nat.le_of_lt h)).2)

-- Point t finds them so once the first point has reset them.
theorem rows2_at (c : Dev nD) (t : Fin cfg2.N) (s : Vec F S1x128 .f32 × Vec F S1x128 .f32) (hs : t.val ≠ 0 → s = rows2 V c t.val (Nat.le_of_lt t.isLt)) :
    rows2 V c t.val (Nat.le_of_lt t.isLt) = if cond2_0 (grid2.coords t) then (k2_pay1, k2_pay2) else (s.1, s.2) := by
  obtain ⟨n, hn⟩ := t
  cases n with
  | zero => exact (if_pos ((pts2 ⟨0, hn⟩).1.mpr rfl)).symm
  | succ n => exact ((if_neg fun hc => Nat.succ_ne_zero n ((pts2 ⟨n + 1, hn⟩).1.mp hc)).trans (hs (Nat.succ_ne_zero n))).symm

-- The invariant: the two rows at some contents, which from the second point on are the accumulated ones.
def PhiS2 (c : Dev nD) (t : Fin (cfg2.N + 1)) : sProp 𝕄 :=
  iprop(∃ s : Vec F S1x128 .f32 × Vec F S1x128 .f32, ⌜t.val ≠ 0 → s = rows2 V c t.val (Nat.le_of_lt_succ t.isLt)⌝
    ∗ owns (c : Thread nD τ) scM2_0 fullShare s.1 ∗ owns (c : Thread nD τ) scM2_1 fullShare s.2 ∗ rest2 (F := F) c ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (iblk2 V c 0 t) (iblk2 V c 1 t) (iblk2 V c 2 t)
    | ⟨4, _⟩ => (rows2 V c (t.val + 1) t.isLt).1
    | ⟨5, _⟩ => (rows2 V c (t.val + 1) t.isLt).2
  Φ := PhiS2 V c
  q _ := fullShare
  owed _ := 0

theorem A_eq2 (c : Dev nD) (w : Fin cfg2.W) : (dat2 V c).A w = V c (Pipeline.arrRef spec2 w) := by
  dsimp only [dat2]
theorem owed_eq2 (c : Dev nD) (t : Fin (cfg2.N + 1)) : (dat2 V c).owed t = 0 := by dsimp only [dat2]
theorem q_eq2 (c : Dev nD) (w : Fin cfg2.W) : (dat2 V c).q w = fullShare := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem leaves2_live (c : Dev nD) (t : Fin cfg2.N) (w : Fin cfg2.W) (hw : w.val < 4) :
    owns (c : Thread nD τ) ((cfg2.win w).stage (cfg2.slots t w)) fullShare ((dat2 V c).after w t) ⊢ (dat2 V c).leavesExact w t := by
  have h := (pts2 t).2 w
  rw [if_pos (.inl hw)] at h; unfold Dat.leavesExact; rw [h]

theorem leaves2_small (c : Dev nD) (t : Fin cfg2.N) (w : Fin cfg2.W) (hw : ¬w.val < 4) (d) :
    owns (c : Thread nD τ) ((cfg2.win w).stage (cfg2.slots t w)) fullShare
        (if cond2_1 (grid2.coords t) then (dat2 V c).after w t else (dat2 V c).before w t d)
      ⊢ (dat2 V c).leavesExact w t := by
  have h := (pts2 t).2 w
  by_cases hc : cond2_1 (grid2.coords t)
  · rw [if_pos (.inr hc)] at h; rw [if_pos hc]; unfold Dat.leavesExact; rw [h]
  · rw [if_neg (not_or.mpr ⟨hw, hc⟩)] at h; rw [if_neg hc, Dat.leavesExact_idle _ w t h.1 h.2]; iintro H; iexists d; iexact H

-- The body on whole buffers: it resets the rows under the first condition, stores the block and adds its column sums to the rows, and copies the rows out under the second.
theorem sound_kernel2 (c : Dev nD) (E : Set ℕ) (i : grid2.Coords)
    (a1 : Memref sig .tc .vmem S5000x64 .f32) (h1 : a1.IsWhole) (a2 : Memref sig .tc .vmem S64x128 .f32) (h2 : a2.IsWhole)
    (a3 : Memref sig .tc .vmem S1x128 .f32) (h3 : a3.IsWhole) (a4 : Memref sig .tc .vmem S5000x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (a8 : Memref sig .tc .vmem S1x128 .f32) (h8 : a8.IsWhole)
    (x : Vec F S5000x64 .f32) (w : Vec F S64x128 .f32) (b : Vec F S1x128 .f32) (o : Vec F S5000x128 .f32) (o4 o5 s0 s1 : Vec F S1x128 .f32) (s : Vec F S1x128 .f32 × Vec F S1x128 .f32)
    (hs : s = if cond2_0 i then (k2_pay1, k2_pay2) else (s0, s1)) (K : PUnit → sProp 𝕄) :
    iprop(owns (c : Thread nD τ) a1 fullShare x ∗ owns (c : Thread nD τ) a2 fullShare w ∗ owns (c : Thread nD τ) a3 fullShare b
        ∗ owns (c : Thread nD τ) a4 fullShare o ∗ owns (c : Thread nD τ) a5 fullShare o4 ∗ owns (c : Thread nD τ) a6 fullShare o5
        ∗ owns (c : Thread nD τ) a7 fullShare s0 ∗ owns (c : Thread nD τ) a8 fullShare s1
        ∗ (iprop(owns (c : Thread nD τ) a1 fullShare x ∗ owns (c : Thread nD τ) a2 fullShare w ∗ owns (c : Thread nD τ) a3 fullShare b
            ∗ owns (c : Thread nD τ) a4 fullShare (k2_pay3 x w b)
            ∗ owns (c : Thread nD τ) a5 fullShare (if cond2_1 i then k2_pay4 x w b s.1 else o4)
            ∗ owns (c : Thread nD τ) a6 fullShare (if cond2_1 i then k2_pay5 x w b s.2 else o5)
            ∗ owns (c : Thread nD τ) a7 fullShare (k2_pay4 x w b s.1) ∗ owns (c : Thread nD τ) a8 fullShare (k2_pay5 x w b s.2)) -∗ K ⟨⟩))
      ⊢ wp frame (wpE (defs₀ (F := F)) Variants.none c none) E (cc2__fc_stats_kernel i a1 h1 a2 h2 a3 h3 a4 h4 a5 h5 a6 h6 a7 h7 a8 h8) K := by
  simp only [cc2__fc_stats_kernel_eq_skeleton]; unfold cc2__fc_stats_kernel_skel
  simp only [k2_part1_eq_skeleton]; unfold k2_part1_skel
  by_cases hc0 : cond2_0 i <;> by_cases hc1 : cond2_1 i
  all_goals
    first | rw [if_pos hc0] at hs | rw [if_neg hc0] at hs
    first | rw [if_pos hc1, if_pos hc1] | rw [if_neg hc1, if_neg hc1]
    subst hs
    unfold owns
    iintro ⟨⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    subst hf1 hf2 hf3 hf5 hf6 hf7 hf8
    sl_exec (disch := first | exact hc0 | exact hc1)
    sl_step
    iapply Hk
    isplitl [H1]; · iapply owns_of _ _ _ _ rfl $$ H1
    isplitl [H2]; · iapply owns_of _ _ _ _ rfl $$ H2
    isplitl [H3]; · iapply owns_of _ _ _ _ rfl $$ H3
    isplitl [H4]; iapply owns_of _ _ _ _ ?_ $$ H4; rotate_left
    isplitl [H5]; iapply owns_of _ _ _ _ ?_ $$ H5; rotate_left
    isplitl [H6]; iapply owns_of _ _ _ _ ?_ $$ H6; rotate_left
    isplitl [H7]; iapply owns_of _ _ _ _ ?_ $$ H7; rotate_left
    iapply owns_of _ _ _ _ ?_ $$ H8
  all_goals first | with_reducible rfl | (sl_unfold_run_names; simp only [readAt_whole2, View.readCov_cons_toLoadRect, read_writes_whole2])

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

-- The body at any point: the invariant lends it the two rows and takes them back one point further; the rest passes through unread.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.castSucc = PhiS2 V c t.castSucc from rfl, show (dat2 V c).Φ t.succ = PhiS2 V c t.succ from rfl]
  unfold PhiS2
  iintro ⟨⟨%s, %hs, HS0, HS1, Hr, Hg⟩, Ho, ⟨%e0, H0⟩, ⟨%e1, H1⟩, ⟨%e2, H2⟩, ⟨%e3, H3⟩, ⟨%e4, H4⟩, ⟨%e5, H5⟩⟩
  iapply sound_kernel2 c Set.univ (grid2.coords t) _ _ _ _ _ _ _ _ _ _ _ _ _ _ _ _ (iblk2 V c 0 t) (iblk2 V c 1 t) (iblk2 V c 2 t)
    _ _ _ s.1 s.2 _ (rows2_at V c t s hs)
  iframe H0 H1 H2 H3 H4 H5 HS0 HS1
  iintro ⟨H0, H1, H2, H3, H4, H5, HS0, HS1⟩
  isplitl [HS0 HS1 Hr Hg]
  · iexists rows2 V c (t.val + 1) t.isLt; iframe Hr Hg
    isplitr; · ipureintro; exact fun _ => rfl
    isplitl [HS0]; · iexact HS0
    iexact HS1
  iframe Ho
  isplitl [H0]; · iapply leaves2_live V c t 0 (by decide); iexact H0
  isplitl [H1]; · iapply leaves2_live V c t 1 (by decide); iexact H1
  isplitl [H2]; · iapply leaves2_live V c t 2 (by decide); iexact H2
  isplitl [H3]; · iapply leaves2_live V c t 3 (by decide); iexact H3
  isplitl [H4]; · iapply leaves2_small V c t 4 (by decide) e4; iexact H4
  iapply leaves2_small V c t 5 (by decide) e5; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq, show (dat2 V c).Φ 0 = PhiS2 V c 0 from rfl]; unfold PhiS2
  iintro ⟨⟨⟨⟨%d0, H0⟩, ⟨%d1, H1⟩⟩, Hr⟩, Hg⟩
  iexists (d0, d1); iframe
  ipureintro; exact fun h => absurd rfl h

theorem hout2 (c : Dev nD) : (dat2 V c).Φ (Fin.last cfg2.N) ⊢ Pipeline.ΦA spec2 c := by
  rw [PhiA2_eq, show (dat2 V c).Φ (Fin.last cfg2.N) = PhiS2 V c (Fin.last cfg2.N) from rfl]; unfold PhiS2
  iintro ⟨%s, -, H0, H1, Hr, Hg⟩
  iframe Hr Hg
  isplitl [H0]; · iexists _; iexact H0
  iexists _; iexact H1

end Cert.Kernel.Reg

end
-- ==== Proof.KRegR3.lean ====
import proofs.«117495_j42150809043597_1_alg».proof.Proof.Gen.Kernel.Launch
import proofs.«117495_j42150809043597_1_alg».proof.Proof.Gen.Kernel.Skeleton
import proofs.«117495_j42150809043597_1_alg».proof.Proof.Gen.Kernel.Points
import proofs.«117495_j42150809043597_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 20 = 0 := by decide +kernel

abbrev cond3_1 (i : grid3.Coords) : Prop := k3_cond2 i = 1#1
theorem hcond3_1 : ∀ t : Fin cfg3.N, cond3_1 (grid3.coords t) ↔ t.val % 20 = 19 := by decide +kernel

theorem idle3 : ∀ t : Fin cfg3.N, (¬t.val % 20 = 19 → cfg3.idle 6 (grid3.coords t) = true ∧ (cfg3.win 6).flush t = false
      ∧ cfg3.idle 7 (grid3.coords t) = true ∧ (cfg3.win 7).flush t = false)
    ∧ (t.val % 20 = 19 → cfg3.idle 6 (grid3.coords t) = false ∧ cfg3.idle 7 (grid3.coords t) = false) := by decide +kernel

abbrev scM3_0 : Memref sig .tc .vmem S1x64 .f32 := Memref.whole cc3_scratch0
abbrev scM3_1 : Memref sig .tc .vmem S1x64 .f32 := Memref.whole cc3_scratch1

abbrev rest3 (c : Dev nD) : sProp 𝕄 :=
  Pipeline.scopedRestBut (Ix := Unit) (Name := ℕ) (U := UR sig nD τ) (Lvl := ℕ) (Val := Elt F) spec3 c [cc3_scratch0, cc3_scratch1]

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 (F := F) c) ∗ (∃ r, prngReg c r)) := by
  unfold Pipeline.ΦA; rw [scopedRest3_split]; simp only [scM3_0, scM3_1, owns_whole]; try rfl

def owns3 (c : Dev nD) (a1 : Memref sig .tc .vmem S5000x128 .f32) (a2 a3 : Memref sig .tc .vmem S1x128 .f32) (a4 : Memref sig .tc .vmem S128x64 .f32)
    (a5 : Memref sig .tc .vmem S1x64 .f32) (a6 : Memref sig .tc .vmem S5000x64 .f32) (a7 a8 a9 a10 : Memref sig .tc .vmem S1x64 .f32)
    (x0 : Vec F S5000x128 .f32) (x1 x2 : Vec F S1x128 .f32) (x3 : Vec F S128x64 .f32) (x4 : Vec F S1x64 .f32) (x5 : Vec F S5000x64 .f32)
    (x6 x7 x8 x9 : Vec F S1x64 .f32) : sProp 𝕄 :=
  iprop(owns (c : Thread nD τ) a1 fullShare x0 ∗ owns (c : Thread nD τ) a2 fullShare x1 ∗ owns (c : Thread nD τ) a3 fullShare x2
    ∗ owns (c : Thread nD τ) a4 fullShare x3 ∗ owns (c : Thread nD τ) a5 fullShare x4 ∗ owns (c : Thread nD τ) a6 fullShare x5
    ∗ owns (c : Thread nD τ) a7 fullShare x6 ∗ owns (c : Thread nD τ) a8 fullShare x7 ∗ owns (c : Thread nD τ) a9 fullShare x8
    ∗ owns (c : Thread nD τ) a10 fullShare x9)

set_option maxHeartbeats 2000000 in
-- The body on whole memrefs: the carried rows, reset at the first point, gain the block's column sums; the small outputs take them at the last point only.
theorem sound_kernel3 (c : Dev nD) (E : Set ℕ) (i : grid3.Coords) (arg1 : Memref sig .tc .vmem S5000x128 .f32) (arg2 arg3 : Memref sig .tc .vmem S1x128 .f32) (arg4 : Memref sig .tc .vmem S128x64 .f32) (arg5 : Memref sig .tc .vmem S1x64 .f32)
    (arg6 : Memref sig .tc .vmem S5000x64 .f32) (arg7 arg8 arg9 arg10 : Memref sig .tc .vmem S1x64 .f32) (harg1 : arg1.IsWhole) (harg2 : arg2.IsWhole) (harg3 : arg3.IsWhole) (harg4 : arg4.IsWhole)
    (harg5 : arg5.IsWhole) (harg6 : arg6.IsWhole) (harg7 : arg7.IsWhole) (harg8 : arg8.IsWhole) (harg9 : arg9.IsWhole) (harg10 : arg10.IsWhole)
    (hc : cond3_0 i → ¬cond3_1 i) (x0 : Vec F S5000x128 .f32) (x1 x2 : Vec F S1x128 .f32) (x3 : Vec F S128x64 .f32) (x4 : Vec F S1x64 .f32)
    (x5 : Vec F S5000x64 .f32) (x6 x7 x8 x9 y6 y7 : Vec F S1x64 .f32)
    (hy : (cond3_1 i → y6 = k3_pay5 x0 x1 x2 x3 x4 (if cond3_0 i then k3_pay2 else x8) ∧ y7 = k3_pay1 (k3_pay4 x0 x1 x2 x3 x4) (if cond3_0 i then k3_pay3 else x9))
      ∧ (¬cond3_1 i → y6 = x6 ∧ y7 = x7)) (K : PUnit → sProp 𝕄) :
    iprop(owns3 c arg1 arg2 arg3 arg4 arg5 arg6 arg7 arg8 arg9 arg10 x0 x1 x2 x3 x4 x5 x6 x7 x8 x9
        ∗ (owns3 c arg1 arg2 arg3 arg4 arg5 arg6 arg7 arg8 arg9 arg10 x0 x1 x2 x3 x4 (k3_pay4 x0 x1 x2 x3 x4) y6 y7
            (k3_pay5 x0 x1 x2 x3 x4 (if cond3_0 i then k3_pay2 else x8)) (k3_pay1 (k3_pay4 x0 x1 x2 x3 x4) (if cond3_0 i then k3_pay3 else x9)) -∗ K ⟨⟩))
      ⊢ wp frame (wpE (defs₀ (F := F)) Variants.none c none) E (cc3__bn_fc_stats_kernel i arg1 harg1 arg2 harg2 arg3 harg3 arg4 harg4 arg5 harg5 arg6 harg6 arg7 harg7 arg8 harg8 arg9 harg9 arg10 harg10) K := by
  by_cases hc0 : cond3_0 i <;> by_cases hc1 : cond3_1 i
  · exact absurd hc1 (hc hc0)
  all_goals
    obtain ⟨rfl, rfl⟩ : y6 = _ ∧ y7 = _ := by first | exact hy.1 hc1 | exact hy.2 hc1
    first | rw [if_pos hc0, if_pos hc0] | rw [if_neg hc0, if_neg hc0]
    simp only [cc3__bn_fc_stats_kernel_eq_skeleton]; unfold cc3__bn_fc_stats_kernel_skel
    simp only [k3_part1_eq_skeleton]
    unfold owns3 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]; rotate_left; isplitl [H1]; rotate_left; isplitl [H2]; rotate_left; isplitl [H3]; rotate_left; isplitl [H4]; rotate_left
    isplitl [H5]; rotate_left; isplitl [H6]; rotate_left; isplitl [H7]; rotate_left; isplitl [H8]; rotate_left
    all_goals
      iexists _; isplitr; swap; iassumption
      ipureintro
      first
        | (sl_unfold_run_names; rw [Cert.LibWhole.read_writes_whole2]
           simp only [Cert.LibWhole.readAt_whole2, View.readCov_cons_toLoadRect, harg1.read_unread, harg2.read_unread, harg3.read_unread, harg4.read_unread,
             harg5.read_unread, harg9.read_unread, harg10.read_unread])
        | exact Memref.IsWhole.read_unread _ _

def step3 (a : Vec F S5000x128 .f32) (sc sh : Vec F S1x128 .f32) (w : Vec F S128x64 .f32) (b : Vec F S1x64 .f32) (s0 s1 : Vec F S1x64 .f32) :
    Vec F S5000x64 .f32 × Vec F S1x64 .f32 × Vec F S1x64 .f32 × Vec F S1x64 .f32 × Vec F S1x64 .f32 :=
  (k3_pay4 a sc sh w b, k3_pay5 a sc sh w b s0, k3_pay1 (k3_pay4 a sc sh w b) s1, k3_pay5 a sc sh w b s0, k3_pay1 (k3_pay4 a sc sh w b) s1)

-- After the body at position n: the output block, the two small outputs' rows, the two carried rows.
def outsAt3 (c : Dev nD) : (n : ℕ) → n < cfg3.N →
    Vec F S5000x64 .f32 × Vec F S1x64 .f32 × Vec F S1x64 .f32 × Vec F S1x64 .f32 × Vec F S1x64 .f32
  | 0, hn => step3 (iblk3 V c 0 ⟨0, hn⟩) (iblk3 V c 1 ⟨0, hn⟩) (iblk3 V c 2 ⟨0, hn⟩) (iblk3 V c 3 ⟨0, hn⟩) (iblk3 V c 4 ⟨0, hn⟩) (k3_pay2 (F := F)) (k3_pay3 (F := F))
  | n + 1, hn => step3 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
      (outsAt3 c n (Nat.lt_of_succ_lt hn)).2.2.2.1 (outsAt3 c n (Nat.lt_of_succ_lt hn)).2.2.2.2

-- One step from the rows the point finds, whatever they are at the first point.
theorem outsAt3_eq (c : Dev nD) (t : Fin cfg3.N) (s0 s1 : Vec F S1x64 .f32)
    (hs : t.val ≠ 0 → s0 = (outsAt3 V c (t.val - 1) (Nat.lt_of_le_of_lt (Nat.sub_le _ _) t.isLt)).2.2.2.1
      ∧ s1 = (outsAt3 V c (t.val - 1) (Nat.lt_of_le_of_lt (Nat.sub_le _ _) t.isLt)).2.2.2.2) :
    outsAt3 V c t.val t.isLt = step3 (iblk3 V c 0 t) (iblk3 V c 1 t) (iblk3 V c 2 t) (iblk3 V c 3 t) (iblk3 V c 4 t)
      (if cond3_0 (grid3.coords t) then k3_pay2 else s0) (if cond3_0 (grid3.coords t) then k3_pay3 else s1) := by
  obtain ⟨n, hn⟩ := t
  cases n with
  | zero => rw [if_pos ((hcond3_0 _).2 rfl), if_pos ((hcond3_0 _).2 rfl)]; rfl
  | succ n =>
    have h0 : ¬cond3_0 (grid3.coords ⟨n + 1, hn⟩) := fun h => by
      have := (hcond3_0 _).1 h; have : n + 1 < 20 := lt_of_lt_of_eq hn N_3; dsimp only at *; omega
    obtain ⟨rfl, rfl⟩ := hs (Nat.succ_ne_zero n)
    rw [if_neg h0, if_neg h0]; rfl

-- The region invariant before position n: the two carried rows at what the point before left (at anything before the first point).
def PhiS3 (c : Dev nD) (n : ℕ) (hn : n ≤ cfg3.N) : sProp 𝕄 :=
  iprop(∃ s0 s1, ⌜∀ h : n ≠ 0, s0 = (outsAt3 V c (n - 1) (by omega)).2.2.2.1 ∧ s1 = (outsAt3 V c (n - 1) (by omega)).2.2.2.2⌝
    ∗ owns (c : Thread nD τ) scM3_0 fullShare s0 ∗ owns (c : Thread nD τ) scM3_1 fullShare s1 ∗ rest3 (F := F) c ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
    | ⟨7, _⟩ => (outsAt3 V c t.val t.isLt).2.2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem owed_eq3 (c : Dev nD) (t : Fin (cfg3.N + 1)) : (dat3 V c).owed t = 0 := by dsimp only [dat3]
theorem q_eq3 (c : Dev nD) (w : Fin cfg3.W) : (dat3 V c).q w = fullShare := by dsimp only [dat3]
theorem recorded_eq3 (c : Dev nD) (t : Fin (cfg3.N + 1)) : (dat3 V c).recorded t = Set.univ := by dsimp only [dat3]

theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]
theorem after3_7 (c : Dev nD) (t : Fin cfg3.N) : (dat3 V c).after 7 t = (outsAt3 V c t.val t.isLt).2.2.1 := by dsimp only [dat3]

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) := by
  refine ⟨?_, ?_, ?_, ?_, ?_⟩ <;>
    exact fun d => ((dat3 V c).before_in_eq_fetched _ rfl (fun _ => rfl) (fun _ _ _ => rfl) (fun _ => rfl) t d).trans rfl

def bodyPre3 (c : Dev nD) (t : Fin cfg3.N) : sProp 𝕄 :=
  iprop(PhiS3 V c t.val (Nat.le_of_lt t.isLt) ∗ (dat3 V c).owesAt () t.castSucc
    ∗ (∃ d, owns (c : Thread nD τ) (win3_0.stage (cfg3.slots t 0)) fullShare ((dat3 V c).before 0 t d))
    ∗ (∃ d, owns (c : Thread nD τ) (win3_1.stage (cfg3.slots t 1)) fullShare ((dat3 V c).before 1 t d))
    ∗ (∃ d, owns (c : Thread nD τ) (win3_2.stage (cfg3.slots t 2)) fullShare ((dat3 V c).before 2 t d))
    ∗ (∃ d, owns (c : Thread nD τ) (win3_3.stage (cfg3.slots t 3)) fullShare ((dat3 V c).before 3 t d))
    ∗ (∃ d, owns (c : Thread nD τ) (win3_4.stage (cfg3.slots t 4)) fullShare ((dat3 V c).before 4 t d))
    ∗ (∃ d, owns (c : Thread nD τ) (win3_5.stage (cfg3.slots t 5)) fullShare ((dat3 V c).before 5 t d))
    ∗ (∃ d, owns (c : Thread nD τ) (win3_6.stage (cfg3.slots t 6)) fullShare ((dat3 V c).before 6 t d))
    ∗ (∃ d, owns (c : Thread nD τ) (win3_7.stage (cfg3.slots t 7)) fullShare ((dat3 V c).before 7 t d)))

def bodyPost3 (c : Dev nD) (t : Fin cfg3.N) : sProp 𝕄 :=
  iprop(PhiS3 V c (t.val + 1) t.isLt ∗ (dat3 V c).owesAt () t.castSucc
    ∗ owns (c : Thread nD τ) (win3_0.stage (cfg3.slots t 0)) fullShare (iblk3 V c 0 t)
    ∗ owns (c : Thread nD τ) (win3_1.stage (cfg3.slots t 1)) fullShare (iblk3 V c 1 t)
    ∗ owns (c : Thread nD τ) (win3_2.stage (cfg3.slots t 2)) fullShare (iblk3 V c 2 t)
    ∗ owns (c : Thread nD τ) (win3_3.stage (cfg3.slots t 3)) fullShare (iblk3 V c 3 t)
    ∗ owns (c : Thread nD τ) (win3_4.stage (cfg3.slots t 4)) fullShare (iblk3 V c 4 t)
    ∗ owns (c : Thread nD τ) (win3_5.stage (cfg3.slots t 5)) fullShare (outsAt3 V c t.val t.isLt).1
    ∗ (dat3 V c).leavesExact 6 t ∗ (dat3 V c).leavesExact 7 t)

set_option maxHeartbeats 4800000 in
-- The body at any point: the invariant hands over the carried rows and takes them back one step on; the small outputs are written at the last point only.
theorem sound_body3 (c : Dev nD) (t : Fin cfg3.N) :
    bodyPre3 V c t ⊢ wp frame (wpE (defs₀ (F := F)) Variants.none c none) Set.univ (bodyAt3 t) (fun _ => bodyPost3 V c t) := by
  obtain ⟨b0, b1, b2, b3, b4⟩ := before3 V c t
  obtain ⟨hI, hL⟩ := idle3 t
  have hN : t.val < 20 := lt_of_lt_of_eq t.isLt N_3
  have hc : cond3_0 (grid3.coords t) → ¬cond3_1 (grid3.coords t) := fun h0 h1 => by
    have := (hcond3_0 t).1 h0; have := (hcond3_1 t).1 h1; omega
  unfold bodyPre3 bodyPost3 bodyAt3
  simp only [b0, b1, b2, b3, b4]
  unfold PhiS3
  by_cases h1 : t.val % 20 = 19
  on_goal 1 =>
    rw [show (dat3 V c).leavesExact 6 t = owns (c : Thread nD τ) (win3_6.stage (cfg3.slots t 6)) fullShare (outsAt3 V c t.val t.isLt).2.1 from by
        unfold Dat.leavesExact; rw [(hL h1).1]; rfl,
      show (dat3 V c).leavesExact 7 t = owns (c : Thread nD τ) (win3_7.stage (cfg3.slots t 7)) fullShare (outsAt3 V c t.val t.isLt).2.2.1 from by
        unfold Dat.leavesExact; rw [(hL h1).2]; rfl]
  on_goal 2 => rw [Dat.leavesExact_idle _ 6 t (hI h1).1 (hI h1).2.1, Dat.leavesExact_idle _ 7 t (hI h1).2.2.1 (hI h1).2.2.2]
  all_goals
    iintro ⟨⟨%s0, %s1, %hs, HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e := outsAt3_eq V c t s0 s1 hs
    conv => { arg 2; rw [e]; unfold step3; dsimp only }
    iapply (sound_kernel3 c Set.univ (grid3.coords t) _ _ _ _ _ _ _ _ _ _ _ _ _ _ _ _ _ _ _ _ hc (iblk3 V c 0 t) (iblk3 V c 1 t) (iblk3 V c 2 t) (iblk3 V c 3 t) (iblk3 V c 4 t) _ ((dat3 V c).before 6 t d6) ((dat3 V c).before 7 t d7) s0 s1 _ _
      (by first | exact ⟨fun _ => ⟨rfl, rfl⟩, fun h => absurd ((hcond3_1 t).2 h1) h⟩ | exact ⟨fun h => absurd ((hcond3_1 t).1 h) h1, fun _ => ⟨rfl, rfl⟩⟩))
    unfold owns3
    isplitl [H0 H1 H2 H3 H4 H5 H6 H7 HS0 HS1]; · iframe
    iintro ⟨H0, H1, H2, H3, H4, H5, H6, H7, HS0, HS1⟩
    isplitl [HS0 HS1 HR Hg]
    · iexists _, _; isplitr; swap; · iframe
      ipureintro; exact fun _ => ⟨congrArg (·.2.2.2.1) e.symm, congrArg (·.2.2.2.2) e.symm⟩
    iframe Ho H0 H1 H2 H3 H4 H5
    first | (isplitl [H6] <;> iexists _ <;> iassumption) | iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [PhiA3_eq]; dsimp only [dat3]; unfold PhiS3
  iintro ⟨⟨⟨⟨%d0, H0⟩, ⟨%d1, H1⟩⟩, HR⟩, Hg⟩
  iexists d0, d1
  isplitr; · ipureintro; exact fun h => absurd rfl h
  iframe

-- After the last point the carried rows' contents are forgotten.
theorem hout3 (c : Dev nD) : (dat3 V c).Φ (Fin.last cfg3.N) ⊢ Pipeline.ΦA spec3 c := by
  rw [PhiA3_eq]; dsimp only [dat3]; unfold PhiS3
  iintro ⟨%s0, %s1, -, H0, H1, HR, Hg⟩
  iframe HR Hg
  isplitl [H0] <;> iexists _ <;> iassumption

end Cert.Kernel.Reg

end
-- ==== Proof.KRegA4.lean ====
import proofs.«117495_j42150809043597_1_alg».proof.Proof.Gen.Kernel.Launch
import proofs.«117495_j42150809043597_1_alg».proof.Proof.Gen.Kernel.Skeleton
import proofs.«117495_j42150809043597_1_alg».proof.Proof.Gen.Kernel.Points
import proofs.«117495_j42150809043597_1_alg».proof.Proof.LibInput
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rA4 : Rect S5000x64 := Rect.unit (s := S5000x64) ![0, 0] S5000x64.size inb_S5000x64_S5000x64_0_0
abbrev rS4 : Rect S1x64 := Rect.unit (s := S1x64) ![0, 0] S1x64.size inb_S1x64_S1x64_0_0
abbrev rW4 : Rect S64x1 := Rect.unit (s := S64x1) ![0, 0] S64x1.size inb_S64x1_S64x1_0_0
abbrev rB4 : Rect S1x1 := Rect.unit (s := S1x1) ![0, 0] S1x1.size inb_S1x1_S1x1_0_0
abbrev rO4 : Rect S5000x1 := Rect.unit (s := S5000x1) ![0, 0] S5000x1.size inb_S5000x1_S5000x1_0_0

def out4_5 (x0 : Vec F S5000x64 .f32) (x1 x2 : Vec F S1x64 .f32) (x3 : Vec F S64x1 .f32) (x4 : Vec F S1x1 .f32) :
    Vec F S5000x1 .f32 :=
  View.canon [⟨rO4, k4_pay1 (View.ld x0 rA4) (View.ld x1 rS4) (View.ld x2 rS4) (View.ld x3 rW4) (View.ld x4 rB4)⟩]

theorem cover4_5 (p0 : Vec F S5000x1 .f32) (y : S5000x1.Idx) :
    ∃ pc ∈ ([⟨rO4, p0⟩] : List (View.Piece (Elt F) S5000x1 .f32)), y ∈ pc.1.set :=
  View.cover_of_tiled [⟨rO4, p0⟩] S5000x1.size (by rfl) y

set_option maxHeartbeats 1000000 in
-- The body's one store covers the output buffer: what it leaves there is a function of the five inputs alone.
theorem sound_kernel4 (c : Dev nD) (E : Set ℕ) (i : grid4.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S64x1 .f32) (h4 : a4.IsWhole)
    (a5 : Memref sig .tc .vmem S1x1 .f32) (h5 : a5.IsWhole) (a6 : Memref sig .tc .vmem S5000x1 .f32) (h6 : a6.IsWhole)
    (x0 : Vec F S5000x64 .f32) (x1 x2 : Vec F S1x64 .f32) (x3 : Vec F S64x1 .f32) (x4 : Vec F S1x1 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out4_5 x0 x1 x2 x3 x4)) -∗ K ⟨⟩))
      ⊢ wp frame (wpE (defs₀ (F := F)) Variants.none c none) E (cc4__bn_fc3_kernel i a1 h1 a2 h2 a3 h3 a4 h4 a5 h5 a6 h6) K := by
  simp only [cc4__bn_fc3_kernel_eq_skeleton]; unfold cc4__bn_fc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem Phi_eq4 (c : Dev nD) (t : Fin (cfg4.N + 1)) : (dat4 V c).Φ t = Pipeline.ΦA spec4 c := by dsimp only [dat4]
theorem owed_eq4 (c : Dev nD) (t : Fin (cfg4.N + 1)) : (dat4 V c).owed t = 0 := by dsimp only [dat4]
theorem q_eq4 (c : Dev nD) (w : Fin cfg4.W) : (dat4 V c).q w = fullShare := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

theorem before4 (c : Dev nD) (t : Fin cfg4.N) : ∀ w : Fin cfg4.W, w.val < 5 → ∀ d, (dat4 V c).before w t d = (dat4 V c).after w t
  | ⟨0, _⟩, _, d | ⟨1, _⟩, _, d | ⟨2, _⟩, _, d | ⟨3, _⟩, _, d | ⟨4, _⟩, _, d =>
    LibInput.before_in_eq_after (dat4 V c) _ rfl (fun _ => rfl) (fun _ _ _ => rfl)
      (fun _ _ => by dsimp only [dat4, Dat.fetched, Dat.blockOf]; rfl) t d
  | ⟨5, _⟩, h, _ => absurd h (Nat.lt_irrefl 5)

-- The body's triple applies at every point; the invariant and the dues pass through unread.
theorem body_obligation4 (c : Dev nD) : BodyObligation (dat4 (F := F) V c) (defs₀ (F := F)) Variants.none () Set.univ := fun t => by
  rw [bigSep_W4, bigSep_W4]
  simp (disch := decide) only [before4 V c t]
  dsimp only [dat4]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe
  iexact Ho

end Cert.Kernel.Reg

end
-- ==== Proof.KRun.lean ====
import proofs.«117495_j42150809043597_1_alg».proof.Proof.Gen.Kernel.Launch
import proofs.«117495_j42150809043597_1_alg».proof.Proof.Gen.Kernel.Regions
import proofs.«117495_j42150809043597_1_alg».proof.Proof.KRegA0
import proofs.«117495_j42150809043597_1_alg».proof.Proof.KRegA1
import proofs.«117495_j42150809043597_1_alg».proof.Proof.KRegR2
import proofs.«117495_j42150809043597_1_alg».proof.Proof.KRegR3
import proofs.«117495_j42150809043597_1_alg».proof.Proof.KRegA4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev adm : (p : Fin 5) → (pcfgs (F := F) p).Adm := fun p => (cfgs p).toPCfg_adm

-- A region's exit contents: each of its arrays at what the write-backs leave in it, every other buffer as entered.
def exitOf (p : Fin 5) (Wi : Dev nD → Valuation τ sig (Elt F))
    (d : (c : Dev nD) → Dat τ (Elt F) Unit ℕ (UR sig nD τ) ℕ (cfgs p) c) : Dev nD → Valuation τ sig (Elt F) :=
  fun c => Pipeline.withArrays (cfgs p).spec c (Wi c) fun w => (d c).arrAt w (cfgs p).N

theorem exitOf_arr {p : Fin 5} (lf : Pipeline.LaunchFacts (nD := nD) (τ := τ) cfgs p) (Wi : Dev nD → Valuation τ sig (Elt F))
    (d : (c : Dev nD) → Dat τ (Elt F) Unit ℕ (UR sig nD τ) ℕ (cfgs p) c) (c : Dev nD) (w : Fin (cfgs p).W) :
    exitOf p Wi d c (Proc.devRef .tc (Pipeline.arrRef (cfgs p).spec w)) = (d c).arrAt w (cfgs p).N :=
  Pipeline.withArrays_arr _ lf.win.arr_inj c _ _ w

theorem exitOf_of_ne (p : Fin 5) (Wi : Dev nD → Valuation τ sig (Elt F))
    (d : (c : Dev nD) → Dat τ (Elt F) Unit ℕ (UR sig nD τ) ℕ (cfgs p) c) (c : Dev nD) (b : Ref sig .tc)
    (hb : ∀ w, Pipeline.arrRef (cfgs p).spec w ≠ b) : exitOf p Wi d c (Proc.devRef .tc b) = Wi c (Proc.devRef .tc b) :=
  Pipeline.withArrays_of_ne _ c _ _ b hb

abbrev atTc (W : Dev nD → Valuation τ sig (Elt F)) : (c : Dev nD) → (b : Ref sig .tc) → Buf (Elt F) ((c : Thread nD τ).loc b) := fun c b => W c b

-- A region leaves an input window's array as it entered.
theorem exitOf_in {p : Fin 5} (lf : Pipeline.LaunchFacts (nD := nD) (τ := τ) cfgs p) (Wi : Dev nD → Valuation τ sig (Elt F))
    (d : (c : Dev nD) → Dat τ (Elt F) Unit ℕ (UR sig nD τ) ℕ (cfgs p) c) (c : Dev nD) (w : Fin (cfgs p).W)
    (hw : ((cfgs p).win w).isOut = false) (hA : (d c).A w = atTc Wi c (Pipeline.arrRef (cfgs p).spec w)) :
    exitOf p Wi d c (Proc.devRef .tc (Pipeline.arrRef (cfgs p).spec w)) = Wi c (Proc.devRef .tc (Pipeline.arrRef (cfgs p).spec w)) :=
  (exitOf_arr lf Wi d c w).trans (((d c).arrAt_in w hw _).trans hA)

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := atTc (W1 m ρ)
abbrev W2 : Dev nD → Valuation τ sig (Elt F) := exitOf 0 (W1 m ρ) (dat0 (V1 m ρ))
abbrev W3 : Dev nD → Valuation τ sig (Elt F) := fun c => StableHlo.after hostOps1 (W2 m ρ c)
abbrev V3 := atTc (W3 m ρ)
abbrev W4 : Dev nD → Valuation τ sig (Elt F) := exitOf 1 (W3 m ρ) (dat1 (V3 m ρ))
abbrev W5 : Dev nD → Valuation τ sig (Elt F) := fun c => StableHlo.after hostOps2 (W4 m ρ c)
abbrev V5 := atTc (W5 m ρ)
abbrev W6 : Dev nD → Valuation τ sig (Elt F) := exitOf 2 (W5 m ρ) (dat2 (V5 m ρ))
abbrev W7 : Dev nD → Valuation τ sig (Elt F) := fun c => StableHlo.after hostOps3 (W6 m ρ c)
abbrev V7 := atTc (W7 m ρ)
abbrev W8 : Dev nD → Valuation τ sig (Elt F) := exitOf 3 (W7 m ρ) (dat3 (V7 m ρ))
abbrev W9 : Dev nD → Valuation τ sig (Elt F) := fun c => StableHlo.after hostOps4 (W8 m ρ c)
abbrev V9 := atTc (W9 m ρ)
abbrev W10 : Dev nD → Valuation τ sig (Elt F) := exitOf 4 (W9 m ρ) (dat4 (V9 m ρ))
abbrev W11 : Dev nD → Valuation τ sig (Elt F) := fun c => StableHlo.after hostOps5 (W10 m ρ c)

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
-- What rides beside the buffers through every segment: the generator register at some state, and nothing owed.
abbrev R (c : Dev nD) : sProp 𝕄 := iprop((∃ r, prngReg c r) ∗ ∃ W, owes (c : Thread nD τ) (0 : CellTallies nD τ sig Unit) W)
abbrev held (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region as a segment: its arrays are split out of the unscoped buffers at the entry and put back at the exit contents.
def reg (p : Fin 5) (lf : Pipeline.LaunchFacts (nD := nD) (τ := τ) cfgs p) (Wi : Dev nD → Valuation τ sig (Elt F))
    (hbody : ∀ c, BodyObligation (pdats m ρ p c) (defs₀ (F := F)) 𝒱₀ () Set.univ)
    (hA : ∀ c w, (pdats m ρ p c).A w = atTc Wi c (Pipeline.arrRef (cfgs p).spec w))
    (hq : ∀ c w, (pdats m ρ p c).q w = fullShare) (howed : ∀ c t, (pdats m ρ p c).owed t = 0)
    (hrec : ∀ c, (pdats m ρ p c).recorded 0 = Set.univ)
    (hin : ∀ c, Pipeline.ΦA (cfgs p).spec c ⊢ (pdats m ρ p c).Φ 0)
    (hout : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := held Wi
  post := held (exitOf p Wi (pdats m ρ p))
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atTc Wi c)
  hentry c := by
    rw [Pipeline.ownSems0_none]
    have hsplit := Pipeline.arrays_of_unscopedBufs (p := p) (pcfgs (F := F)) adm (pdats m ρ) lf.win lf.arr_whole c
      ((pdats m ρ p c).share_full (hq c)) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun x _ => Or.inl (by rw [hrec c]; exact trivial)
      iexact HO
    isplitl [Hp]; · iexact Hp
    iexact Hrest
  hin c := by
    refine BI.Entails.trans ?_ (hin c)
    show (_ : sProp 𝕄) ⊢ (_ : sProp 𝕄)
    unfold Pipeline.ΦA
    iintro ⟨Hp, -, Hr⟩
    isplitl [Hr]; · iexact Hr
    iexact Hp
  hout c := by
    refine BI.Entails.trans (hout c) ?_
    show (_ : sProp 𝕄) ⊢ (_ : sProp 𝕄)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Wi c) (atTc (exitOf p Wi (pdats m ρ p)) c) ((pdats m ρ p c).arrAt · (Pipeline.pin (pcfgs (F := F)) adm p).N)
      (fun w => (exitOf_arr lf Wi (pdats m ρ p) c w).symm)
      (fun b hb => exitOf_of_ne p Wi (pdats m ρ p) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev reg0 := reg m ρ 0 launch0 (W1 m ρ) (body_obligation0 (V1 m ρ)) (A_eq0 (V1 m ρ)) (q_eq0 (V1 m ρ)) (owed_eq0 (V1 m ρ))
  (fun _ => rfl) (fun c => .of_eq (Phi_eq0 (V1 m ρ) c 0).symm) (fun c => .of_eq (Phi_eq0 (V1 m ρ) c (Fin.last _)))
abbrev reg1 := reg m ρ 1 launch1 (W3 m ρ) (body_obligation1 (V3 m ρ)) (A_eq1 (V3 m ρ)) (q_eq1 (V3 m ρ)) (owed_eq1 (V3 m ρ))
  (fun _ => rfl) (fun c => .of_eq (Phi_eq1 (V3 m ρ) c 0).symm) (fun c => .of_eq (Phi_eq1 (V3 m ρ) c (Fin.last _)))
abbrev reg2 := reg m ρ 2 launch2 (W5 m ρ) (body_obligation2 (V5 m ρ)) (A_eq2 (V5 m ρ)) (q_eq2 (V5 m ρ)) (owed_eq2 (V5 m ρ))
  (fun _ => rfl) (hin2 (V5 m ρ)) (hout2 (V5 m ρ))
abbrev reg3 := reg m ρ 3 launch3 (W7 m ρ) (body_obligation3 (V7 m ρ)) (A_eq3 (V7 m ρ)) (q_eq3 (V7 m ρ)) (owed_eq3 (V7 m ρ))
  (fun c => recorded_eq3 (V7 m ρ) c 0) (hin3 (V7 m ρ)) (hout3 (V7 m ρ))
abbrev reg4 := reg m ρ 4 launch4 (W9 m ρ) (body_obligation4 (V9 m ρ)) (A_eq4 (V9 m ρ)) (q_eq4 (V9 m ρ)) (owed_eq4 (V9 m ρ))
  (fun _ => rfl) (fun c => .of_eq (Phi_eq4 (V9 m ρ) c 0).symm) (fun c => .of_eq (Phi_eq4 (V9 m ρ) c (Fin.last _)))

abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ),
    .host (hseg hostOps3 hostOps3_sub hostOps3_fresh (W6 m ρ)), .region (reg3 m ρ),
    .host (hseg hostOps4 hostOps4_sub hostOps4_fresh (W8 m ρ)), .region (reg4 m ρ),
    .host (hseg hostOps5 hostOps5_sub hostOps5_fresh (W10 m ρ)) ]
theorem main_run (c : Dev nD) : main (F := F) c = Pipeline.Seg.run (segs m ρ) := (main_chain c).trans (by chain_rfl)

set_option backward.isDefEq.respectTransparency.types false in
-- Every weakly fair execution of @main terminates, nothing faulting, each core's unscoped buffers ending at `W11`.
theorem run_all : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := held (W0 m ρ)) (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ (∃ r, prngReg c r) ∗ ∃ W, owes (c : Thread nD τ) (0 : CellTallies nD τ sig Unit) W)
          ⊢ (iprop((StableHlo.held (c : Thread nD τ) (Pipeline.ucRefs τ sig) (W11 m ρ c) ∗ ∃ r, prngReg c r) ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

-- A buffer no host stretch writes and no region has as an array holds its launch contents at every region's exit and at the end.
theorem kept (c : Dev nD) (r : Ref sig .tc)
    (h : (r ∉ hostOps0_W ∧ r ∉ hostOps1_W ∧ r ∉ hostOps2_W ∧ r ∉ hostOps3_W ∧ r ∉ hostOps4_W ∧ r ∉ hostOps5_W)
      ∧ ∀ p w, Pipeline.arrRef (cfgs p).spec w ≠ r) :
    W2 m ρ c (Proc.devRef .tc r) = m ((c : Thread nD τ).loc r) ∧ W4 m ρ c (Proc.devRef .tc r) = m ((c : Thread nD τ).loc r)
      ∧ W6 m ρ c (Proc.devRef .tc r) = m ((c : Thread nD τ).loc r) ∧ W8 m ρ c (Proc.devRef .tc r) = m ((c : Thread nD τ).loc r)
      ∧ W11 m ρ c (Proc.devRef .tc r) = m ((c : Thread nD τ).loc r) := by
  obtain ⟨⟨h0, h1, h2, h3, h4, h5⟩, a⟩ := h
  have e2 : W2 m ρ c (Proc.devRef .tc r) = m ((c : Thread nD τ).loc r) :=
    (exitOf_of_ne 0 (W1 m ρ) (dat0 (V1 m ρ)) c r (a 0)).trans (StableHlo.after_of_writes_sub hostOps0 _ hostOps0_writes h0)
  have e4 : W4 m ρ c (Proc.devRef .tc r) = m ((c : Thread nD τ).loc r) :=
    (exitOf_of_ne 1 (W3 m ρ) (dat1 (V3 m ρ)) c r (a 1)).trans ((StableHlo.after_of_writes_sub hostOps1 _ hostOps1_writes h1).trans e2)
  have e6 : W6 m ρ c (Proc.devRef .tc r) = m ((c : Thread nD τ).loc r) :=
    (exitOf_of_ne 2 (W5 m ρ) (dat2 (V5 m ρ)) c r (a 2)).trans ((StableHlo.after_of_writes_sub hostOps2 _ hostOps2_writes h2).trans e4)
  have e8 : W8 m ρ c (Proc.devRef .tc r) = m ((c : Thread nD τ).loc r) :=
    (exitOf_of_ne 3 (W7 m ρ) (dat3 (V7 m ρ)) c r (a 3)).trans ((StableHlo.after_of_writes_sub hostOps3 _ hostOps3_writes h3).trans e6)
  exact ⟨e2, e4, e6, e8, (StableHlo.after_of_writes_sub hostOps5 _ hostOps5_writes h5).trans
    ((exitOf_of_ne 4 (W9 m ρ) (dat4 (V9 m ρ)) c r (a 4)).trans ((StableHlo.after_of_writes_sub hostOps4 _ hostOps4_writes h4).trans e8))⟩

-- A buffer that is no array of regions 1 to 4 and that no stretch after region 0 writes ends as region 0 left it.
theorem W11_eq_W2 (c : Dev nD) (r : Ref sig .tc)
    (h : (r ∉ hostOps1_W ∧ r ∉ hostOps2_W ∧ r ∉ hostOps3_W ∧ r ∉ hostOps4_W ∧ r ∉ hostOps5_W)
      ∧ ∀ p : Fin 5, p ≠ 0 → ∀ w, Pipeline.arrRef (cfgs p).spec w ≠ r) :
    W11 m ρ c (Proc.devRef .tc r) = W2 m ρ c (Proc.devRef .tc r) := by
  obtain ⟨⟨h1, h2, h3, h4, h5⟩, a⟩ := h
  exact (StableHlo.after_of_writes_sub hostOps5 _ hostOps5_writes h5).trans <|
    (exitOf_of_ne 4 (W9 m ρ) (dat4 (V9 m ρ)) c r (a 4 (by decide))).trans <| (StableHlo.after_of_writes_sub hostOps4 _ hostOps4_writes h4).trans <|
    (exitOf_of_ne 3 (W7 m ρ) (dat3 (V7 m ρ)) c r (a 3 (by decide))).trans <| (StableHlo.after_of_writes_sub hostOps3 _ hostOps3_writes h3).trans <|
    (exitOf_of_ne 2 (W5 m ρ) (dat2 (V5 m ρ)) c r (a 2 (by decide))).trans <| (StableHlo.after_of_writes_sub hostOps2 _ hostOps2_writes h2).trans <|
    (exitOf_of_ne 1 (W3 m ρ) (dat1 (V3 m ρ)) c r (a 1 (by decide))).trans <| StableHlo.after_of_writes_sub hostOps1 _ hostOps1_writes h1

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

set_option backward.isDefEq.respectTransparency.types false in
-- Every argument array ends as launched: the node features pass region 0 as an input window's array, the others are untouched.
theorem W11_arg (c : Dev nD) (r : Ref sig .tc) (hr : r ∈ args) : W11 m ρ c (Proc.devRef .tc r) = m ((c : Thread nD τ).loc r) := by
  rcases List.mem_cons.mp hr with rfl | hr
  · exact (W11_eq_W2 m ρ c main_arg0 (by decide)).trans <| (exitOf_in launch0 (W1 m ρ) (dat0 (V1 m ρ)) c 1 rfl (A_eq0 (V1 m ρ) c 1)).trans <|
      StableHlo.after_of_writes_sub hostOps0 _ hostOps0_writes (by decide)
  · exact (kept m ρ c r (by revert r; decide)).2.2.2.2

-- What a final state that holds `W11` holds at an argument array.
theorem arg_kept (c : Dev nD) (r : Ref sig .tc) (hr : r ∈ args) (mem : (ℓ : Loc nD τ sig) → Buf (Elt F) ℓ)
    (h : ∀ b ∈ Pipeline.ucRefs τ sig, mem ((c : Thread nD τ).1, b) = W11 m ρ c b) :
    mem ((c : Thread nD τ).loc r) = m ((c : Thread nD τ).loc r) :=
  (h _ (mem_uc r (by revert r; decide))).trans (W11_arg m ρ c r hr)

end Cert.Kernel.Run

end
-- ==== Proof.RefRun.lean ====
import proofs.«117495_j42150809043597_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev seg0 : List (HloOp τ sig (Elt F)) :=
  [ StableHlo.unary main_arg1 main_v0 (extractStridedSlice S1x1600000 ![0, 0] · slices_S2x1600000_S1x1600000_0_0),
    StableHlo.reshape main_v0 main_v1 rfl shapeCasts_S1x1600000_S1600000,
    StableHlo.unary main_arg1 main_v2 (extractStridedSlice S1x1600000 ![1, 0] · slices_S2x1600000_S1x1600000_1_0),
    StableHlo.reshape main_v2 main_v3 rfl shapeCasts_S1x1600000_S1600000,
    StableHlo.nullary main_c (constantI S_ 32 0#32),
    StableHlo.unary main_c main_v4 (broadcastInDim S1600000 ![] bcast_S_S1600000),
    StableHlo.binary main_v1 main_v4 main_v5 (cmpi .slt),
    StableHlo.nullary main_c_0 (constantI S_ 32 100000#32),
    StableHlo.unary main_c_0 main_v6 (broadcastInDim S1600000 ![] bcast_S_S1600000),
    StableHlo.binary main_v1 main_v6 main_v7 addi,
    StableHlo.ternary main_v5 main_v7 main_v1 main_v8 select,
    StableHlo.unary main_v8 main_v9 (broadcastInDim S1600000x1 ![0] bcast_S1600000_S1600000x1_0),
    StableHlo.binary main_arg0 main_v9 main_v10 (fun x i => Host.gather gather_S100000x32_S1600000x1_S1600000x32_1_0_n_n_0_1_132 x i),
    StableHlo.nullary main_cst (constant S_ .f32 0x00000000#32),
    StableHlo.unary main_cst main_v11 (broadcastInDim S100000x32 ![] bcast_S_S100000x32),
    StableHlo.unary main_v3 main_v12 (broadcastInDim S1600000x1 ![0] bcast_S1600000_S1600000x1_0),
    StableHlo.ternary main_v11 main_v12 main_v10 main_v13 (fun x i u => Host.scatterAdd scatter_S100000x32_S1600000x1_S1600000x32_1_0_0_1 x i u),
    StableHlo.nullary main_cst_1 (constant S_ .f32 0x3F800000#32),
    StableHlo.unary main_cst_1 main_v14 (broadcastInDim S1600000 ![] bcast_S_S1600000),
    StableHlo.nullary main_cst_2 (constant S_ .f32 0x00000000#32),
    StableHlo.unary main_cst_2 main_v15 (broadcastInDim S100000 ![] bcast_S_S100000),
    StableHlo.unary main_v3 main_v16 (broadcastInDim S1600000x1 ![0] bcast_S1600000_S1600000x1_0),
    StableHlo.ternary main_v15 main_v16 main_v14 main_v17 (fun x i u => Host.scatterAdd scatter_S100000_S1600000x1_S1600000_n_0_0_1 x i u),
    StableHlo.nullary main_cst_3 (constant S_ .f32 0x3F800000#32),
    StableHlo.unary main_cst_3 main_v18 (broadcastInDim S100000 ![] bcast_S_S100000),
    StableHlo.binary main_v17 main_v18 main_v19 maximumf,
    StableHlo.unary main_v19 main_v20 (broadcastInDim S100000x1 ![0] bcast_S100000_S100000x1_0),
    StableHlo.unary main_v20 main_v21 (broadcastInDim S100000x32 ![0, 1] bcast_S100000x1_S100000x32_0_1),
    StableHlo.binary main_v13 main_v21 main_v22 Host.divf,
    StableHlo.unary main_arg2 main_v23 (transpose S32x64 [1, 0] · transposes_S64x32_S32x64_1_0),
    StableHlo.binary main_v22 main_v23 main_v24 (fun l r => Host.dotGeneral dot_S100000x32_S32x64_S100000x64_1_0_0_1_n_n none l r),
    StableHlo.unary main_arg3 main_v25 (broadcastInDim S1x64 ![1] bcast_S64_S1x64_1),
    StableHlo.unary main_v25 main_v26 (broadcastInDim S100000x64 ![0, 1] bcast_S1x64_S100000x64_0_1),
    StableHlo.binary main_v24 main_v26 main_v27 addf,
    StableHlo.unary main_arg4 main_v28 (transpose S32x64 [1, 0] · transposes_S64x32_S32x64_1_0),
    StableHlo.binary main_arg0 main_v28 main_v29 (fun l r => Host.dotGeneral dot_S100000x32_S32x64_S100000x64_1_0_0_1_n_n none l r),
    StableHlo.binary main_v27 main_v29 main_v30 addf,
    StableHlo.TRef.nullary main_call0.cst (constant S_ .f32 0x00000000#32),
    StableHlo.TRef.unary main_call0.cst main_call0.v0 (broadcastInDim S100000x64 ![] bcast_S_S100000x64),
    StableHlo.TRef.binary (.of main_v30) main_call0.v0 main_call0.v1 maximumf ]

abbrev seg1 : List (HloOp τ sig (Elt F)) :=
  [ StableHlo.unary main_arg1 main_v32 (extractStridedSlice S1x1600000 ![0, 0] · slices_S2x1600000_S1x1600000_0_0),
    StableHlo.reshape main_v32 main_v33 rfl shapeCasts_S1x1600000_S1600000,
    StableHlo.unary main_arg1 main_v34 (extractStridedSlice S1x1600000 ![1, 0] · slices_S2x1600000_S1x1600000_1_0),
    StableHlo.reshape main_v34 main_v35 rfl shapeCasts_S1x1600000_S1600000,
    StableHlo.nullary main_c_4 (constantI S_ 32 0#32),
    StableHlo.unary main_c_4 main_v36 (broadcastInDim S1600000 ![] bcast_S_S1600000),
    StableHlo.binary main_v33 main_v36 main_v37 (cmpi .slt),
    StableHlo.nullary main_c_5 (constantI S_ 32 100000#32),
    StableHlo.unary main_c_5 main_v38 (broadcastInDim S1600000 ![] bcast_S_S1600000),
    StableHlo.binary main_v33 main_v38 main_v39 addi,
    StableHlo.ternary main_v37 main_v39 main_v33 main_v40 select,
    StableHlo.unary main_v40 main_v41 (broadcastInDim S1600000x1 ![0] bcast_S1600000_S1600000x1_0),
    StableHlo.binary main_v31 main_v41 main_v42 (fun x i => Host.gather gather_S100000x64_S1600000x1_S1600000x64_1_0_n_n_0_1_164 x i),
    StableHlo.nullary main_cst_6 (constant S_ .f32 0x00000000#32),
    StableHlo.unary main_cst_6 main_v43 (broadcastInDim S100000x64 ![] bcast_S_S100000x64),
    StableHlo.unary main_v35 main_v44 (broadcastInDim S1600000x1 ![0] bcast_S1600000_S1600000x1_0),
    StableHlo.ternary main_v43 main_v44 main_v42 main_v45 (fun x i u => Host.scatterAdd scatter_S100000x64_S1600000x1_S1600000x64_1_0_0_1 x i u),
    StableHlo.nullary main_cst_7 (constant S_ .f32 0x3F800000#32),
    StableHlo.unary main_cst_7 main_v46 (broadcastInDim S1600000 ![] bcast_S_S1600000),
    StableHlo.nullary main_cst_8 (constant S_ .f32 0x00000000#32),
    StableHlo.unary main_cst_8 main_v47 (broadcastInDim S100000 ![] bcast_S_S100000),
    StableHlo.unary main_v35 main_v48 (broadcastInDim S1600000x1 ![0] bcast_S1600000_S1600000x1_0),
    StableHlo.ternary main_v47 main_v48 main_v46 main_v49 (fun x i u => Host.scatterAdd scatter_S100000_S1600000x1_S1600000_n_0_0_1 x i u),
    StableHlo.nullary main_cst_9 (constant S_ .f32 0x3F800000#32),
    StableHlo.unary main_cst_9 main_v50 (broadcastInDim S100000 ![] bcast_S_S100000),
    StableHlo.binary main_v49 main_v50 main_v51 maximumf,
    StableHlo.unary main_v51 main_v52 (broadcastInDim S100000x1 ![0] bcast_S100000_S100000x1_0),
    StableHlo.unary main_v52 main_v53 (broadcastInDim S100000x64 ![0, 1] bcast_S100000x1_S100000x64_0_1),
    StableHlo.binary main_v45 main_v53 main_v54 Host.divf,
    StableHlo.unary main_arg5 main_v55 (transpose S64x64 [1, 0] · transposes_S64x64_S64x64_1_0),
    StableHlo.binary main_v54 main_v55 main_v56 (fun l r => Host.dotGeneral dot_S100000x64_S64x64_S100000x64_1_0_0_1_n_n none l r),
    StableHlo.unary main_arg6 main_v57 (broadcastInDim S1x64 ![1] bcast_S64_S1x64_1),
    StableHlo.unary main_v57 main_v58 (broadcastInDim S100000x64 ![0, 1] bcast_S1x64_S100000x64_0_1),
    StableHlo.binary main_v56 main_v58 main_v59 addf,
    StableHlo.unary main_arg7 main_v60 (transpose S64x64 [1, 0] · transposes_S64x64_S64x64_1_0),
    StableHlo.binary main_v31 main_v60 main_v61 (fun l r => Host.dotGeneral dot_S100000x64_S64x64_S100000x64_1_0_0_1_n_n none l r),
    StableHlo.binary main_v59 main_v61 main_v62 addf,
    StableHlo.TRef.nullary main_call1.cst (constant S_ .f32 0x00000000#32),
    StableHlo.TRef.unary main_call1.cst main_call1.v0 (broadcastInDim S100000x64 ![] bcast_S_S100000x64),
    StableHlo.TRef.binary (.of main_v62) main_call1.v0 main_call1.v1 maximumf ]

abbrev seg2 : List (HloOp τ sig (Elt F)) :=
  [ StableHlo.unary main_arg8 main_v64 (transpose S64x128 [1, 0] · transposes_S128x64_S64x128_1_0),
    StableHlo.binary main_v63 main_v64 main_v65 (fun l r => Host.dotGeneral dot_S100000x64_S64x128_S100000x128_1_0_0_1_n_n none l r),
    StableHlo.unary main_arg9 main_v66 (broadcastInDim S1x128 ![1] bcast_S128_S1x128_1),
    StableHlo.unary main_v66 main_v67 (broadcastInDim S100000x128 ![0, 1] bcast_S1x128_S100000x128_0_1),
    StableHlo.binary main_v65 main_v67 main_v68 addf ]

abbrev seg3 : List (HloOp τ sig (Elt F)) :=
  [ StableHlo.nullary main_cst_10 (constant S_ .f32 0x00000000#32),
    StableHlo.binary main_v68 main_cst_10 main_v69 (fun x v => Host.reduceAdd x v reducesTo_S100000x128_S128_d0 h_S_),
    StableHlo.nullary main_cst_11 (constant S_ .f32 0x47C35000#32),
    StableHlo.unary main_cst_11 main_v70 (broadcastInDim S128 ![] bcast_S_S128),
    StableHlo.binary main_v69 main_v70 main_v71 Host.divf,
    StableHlo.nullary main_c_12 (constantI S_ 32 0#32),
    StableHlo.TRef.nullary main_call2.cst (constant S_ .f32 0x00000000#32),
    StableHlo.TRef.binary (.of main_v68) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v68) main_call2.v4 main_call2.v5 subf,
    StableHlo.TRef.binary main_call2.v5 main_call2.v5 main_call2.v6 mulf,
    StableHlo.TRef.unary (.of main_c_12) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v71 main_v73 (broadcastInDim S1x128 ![1] bcast_S128_S1x128_1),
    StableHlo.unary main_v73 main_v74 (broadcastInDim S100000x128 ![0, 1] bcast_S1x128_S100000x128_0_1),
    StableHlo.binary main_v68 main_v74 main_v75 subf,
    StableHlo.nullary main_cst_13 (constant S_ .f32 0x3727C5AC#32),
    StableHlo.unary main_cst_13 main_v76 (broadcastInDim S128 ![] bcast_S_S128),
    StableHlo.binary main_v72 main_v76 main_v77 addf,
    StableHlo.unary main_v77 main_v78 Host.rsqrt,
    StableHlo.unary main_v78 main_v79 (broadcastInDim S1x128 ![1] bcast_S128_S1x128_1),
    StableHlo.unary main_v79 main_v80 (broadcastInDim S100000x128 ![0, 1] bcast_S1x128_S100000x128_0_1),
    StableHlo.binary main_v75 main_v80 main_v81 mulf,
    StableHlo.unary main_arg10 main_v82 (broadcastInDim S1x128 ![1] bcast_S128_S1x128_1),
    StableHlo.unary main_v82 main_v83 (broadcastInDim S100000x128 ![0, 1] bcast_S1x128_S100000x128_0_1),
    StableHlo.binary main_v81 main_v83 main_v84 mulf,
    StableHlo.unary main_arg11 main_v85 (broadcastInDim S1x128 ![1] bcast_S128_S1x128_1),
    StableHlo.unary main_v85 main_v86 (broadcastInDim S100000x128 ![0, 1] bcast_S1x128_S100000x128_0_1),
    StableHlo.binary main_v84 main_v86 main_v87 addf,
    StableHlo.TRef.nullary main_call3.cst (constant S_ .f32 0x00000000#32),
    StableHlo.TRef.unary main_call3.cst main_call3.v0 (broadcastInDim S100000x128 ![] bcast_S_S100000x128),
    StableHlo.TRef.binary (.of main_v87) main_call3.v0 main_call3.v1 maximumf ]

abbrev seg4 : List (HloOp τ sig (Elt F)) :=
  [ StableHlo.unary main_arg12 main_v89 (transpose S128x64 [1, 0] · transposes_S64x128_S128x64_1_0),
    StableHlo.binary main_v88 main_v89 main_v90 (fun l r => Host.dotGeneral dot_S100000x128_S128x64_S100000x64_1_0_0_1_n_n none l r),
    StableHlo.unary main_arg13 main_v91 (broadcastInDim S1x64 ![1] bcast_S64_S1x64_1),
    StableHlo.unary main_v91 main_v92 (broadcastInDim S100000x64 ![0, 1] bcast_S1x64_S100000x64_0_1),
    StableHlo.binary main_v90 main_v92 main_v93 addf ]

abbrev seg5 : List (HloOp τ sig (Elt F)) :=
  [ StableHlo.nullary main_cst_14 (constant S_ .f32 0x00000000#32),
    StableHlo.binary main_v93 main_cst_14 main_v94 (fun x v => Host.reduceAdd x v reducesTo_S100000x64_S64_d0 h_S_),
    StableHlo.nullary main_cst_15 (constant S_ .f32 0x47C35000#32),
    StableHlo.unary main_cst_15 main_v95 (broadcastInDim S64 ![] bcast_S_S64),
    StableHlo.binary main_v94 main_v95 main_v96 Host.divf,
    StableHlo.nullary main_c_16 (constantI S_ 32 0#32),
    StableHlo.TRef.nullary main_call4.cst (constant S_ .f32 0x00000000#32),
    StableHlo.TRef.binary (.of main_v93) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v93) main_call4.v4 main_call4.v5 subf,
    StableHlo.TRef.binary main_call4.v5 main_call4.v5 main_call4.v6 mulf,
    StableHlo.TRef.unary (.of main_c_16) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v96 main_v98 (broadcastInDim S1x64 ![1] bcast_S64_S1x64_1),
    StableHlo.unary main_v98 main_v99 (broadcastInDim S100000x64 ![0, 1] bcast_S1x64_S100000x64_0_1),
    StableHlo.binary main_v93 main_v99 main_v100 subf,
    StableHlo.nullary main_cst_17 (constant S_ .f32 0x3727C5AC#32),
    StableHlo.unary main_cst_17 main_v101 (broadcastInDim S64 ![] bcast_S_S64),
    StableHlo.binary main_v97 main_v101 main_v102 addf,
    StableHlo.unary main_v102 main_v103 Host.rsqrt,
    StableHlo.unary main_v103 main_v104 (broadcastInDim S1x64 ![1] bcast_S64_S1x64_1),
    StableHlo.unary main_v104 main_v105 (broadcastInDim S100000x64 ![0, 1] bcast_S1x64_S100000x64_0_1),
    StableHlo.binary main_v100 main_v105 main_v106 mulf,
    StableHlo.unary main_arg14 main_v107 (broadcastInDim S1x64 ![1] bcast_S64_S1x64_1),
    StableHlo.unary main_v107 main_v108 (broadcastInDim S100000x64 ![0, 1] bcast_S1x64_S100000x64_0_1),
    StableHlo.binary main_v106 main_v108 main_v109 mulf,
    StableHlo.unary main_arg15 main_v110 (broadcastInDim S1x64 ![1] bcast_S64_S1x64_1),
    StableHlo.unary main_v110 main_v111 (broadcastInDim S100000x64 ![0, 1] bcast_S1x64_S100000x64_0_1),
    StableHlo.binary main_v109 main_v111 main_v112 addf,
    StableHlo.TRef.nullary main_call5.cst (constant S_ .f32 0x00000000#32),
    StableHlo.TRef.unary main_call5.cst main_call5.v0 (broadcastInDim S100000x64 ![] bcast_S_S100000x64),
    StableHlo.TRef.binary (.of main_v112) main_call5.v0 main_call5.v1 maximumf ]

abbrev seg6 : List (HloOp τ sig (Elt F)) :=
  [ StableHlo.unary main_arg16 main_v114 (transpose S64x1 [1, 0] · transposes_S1x64_S64x1_1_0),
    StableHlo.binary main_v113 main_v114 main_v115 (fun l r => Host.dotGeneral dot_S100000x64_S64x1_S100000x1_1_0_0_1_n_n none l r),
    StableHlo.unary main_arg17 main_v116 (broadcastInDim S1x1 ![1] bcast_S1_S1x1_1),
    StableHlo.unary main_v116 main_v117 (broadcastInDim S100000x1 ![0, 1] bcast_S1x1_S100000x1_0_1),
    StableHlo.binary main_v115 main_v117 main_v118 addf,
    StableHlo.reshape main_v118 main_v119 rfl shapeCasts_S100000x1_S100000 ]

abbrev ops : List (HloOp τ sig (Elt F)) := seg0 ++ (seg1 ++ (seg2 ++ (seg3 ++ (seg4 ++ (seg5 ++ seg6)))))

set_option maxRecDepth 8192 in
set_option maxHeartbeats 4000000 in
-- each call unfolds to its callee's operations over the call's own buffers
theorem main_eq (c : Dev nD) : main (F := F) c = seq ops := rfl

theorem after_segs (V : Valuation τ sig (Elt F)) :
    after ops V = after seg6 (after seg5 (after seg4 (after seg3 (after seg2 (after seg1 (after seg0 V)))))) := by
  rw [show (ops : List (HloOp τ sig (Elt F))) = seg0 ++ (seg1 ++ (seg2 ++ (seg3 ++ (seg4 ++ (seg5 ++ seg6))))) from rfl,
    after_append, after_append, after_append, after_append, after_append, after_append]

set_option maxRecDepth 8192 in
theorem ops_ok : (ops : List (HloOp τ sig (Elt F))).Forall fun op => op.bufs ⊆ tcRefs τ sig ∧ op.fresh = ∅ := by
  repeat (first
    | exact trivial
    | refine (List.forall_cons _ _ _).mpr ⟨⟨by simp only [nullary_bufs_sub, unary_bufs_sub, binary_bufs_sub, ternary_bufs_sub, reshape_bufs_sub], rfl⟩, ?_⟩)

-- a line whose operations write, one each, the references of a list leaves every other reference as it was
theorem after_of_forall₂ {W : List (Ref sig .tc)} {r : Ref sig .tc} (l : List (HloOp τ sig (Elt F))) (V : Valuation τ sig (Elt F))
    (hW : List.Forall₂ (fun op y => op.writes = {Proc.devRef (τ := τ) .tc y}) l W) (hr : r ∉ W) :
    after l V (Proc.devRef .tc r) = V (Proc.devRef .tc r) := by
  induction hW generalizing V with
  | nil => rfl
  | cons h _ ih =>
    rw [after_cons, ih _ (fun hm => hr (List.mem_cons_of_mem _ hm)), HloOp.result_of_not_mem]
    rw [h, Finset.mem_singleton]
    exact devRef_ne_of_ne fun e => hr (e ▸ List.mem_cons_self)

abbrev segW0 : List (Ref sig .tc) :=
  [main_v0, main_v1, main_v2, main_v3, main_c, main_v4, main_v5, main_c_0,
    main_v6, main_v7, main_v8, main_v9, main_v10, main_cst, main_v11, main_v12,
    main_v13, main_cst_1, main_v14, main_cst_2, main_v15, main_v16, main_v17, main_cst_3,
    main_v18, main_v19, main_v20, main_v21, main_v22, main_v23, main_v24, main_v25,
    main_v26, main_v27, main_v28, main_v29, main_v30, main_call0.cst.ref, main_call0.v0.ref, main_call0.v1.ref]

set_option maxRecDepth 8192 in
set_option maxHeartbeats 4000000 in
theorem seg0_writes : List.Forall₂ (fun op y => op.writes = {Proc.devRef (τ := τ) .tc y}) (seg0 : List (HloOp τ sig (Elt F))) segW0 := by
  repeat constructor

theorem keep0 (W : Valuation τ sig (Elt F)) (r : Ref sig .tc) (h : r ∉ segW0) :
    after seg0 W (Proc.devRef .tc r) = W (Proc.devRef .tc r) :=
  after_of_forall₂ seg0 W seg0_writes h

abbrev segW1 : List (Ref sig .tc) :=
  [main_v32, main_v33, main_v34, main_v35, main_c_4, main_v36, main_v37, main_c_5,
    main_v38, main_v39, main_v40, main_v41, main_v42, main_cst_6, main_v43, main_v44,
    main_v45, main_cst_7, main_v46, main_cst_8, main_v47, main_v48, main_v49, main_cst_9,
    main_v50, main_v51, main_v52, main_v53, main_v54, main_v55, main_v56, main_v57,
    main_v58, main_v59, main_v60, main_v61, main_v62, main_call1.cst.ref, main_call1.v0.ref, main_call1.v1.ref]

set_option maxRecDepth 8192 in
set_option maxHeartbeats 4000000 in
theorem seg1_writes : List.Forall₂ (fun op y => op.writes = {Proc.devRef (τ := τ) .tc y}) (seg1 : List (HloOp τ sig (Elt F))) segW1 := by
  repeat constructor

theorem keep1 (W : Valuation τ sig (Elt F)) (r : Ref sig .tc) (h : r ∉ segW1) :
    after seg1 W (Proc.devRef .tc r) = W (Proc.devRef .tc r) :=
  after_of_forall₂ seg1 W seg1_writes h

abbrev segW2 : List (Ref sig .tc) :=
  [main_v64, main_v65, main_v66, main_v67, main_v68]

set_option maxRecDepth 8192 in
set_option maxHeartbeats 4000000 in
theorem seg2_writes : List.Forall₂ (fun op y => op.writes = {Proc.devRef (τ := τ) .tc y}) (seg2 : List (HloOp τ sig (Elt F))) segW2 := by
  repeat constructor

theorem keep2 (W : Valuation τ sig (Elt F)) (r : Ref sig .tc) (h : r ∉ segW2) :
    after seg2 W (Proc.devRef .tc r) = W (Proc.devRef .tc r) :=
  after_of_forall₂ seg2 W seg2_writes h

abbrev segW3 : List (Ref sig .tc) :=
  [main_cst_10, main_v69, main_cst_11, main_v70, main_v71, main_c_12, main_call2.cst.ref, main_call2.v0.ref,
    main_call2.v1.ref, main_call2.cst_0.ref, main_call2.v2.ref, main_call2.v3.ref, main_call2.v4.ref, main_call2.v5.ref, main_call2.v6.ref, main_call2.v7.ref,
    main_call2.cst_1.ref, main_call2.v8.ref, main_call2.cst_2.ref, main_call2.v9.ref, main_call2.v10.ref, main_call2.v11.ref, main_call2.cst_3.ref, main_call2.v12.ref,
    main_call2.cst_4.ref, main_call2.call0.v0.ref, main_call2.call0.v1.ref, main_call2.call0.v2.ref, main_v73, main_v74, main_v75, main_cst_13,
    main_v76, main_v77, main_v78, main_v79, main_v80, main_v81, main_v82, main_v83,
    main_v84, main_v85, main_v86, main_v87, main_call3.cst.ref, main_call3.v0.ref, main_call3.v1.ref]

set_option maxRecDepth 8192 in
set_option maxHeartbeats 4000000 in
theorem seg3_writes : List.Forall₂ (fun op y => op.writes = {Proc.devRef (τ := τ) .tc y}) (seg3 : List (HloOp τ sig (Elt F))) segW3 := by
  repeat constructor

theorem keep3 (W : Valuation τ sig (Elt F)) (r : Ref sig .tc) (h : r ∉ segW3) :
    after seg3 W (Proc.devRef .tc r) = W (Proc.devRef .tc r) :=
  after_of_forall₂ seg3 W seg3_writes h

abbrev segW4 : List (Ref sig .tc) :=
  [main_v89, main_v90, main_v91, main_v92, main_v93]

set_option maxRecDepth 8192 in
set_option maxHeartbeats 4000000 in
theorem seg4_writes : List.Forall₂ (fun op y => op.writes = {Proc.devRef (τ := τ) .tc y}) (seg4 : List (HloOp τ sig (Elt F))) segW4 := by
  repeat constructor

theorem keep4 (W : Valuation τ sig (Elt F)) (r : Ref sig .tc) (h : r ∉ segW4) :
    after seg4 W (Proc.devRef .tc r) = W (Proc.devRef .tc r) :=
  after_of_forall₂ seg4 W seg4_writes h

abbrev segW5 : List (Ref sig .tc) :=
  [main_cst_14, main_v94, main_cst_15, main_v95, main_v96, main_c_16, main_call4.cst.ref, main_call4.v0.ref,
    main_call4.v1.ref, main_call4.cst_0.ref, main_call4.v2.ref, main_call4.v3.ref, main_call4.v4.ref, main_call4.v5.ref, main_call4.v6.ref, main_call4.v7.ref,
    main_call4.cst_1.ref, main_call4.v8.ref, main_call4.cst_2.ref, main_call4.v9.ref, main_call4.v10.ref, main_call4.v11.ref, main_call4.cst_3.ref, main_call4.v12.ref,
    main_call4.cst_4.ref, main_call4.call0.v0.ref, main_call4.call0.v1.ref, main_call4.call0.v2.ref, main_v98, main_v99, main_v100, main_cst_17,
    main_v101, main_v102, main_v103, main_v104, main_v105, main_v106, main_v107, main_v108,
    main_v109, main_v110, main_v111, main_v112, main_call5.cst.ref, main_call5.v0.ref, main_call5.v1.ref]

set_option maxRecDepth 8192 in
set_option maxHeartbeats 4000000 in
theorem seg5_writes : List.Forall₂ (fun op y => op.writes = {Proc.devRef (τ := τ) .tc y}) (seg5 : List (HloOp τ sig (Elt F))) segW5 := by
  repeat constructor

theorem keep5 (W : Valuation τ sig (Elt F)) (r : Ref sig .tc) (h : r ∉ segW5) :
    after seg5 W (Proc.devRef .tc r) = W (Proc.devRef .tc r) :=
  after_of_forall₂ seg5 W seg5_writes h

abbrev segW6 : List (Ref sig .tc) :=
  [main_v114, main_v115, main_v116, main_v117, main_v118, main_v119]

set_option maxRecDepth 8192 in
set_option maxHeartbeats 4000000 in
theorem seg6_writes : List.Forall₂ (fun op y => op.writes = {Proc.devRef (τ := τ) .tc y}) (seg6 : List (HloOp τ sig (Elt F))) segW6 := by
  repeat constructor

theorem keep6 (W : Valuation τ sig (Elt F)) (r : Ref sig .tc) (h : r ∉ segW6) :
    after seg6 W (Proc.devRef .tc r) = W (Proc.devRef .tc r) :=
  after_of_forall₂ seg6 W seg6_writes h

abbrev written : List (Ref sig .tc) := segW0 ++ (segW1 ++ (segW2 ++ (segW3 ++ (segW4 ++ (segW5 ++ segW6)))))

theorem keep (V : Valuation τ sig (Elt F)) (r : Ref sig .tc) (h : r ∉ written) :
    after ops V (Proc.devRef .tc r) = V (Proc.devRef .tc r) :=
  after_of_forall₂ ops V (List.rel_append seg0_writes (List.rel_append seg1_writes (List.rel_append seg2_writes
    (List.rel_append seg3_writes (List.rel_append seg4_writes (List.rel_append seg5_writes seg6_writes)))))) h

theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq (by decide) (by decide) defs main (fun _ => ops) main_eq (fun _ => ops_ok.imp fun _ h => h.1) m ρ
    (fun _ => List.forall_iff_forall_mem.mp (ops_ok.imp fun _ h => h.2))

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v119) = after ops (launchContents m c) (Proc.devRef .tc main_v119)
      ∧ r.2.mem ((c.tc : Thread nD τ).loc main_v31) = after ops (launchContents m c) (Proc.devRef .tc main_v31)
      ∧ r.2.mem ((c.tc : Thread nD τ).loc main_v63) = after ops (launchContents m c) (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun x h c =>
    have k (r : Ref sig .tc) (hr : r ∉ written) : x.2.mem ((c.tc : Thread nD τ).loc r) = m ((c.tc : Thread nD τ).loc r) :=
      (h c r).trans (keep _ r hr)
    ⟨h c main_v119, h c main_v31, h c main_v63, k main_arg0 (by decide), k main_arg1 (by decide), k main_arg2 (by decide), k main_arg3 (by decide), k main_arg4 (by decide),
      k main_arg5 (by decide), k main_arg6 (by decide), k main_arg7 (by decide), k main_arg8 (by decide), k main_arg9 (by decide), k main_arg10 (by decide),
      k main_arg11 (by decide), k main_arg12 (by decide), k main_arg13 (by decide), k main_arg14 (by decide), k main_arg15 (by decide), k main_arg16 (by decide), k main_arg17 (by decide)⟩) (run_all m ρ)

theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => (h c).2.2.2) (run m ρ)

end Cert.ReferenceIdeal.RefRun

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

variable {R K N : Nat}

def sage (mean x : (⟨2, ![R, K]⟩ : Shape).Idx → EReal) (wl : (⟨2, ![K, N]⟩ : Shape).Idx → EReal)
    (b : (⟨2, ![1, N]⟩ : Shape).Idx → EReal) (wr : (⟨2, ![K, N]⟩ : Shape).Idx → EReal) :
    (⟨2, ![R, N]⟩ : Shape).Idx → EReal :=
  fun j => max ((∑ k : Fin K, mean (ix2 (j 0) k) * wl (ix2 k (j 1))) + b (ix2 0 (j 1))
    + (∑ k : Fin K, x (ix2 (j 0) k) * wr (ix2 k (j 1)))) 0

def lin (h : (⟨2, ![R, K]⟩ : Shape).Idx → EReal) (w : (⟨2, ![K, N]⟩ : Shape).Idx → EReal)
    (b : (⟨2, ![1, N]⟩ : Shape).Idx → EReal) : (⟨2, ![R, N]⟩ : Shape).Idx → EReal :=
  fun j => (∑ k : Fin K, h (ix2 (j 0) k) * w (ix2 k (j 1))) + b (ix2 0 (j 1))

def colSum (a : (⟨2, ![R, N]⟩ : Shape).Idx → EReal) : (⟨2, ![1, N]⟩ : Shape).Idx → EReal :=
  fun j => ∑ i : Fin R, a (ix2 i (j 1))

def colSumSq (a : (⟨2, ![R, N]⟩ : Shape).Idx → EReal) : (⟨2, ![1, N]⟩ : Shape).Idx → EReal :=
  fun j => ∑ i : Fin R, a (ix2 i (j 1)) * a (ix2 i (j 1))

def bn (a : (⟨2, ![R, N]⟩ : Shape).Idx → EReal) (scale shift : (⟨2, ![1, N]⟩ : Shape).Idx → EReal) :
    (⟨2, ![R, N]⟩ : Shape).Idx → EReal :=
  fun j => max (a j * scale (ix2 0 (j 1)) + shift (ix2 0 (j 1))) 0

end Cert.Spec

end
-- ==== Proof.LibSage.lean ====
import proofs.«117495_j42150809043597_1_alg».proof.Proof.Spec
import Idealize.ShloMosaic.Lib.ValueIdx
import Idealize.ShloMosaic.Lib.ValueIdxCoords

noncomputable section

open scoped BigOperators

namespace Cert.LibSage

open Idealize.ShloMosaic Idealize.ShloMosaic.ValueIdx

theorem zero2 : (![0, 0] : Fin 2 → Nat) = fun _ => 0 :=
  funext fun a => match a with | ⟨0, _⟩ => rfl | ⟨1, _⟩ => rfl

-- Rows n·B … of two arrays against whole weights and bias: the rectified sum of products there is the dense step of the arrays at those rows.
theorem sage_rows {R B K N : ℕ} (A0 A1 : (⟨2, ![R, K]⟩ : Shape).Idx → EReal) (W2 : (⟨2, ![K, N]⟩ : Shape).Idx → EReal)
    (B3 : (⟨2, ![1, N]⟩ : Shape).Idx → EReal) (W4 : (⟨2, ![K, N]⟩ : Shape).Idx → EReal)
    (x0 x1 : (⟨2, ![B, K]⟩ : Shape).Idx → EReal) (x2 : (⟨2, ![K, N]⟩ : Shape).Idx → EReal)
    (x3 : (⟨2, ![1, N]⟩ : Shape).Idx → EReal) (x4 : (⟨2, ![K, N]⟩ : Shape).Idx → EReal)
    (P : (⟨2, ![B, N]⟩ : Shape).Idx → EReal)
    (hP : ∀ p q, P (ix2 p q)
      = max ((∑ k : Fin K, x0 (ix2 p k) * x2 (ix2 k q)) + x3 (ix2 0 q) + (∑ k : Fin K, x1 (ix2 p k) * x4 (ix2 k q))) 0)
    (n : ℕ)
    (e0 : ∀ (y : (⟨2, ![B, K]⟩ : Shape).Idx) (i : (⟨2, ![R, K]⟩ : Shape).Idx),
      (i 0).val = n * B + (y 0).val → (i 1).val = (y 1).val → x0 y = A0 i)
    (e1 : ∀ (y : (⟨2, ![B, K]⟩ : Shape).Idx) (i : (⟨2, ![R, K]⟩ : Shape).Idx),
      (i 0).val = n * B + (y 0).val → (i 1).val = (y 1).val → x1 y = A1 i)
    (e2 : x2 = W2) (e3 : x3 = B3) (e4 : x4 = W4)
    (j : (⟨2, ![B, N]⟩ : Shape).Idx) (i : (⟨2, ![R, N]⟩ : Shape).Idx)
    (hi0 : (i 0).val = n * B + (j 0).val) (hi1 : (i 1).val = (j 1).val) :
    P j = Cert.Spec.sage A0 A1 W2 B3 W4 i := by
  subst e2 e3 e4
  obtain ⟨p, q, rfl⟩ : ∃ (p : Fin B) (q : Fin N), j = ix2 p q := ⟨j 0, j 1, eq_ix2 j⟩
  obtain ⟨r, s, rfl⟩ : ∃ (r : Fin R) (s : Fin N), i = ix2 r s := ⟨i 0, i 1, eq_ix2 i⟩
  obtain rfl : s = q := Fin.ext hi1
  have s0 : ∀ k : Fin K, x0 (ix2 p k) = A0 (ix2 r k) := fun k => e0 (ix2 p k) (ix2 r k) hi0 rfl
  have s1 : ∀ k : Fin K, x1 (ix2 p k) = A1 (ix2 r k) := fun k => e1 (ix2 p k) (ix2 r k) hi0 rfl
  rw [hP]
  unfold Cert.Spec.sage
  simp only [ix2_0, ix2_1, s0, s1]

end Cert.LibSage

end
-- ==== Proof.LibPlainDot.lean ====
import Idealize.ShloMosaic.Lib.StackMember

noncomputable section

open scoped BigOperators

namespace Cert.LibPlainDot

open Idealize.ShloMosaic Idealize.ShloMosaic.ValueIdx

variable {M K N : Nat} {φ₁ φ₂ : FTy}

-- The host's plain product at an index: the sum over the inner coordinate of the entries' products.
theorem dotGeneral_apply (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) := by
  obtain ⟨a, b, rfl⟩ : ∃ a b, j = ix2 a b := ⟨j 0, j 1, eq_ix2 j⟩
  exact StackMember.dotGeneral_plain_apply prec l r a b

-- A kernel's product into the zero accumulator is the same sum.
theorem matmul_zero_apply (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans
    ((Ideal.dotGeneral_apply _ prec default l r j).symm.trans (dotGeneral_apply prec _ l r j))

end Cert.LibPlainDot

end
-- ==== Proof.ValA0.lean ====
import proofs.«117495_j42150809043597_1_alg».proof.Proof.RegA0
import proofs.«117495_j42150809043597_1_alg».proof.Proof.LibSage
import proofs.«117495_j42150809043597_1_alg».proof.Proof.LibPlainDot
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

-- The two products into the zero accumulator are sums over the inner coordinate; casts are the identity on extended reals.
theorem pay0_apply (v0 v3 : Vec Ideal S5000x32 .f32) (v5 v8 : Vec Ideal S32x64 .f32) (v12 : Vec Ideal S1x64 .f32)
    (p : Fin 5000) (q : Fin 64) :
    k0_pay1 v0 v3 v5 v8 v12 (ix2 p q)
      = max ((∑ k : Fin 32, v0 (ix2 p k) * v5 (ix2 k q)) + v12 (ix2 0 q) + (∑ k : Fin 32, v3 (ix2 p k) * v8 (ix2 k q))) 0 := by
  unfold k0_pay1
  rw [shapeCast_self, shapeCast_self, shapeCast_self, shapeCast_self]
  rw [maximumf_apply, addf_apply, addf_apply, broadcast_apply,
    show dot_S5000x32_S32x64_S5000x64_1_0_0_1_n_n = DotDims.plain 5000 32 64 from rfl]
  simp only [matmul]
  rw [Cert.LibPlainDot.matmul_zero_apply, Cert.LibPlainDot.matmul_zero_apply]
  rw [broadcastTo_apply v12 broadcasts_S1x64_S5000x64 (ix2 p q) (ix2 0 q)
    (fun a => match a with | ⟨0, _⟩ => rfl | ⟨1, _⟩ => rfl)]
  simp only [truncf_apply, ix2_0, ix2_1, Ideal.ofBits_def, Ideal.ofBits_zero_f32]

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

-- Each row-block input is read at rows 5000·t …, the weights and the bias whole, so point t writes back block t of the dense step.
theorem flushed0_eq (c : Dev nD) (t : Fin cfg0.N) :
    (Reg.dat0 (F := Ideal) V c).flushed 5 t = ((cfg0.win 5).blk t).view.read (Elt Ideal)
      (Cert.Spec.sage (R := 100000) (K := 32) (N := 64) (V c main_v24) (V c main_arg0) (V c main_v25) (V c main_v26) (V c main_v27)) := by
  show (cfg0.win 5).cut (grid0.coords t) ((dat0 V c).after 5 t) = _
  rw [after0_5]
  unfold out0_5
  rw [View.canon_unit_zero LibSage.zero2]
  simp only [View.ld_unit_zero (S := S5000x32) LibSage.zero2, View.ld_unit_zero (S := S32x64) LibSage.zero2, View.ld_unit_zero (S := S1x64) LibSage.zero2]
  obtain ⟨a0, a1, b0, b1, c0, c1, d0, d1, f0, f1, g0, g1⟩ := idx_facts0 t
  funext j
  refine LibSage.sage_rows (V c main_v24) (V c main_arg0) (V c main_v25) (V c main_v26) (V c main_v27)
    (iblk0 V c 0 t) (iblk0 V c 1 t) (iblk0 V c 2 t) (iblk0 V c 3 t) (iblk0 V c 4 t) _ (pay0_apply _ _ _ _ _) t.val
    (fun y i h0 h1 => ?_) (fun y i h0 h1 => ?_) (funext fun y => ?_) (funext fun y => ?_) (funext fun y => ?_)
    j (((cfg0.win 5).blk t).view.emb j) ?_ ?_
  · exact congrArg (V c main_v24) (Shape.idx_ext₂ (x := ((cfg0.win 0).blk t).view.emb y)
      (by show win0_0.index t (0 : Fin 2) * 5000 + 1 * (y 0).val = (i 0).val; omega)
      (by show win0_0.index t (1 : Fin 2) * 32 + 1 * (y 1).val = (i 1).val; omega))
  · exact congrArg (V c main_arg0) (Shape.idx_ext₂ (x := ((cfg0.win 1).blk t).view.emb y)
      (by show win0_1.index t (0 : Fin 2) * 5000 + 1 * (y 0).val = (i 0).val; omega)
      (by show win0_1.index t (1 : Fin 2) * 32 + 1 * (y 1).val = (i 1).val; omega))
  · exact congrArg (V c main_v25) (Shape.idx_ext₂ (x := ((cfg0.win 2).blk t).view.emb y)
      (by show win0_2.index t (0 : Fin 2) * 32 + 1 * (y 0).val = (y 0).val; omega)
      (by show win0_2.index t (1 : Fin 2) * 64 + 1 * (y 1).val = (y 1).val; omega))
  · exact congrArg (V c main_v26) (Shape.idx_ext₂ (x := ((cfg0.win 3).blk t).view.emb y)
      (by show win0_3.index t (0 : Fin 2) * 1 + 1 * (y 0).val = (y 0).val; omega)
      (by show win0_3.index t (1 : Fin 2) * 64 + 1 * (y 1).val = (y 1).val; omega))
  · exact congrArg (V c main_v27) (Shape.idx_ext₂ (x := ((cfg0.win 4).blk t).view.emb y)
      (by show win0_4.index t (0 : Fin 2) * 32 + 1 * (y 0).val = (y 0).val; omega)
      (by show win0_4.index t (1 : Fin 2) * 64 + 1 * (y 1).val = (y 1).val; omega))
  · show win0_5.index t (0 : Fin 2) * 5000 + 1 * (j 0).val = t.val * 5000 + (j 0).val; omega
  · show win0_5.index t (1 : Fin 2) * 64 + 1 * (j 1).val = (j 1).val; omega

-- Row r lies in the block of point r / 5000.
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, by show _ < grid0.N; rw [N_0]; omega⟩, rfl⟩
  obtain ⟨-, -, -, -, -, -, -, -, -, -, g0, g1⟩ := idx_facts0 t
  refine ⟨t, flush0_5 t, ?_⟩
  show i ∈ ((View.whole main_v28).slice (win0_5.rect t)).set
  rw [View.set_slice_whole, Rect.mem_set_unit]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

theorem final0 (c : Dev nD) : (Reg.dat0 (F := Ideal) V c).arrAt 5 cfg0.N
    = Cert.Spec.sage (R := 100000) (K := 32) (N := 64) (V c main_v24) (V c main_arg0) (V c main_v25) (V c main_v26) (V c main_v27) :=
  (dat0 V c).arrAt_eq_of_cover 5 _ (fun t _ => flushed0_eq V c t) cover0

end Cert.KernelIdeal.Val

end
-- ==== Proof.ValA1.lean ====
import proofs.«117495_j42150809043597_1_alg».proof.Proof.RegA1
import proofs.«117495_j42150809043597_1_alg».proof.Proof.LibSage
import proofs.«117495_j42150809043597_1_alg».proof.Proof.LibPlainDot
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

-- The two products into the zero accumulator are sums over the inner coordinate; casts are the identity on extended reals.
theorem pay1_apply (v0 v3 : Vec Ideal S5000x64 .f32) (v5 v8 : Vec Ideal S64x64 .f32) (v12 : Vec Ideal S1x64 .f32)
    (p : Fin 5000) (q : Fin 64) :
    k1_pay1 v0 v3 v5 v8 v12 (ix2 p q)
      = max ((∑ k : Fin 64, v0 (ix2 p k) * v5 (ix2 k q)) + v12 (ix2 0 q) + (∑ k : Fin 64, v3 (ix2 p k) * v8 (ix2 k q))) 0 := by
  unfold k1_pay1
  rw [shapeCast_self, shapeCast_self, shapeCast_self, shapeCast_self, shapeCast_self]
  rw [maximumf_apply, addf_apply, addf_apply, broadcast_apply,
    show dot_S5000x64_S64x64_S5000x64_1_0_0_1_n_n = DotDims.plain 5000 64 64 from rfl]
  simp only [matmul]
  rw [Cert.LibPlainDot.matmul_zero_apply, Cert.LibPlainDot.matmul_zero_apply]
  rw [broadcastTo_apply v12 broadcasts_S1x64_S5000x64 (ix2 p q) (ix2 0 q)
    (fun a => match a with | ⟨0, _⟩ => rfl | ⟨1, _⟩ => rfl)]
  simp only [truncf_apply, ix2_0, ix2_1, Ideal.ofBits_def, Ideal.ofBits_zero_f32]

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

-- Each row-block input is read at rows 5000·t …, the weights and the bias whole, so point t writes back block t of the dense step.
theorem flushed1_eq (c : Dev nD) (t : Fin cfg1.N) :
    (Reg.dat1 (F := Ideal) V c).flushed 5 t = ((cfg1.win 5).blk t).view.read (Elt Ideal)
      (Cert.Spec.sage (R := 100000) (K := 64) (N := 64) (V c main_v40) (V c main_v28) (V c main_v41) (V c main_v42) (V c main_v43)) := by
  show (cfg1.win 5).cut (grid1.coords t) ((dat1 V c).after 5 t) = _
  rw [after1_5]
  unfold out1_5
  rw [View.canon_unit_zero LibSage.zero2]
  simp only [View.ld_unit_zero (S := S5000x64) LibSage.zero2, View.ld_unit_zero (S := S64x64) LibSage.zero2, View.ld_unit_zero (S := S1x64) LibSage.zero2]
  obtain ⟨a0, a1, b0, b1, c0, c1, d0, d1, f0, f1, g0, g1⟩ := idx_facts1 t
  funext j
  refine LibSage.sage_rows (V c main_v40) (V c main_v28) (V c main_v41) (V c main_v42) (V c main_v43)
    (iblk1 V c 0 t) (iblk1 V c 1 t) (iblk1 V c 2 t) (iblk1 V c 3 t) (iblk1 V c 4 t) _ (pay1_apply _ _ _ _ _) t.val
    (fun y i h0 h1 => ?_) (fun y i h0 h1 => ?_) (funext fun y => ?_) (funext fun y => ?_) (funext fun y => ?_)
    j (((cfg1.win 5).blk t).view.emb j) ?_ ?_
  · exact congrArg (V c main_v40) (Shape.idx_ext₂ (x := ((cfg1.win 0).blk t).view.emb y)
      (by show win1_0.index t (0 : Fin 2) * 5000 + 1 * (y 0).val = (i 0).val; omega)
      (by show win1_0.index t (1 : Fin 2) * 64 + 1 * (y 1).val = (i 1).val; omega))
  · exact congrArg (V c main_v28) (Shape.idx_ext₂ (x := ((cfg1.win 1).blk t).view.emb y)
      (by show win1_1.index t (0 : Fin 2) * 5000 + 1 * (y 0).val = (i 0).val; omega)
      (by show win1_1.index t (1 : Fin 2) * 64 + 1 * (y 1).val = (i 1).val; omega))
  · exact congrArg (V c main_v41) (Shape.idx_ext₂ (x := ((cfg1.win 2).blk t).view.emb y)
      (by show win1_2.index t (0 : Fin 2) * 64 + 1 * (y 0).val = (y 0).val; omega)
      (by show win1_2.index t (1 : Fin 2) * 64 + 1 * (y 1).val = (y 1).val; omega))
  · exact congrArg (V c main_v42) (Shape.idx_ext₂ (x := ((cfg1.win 3).blk t).view.emb y)
      (by show win1_3.index t (0 : Fin 2) * 1 + 1 * (y 0).val = (y 0).val; omega)
      (by show win1_3.index t (1 : Fin 2) * 64 + 1 * (y 1).val = (y 1).val; omega))
  · exact congrArg (V c main_v43) (Shape.idx_ext₂ (x := ((cfg1.win 4).blk t).view.emb y)
      (by show win1_4.index t (0 : Fin 2) * 64 + 1 * (y 0).val = (y 0).val; omega)
      (by show win1_4.index t (1 : Fin 2) * 64 + 1 * (y 1).val = (y 1).val; omega))
  · show win1_5.index t (0 : Fin 2) * 5000 + 1 * (j 0).val = t.val * 5000 + (j 0).val; omega
  · show win1_5.index t (1 : Fin 2) * 64 + 1 * (j 1).val = (j 1).val; omega

-- Row r lies in the block of point r / 5000.
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by show _ < grid1.N; rw [N_1]; omega⟩, rfl⟩
  obtain ⟨-, -, -, -, -, -, -, -, -, -, g0, g1⟩ := idx_facts1 t
  refine ⟨t, flush1_5 t, ?_⟩
  show i ∈ ((View.whole main_v44).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

theorem final1 (c : Dev nD) : (Reg.dat1 (F := Ideal) V c).arrAt 5 cfg1.N
    = Cert.Spec.sage (R := 100000) (K := 64) (N := 64) (V c main_v40) (V c main_v28) (V c main_v41) (V c main_v42) (V c main_v43) :=
  (dat1 V c).arrAt_eq_of_cover 5 _ (fun t _ => flushed1_eq V c t) cover1

end Cert.KernelIdeal.Val

end
-- ==== Proof.Algebra.lean ====
import Idealize.ShloMosaic.PureOps.Ideal
import Mathlib.Algebra.BigOperators.Fin
import Mathlib.Tactic.Ring
import Mathlib.Tactic.Linarith
import Mathlib.Tactic.FieldSimp

noncomputable section

namespace Cert.Algebra

open Idealize.ShloMosaic
open scoped BigOperators

theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

def IsReal (a : EReal) : Prop := ∃ r : ℝ, a = (r : EReal)

theorem isReal_zero : IsReal 0 := ⟨0, rfl⟩
theorem isReal_one : IsReal 1 := ⟨1, rfl⟩

theorem IsReal.add {a b : EReal} (ha : IsReal a) (hb : IsReal b) : IsReal (a + b) := by
  obtain ⟨x, rfl⟩ := ha; obtain ⟨y, rfl⟩ := hb; exact ⟨x + y, rfl⟩

theorem IsReal.mul {a b : EReal} (ha : IsReal a) (hb : IsReal b) : IsReal (a * b) := by
  obtain ⟨x, rfl⟩ := ha; obtain ⟨y, rfl⟩ := hb; exact ⟨x * y, rfl⟩

theorem IsReal.max {a b : EReal} (ha : IsReal a) (hb : IsReal b) : IsReal (max a b) := by
  obtain ⟨x, rfl⟩ := ha; obtain ⟨y, rfl⟩ := hb; exact ⟨_, EReal.coe_strictMono.monotone.map_max.symm⟩

theorem IsReal.sum {ι : Type*} (s : Finset ι) (f : ι → EReal) (h : ∀ i ∈ s, IsReal (f i)) :
    IsReal (∑ i ∈ s, f i) := by
  choose g hg using h
  exact ⟨∑ i ∈ s.attach, g i i.2, by rw [coe_sum, ← Finset.sum_attach]; exact Finset.sum_congr rfl fun i _ => hg i i.2⟩

-- The quotient of two reals, the divisor nonzero, is the real quotient.
theorem div_coe_coe (x : ℝ) {y : ℝ} (hy : y ≠ 0) :
    Ideal.div (x : EReal) (y : EReal) = ((x / y : ℝ) : EReal) := by
  rw [Ideal.div_coe hy, ← EReal.coe_mul, mul_one_div]

theorem IsReal.div {a c : EReal} (ha : IsReal a) (hc : ∃ r : ℝ, c = (r : EReal) ∧ r ≠ 0) : IsReal (Ideal.div a c) := by
  obtain ⟨x, rfl⟩ := ha; obtain ⟨y, rfl, hy⟩ := hc; exact ⟨_, div_coe_coe x hy⟩

theorem rsqrt_coe_pos {r : ℝ} (h : 0 < r) :
    Ideal.rsqrt (r : EReal) = (((Real.sqrt r)⁻¹ : ℝ) : EReal) := by
  rw [Ideal.rsqrt_coe, if_neg (not_lt.mpr h.le), if_neg h.ne']

theorem ofBits_100000 : Ideal.ofBits .f32 0x47C35000#32 = ((100000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨((2 ^ 23 + 2606508 : ℕ) : ℝ) * (2 : ℝ) ^ ((110 : ℤ) - 127 - 23), by positivity, ?_⟩
  simp [Ideal.ofBits, Ideal.ieee, -EReal.coe_mul]

-- A product with the reciprocal of a nonzero real is the quotient by it, for every extended real.
theorem mul_div_one_eq_div (a c one : EReal) (h1 : one = 1) (hc : ∃ r : ℝ, c = (r : EReal) ∧ r ≠ 0) :
    a * Ideal.div one c = Ideal.div a c := by
  obtain ⟨r, rfl, hr⟩ := hc
  rw [h1, Ideal.div_coe hr, Ideal.div_coe hr, one_mul]

-- A zero plus a sum of ones is the number of its terms, so its maximum with one is a real at least one.
theorem max_count_one_ne {ι : Type*} (s : Finset ι) (f : ι → EReal) (h : ∀ j ∈ s, f j = 1) :
    ∃ r : ℝ, max (0 + ∑ j ∈ s, f j) 1 = (r : EReal) ∧ r ≠ 0 := by
  rw [zero_add, Finset.sum_congr rfl h, Finset.sum_const, nsmul_one]
  exact ⟨max s.card 1, (EReal.coe_strictMono.monotone.map_max (a := (s.card : ℝ)) (b := 1)).symm,
    (lt_max_of_lt_right one_pos).ne'⟩

-- Over the reals the mean of the squares less the squared mean is the mean of the squared deviations.
theorem var_real {ι : Type*} [Fintype ι] (h : ι → ℝ) (n : ℝ) (hn : (Fintype.card ι : ℝ) = n) (hn0 : n ≠ 0) :
    (∑ i, h i * h i) / n - ((∑ i, h i) / n) * ((∑ i, h i) / n)
      = (∑ i, (h i - (∑ j, h j) / n) * (h i - (∑ j, h j) / n)) / n := by
  set S : ℝ := ∑ j, h j with hS
  have expand : ∑ i, (h i - S / n) * (h i - S / n) = (∑ i, h i * h i) - 2 * (S / n) * S + n * (S / n * (S / n)) := by
    have : ∀ i, (h i - S / n) * (h i - S / n) = h i * h i - 2 * (S / n) * h i + S / n * (S / n) := fun i => by ring
    simp only [this, Finset.sum_add_distrib, Finset.sum_sub_distrib, ← Finset.mul_sum, Finset.sum_const,
      Finset.card_univ, nsmul_eq_mul, hn, ← hS]
    ring
  rw [expand]
  field_simp
  ring

-- Over real rows the mean is a real, and both forms of the variance are one real that is not negative.
theorem mean_var {ι : Type*} [Fintype ι] (x : ι → EReal) (hx : ∀ i, IsReal (x i)) (n : ℝ)
    (hn : (Fintype.card ι : ℝ) = n) (hn0 : n ≠ 0) :
    ∃ μ v : ℝ, 0 ≤ v ∧ Ideal.div (∑ i, x i) n = μ
      ∧ Ideal.div (∑ i, x i * x i) n - (μ : EReal) * μ = v
      ∧ Ideal.div (∑ i, (x i - μ) * (x i - μ)) n = v := by
  choose h hh using hx
  simp only [hh]
  refine ⟨(∑ i, h i) / n, (∑ i, (h i - (∑ j, h j) / n) * (h i - (∑ j, h j) / n)) / n,
    div_nonneg (Finset.sum_nonneg fun i _ => mul_self_nonneg _) (hn ▸ Nat.cast_nonneg _), ?_, ?_, ?_⟩
  · rw [← coe_sum, div_coe_coe _ hn0]
  · simp only [← EReal.coe_mul]
    rw [← coe_sum, div_coe_coe _ hn0, ← EReal.coe_sub, var_real h n hn hn0]
  · simp only [← EReal.coe_sub, ← EReal.coe_mul]
    rw [← coe_sum, div_coe_coe _ hn0]

-- Over real rows and real parameters the folded normalisation and the centred one are one real number.
theorem bn_eq_real {ι : Type*} [Fintype ι] (x : ι → EReal) (hx : ∀ i, IsReal (x i)) (n : ℝ)
    (hn : (Fintype.card ι : ℝ) = n) (hn0 : n ≠ 0) (e : ℝ) (he : 0 < e) {h g b : EReal} (hh : IsReal h)
    (hg : IsReal g) (hb : IsReal b) :
    ∃ r : ℝ,
      h * (g * Ideal.rsqrt (Ideal.div (∑ i, x i * x i) n - Ideal.div (∑ i, x i) n * Ideal.div (∑ i, x i) n + e))
        + (b - Ideal.div (∑ i, x i) n * (g * Ideal.rsqrt (Ideal.div (∑ i, x i * x i) n
            - Ideal.div (∑ i, x i) n * Ideal.div (∑ i, x i) n + e))) = r
      ∧ (h - Ideal.div (∑ i, x i) n) * Ideal.rsqrt (Ideal.div (∑ i, (x i - Ideal.div (∑ j, x j) n)
          * (x i - Ideal.div (∑ j, x j) n)) n + e) * g + b = r := by
  obtain ⟨μ, v, hv, hμ, hK, hR⟩ := mean_var x hx n hn hn0
  obtain ⟨h, rfl⟩ := hh; obtain ⟨g, rfl⟩ := hg; obtain ⟨b, rfl⟩ := hb
  rw [hμ, hK, hR, ← EReal.coe_add, rsqrt_coe_pos (by linarith)]
  generalize (Real.sqrt (v + e))⁻¹ = s
  exact ⟨(h - μ) * s * g + b, by norm_cast; ring, by norm_cast⟩

def acc (block : ℕ → EReal) : ℕ → EReal
  | 0 => 0 + block 0
  | t + 1 => acc block t + block (t + 1)

@[simp] theorem acc_zero (block : ℕ → EReal) : acc block 0 = 0 + block 0 := rfl
@[simp] theorem acc_succ (block : ℕ → EReal) (t : ℕ) : acc block (t + 1) = acc block t + block (t + 1) := rfl

theorem acc_eq_sum_range (block : ℕ → EReal) (T : ℕ) : acc block T = ∑ t ∈ Finset.range (T + 1), block t := by
  induction T with
  | zero => simp
  | succ T ih => rw [acc_succ, ih, Finset.sum_range_succ (n := T + 1)]

-- Twenty blocks of 5000 rows, accumulated from a zero, are the 100000 rows.
theorem acc_19_blocks (g : ℕ → EReal) :
    acc (fun t => ∑ p : Fin 5000, g (5000 * t + p.val)) 19 = ∑ i : Fin 100000, g i.val := by
  rw [acc_eq_sum_range, ← Fin.sum_univ_eq_sum_range (fun t => ∑ p : Fin 5000, g (5000 * t + p.val)) 20,
    ← Fintype.sum_prod_type']
  exact Fintype.sum_equiv (finProdFinEquiv (m := 20) (n := 5000)) _ (fun i : Fin 100000 => g i.val)
    fun x => congrArg g (by simp [finProdFinEquiv, Nat.add_comm])

end Cert.Algebra

end
-- ==== Proof.ValR2.lean ====
import proofs.«117495_j42150809043597_1_alg».proof.Proof.RegR2
import proofs.«117495_j42150809043597_1_alg».proof.Proof.Spec
import proofs.«117495_j42150809043597_1_alg».proof.Proof.Algebra
import proofs.«117495_j42150809043597_1_alg».proof.Proof.LibPlainDot
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)

theorem dotR2_eq : dot_S5000x64_S64x128_S5000x128_1_0_0_1_n_n = DotDims.plain 5000 64 128 := rfl

theorem payR2_3_apply (x : Vec Ideal S5000x64 .f32) (w : Vec Ideal S64x128 .f32) (b : Vec Ideal S1x128 .f32)
    (p : Fin 5000) (q : Fin 128) :
    k2_pay3 x w b (ix2 p q) = (∑ k : Fin 64, x (ix2 p k) * w (ix2 k q)) + b (ix2 0 q) := by
  unfold k2_pay3
  rw [shapeCast_self, shapeCast_self, shapeCast_self]
  rw [addf_apply, dotR2_eq]
  simp only [matmul]
  rw [Cert.LibPlainDot.matmul_zero_apply]
  rw [broadcastTo_apply b broadcasts_S1x128_S5000x128 (ix2 p q) (ix2 0 q)
    (fun a => match a with | ⟨0, _⟩ => rfl | ⟨1, _⟩ => rfl)]
  simp only [truncf_apply, ix2_0, ix2_1]

-- A row plus the column sums of a 5000 × 128 block, at column q.
theorem rowaddR2_apply (s : Vec Ideal S1x128 .f32) (src : FVec Ideal S5000x128 .f32) (hφ : FKind.Formats .f32)
    (hacc : (0x00000000#32 : BitVec 32) = 0x00000000#32) (q : Fin 128) :
    shapeCast S1x128 (addf s (shapeCast S1x128 (multiReduction (F := Ideal) .add [0] S128 src 0x00000000#32 reduces_S5000x128_S128 hφ hacc)
      shapeCasts_S128_S1x128)) shapeCasts_S1x128_S1x128 (ix2 0 q) = s (ix2 0 q) + ∑ p : Fin 5000, src (ix2 p q) := by
  refine (congrFun (shapeCast_self _ shapeCasts_S1x128_S1x128) (ix2 0 q)).trans ?_
  rw [addf_apply]
  refine congrArg (s (ix2 0 q) + ·) ((shapeCast_a_1a_apply _ shapeCasts_S128_S1x128 0 q).trans ?_)
  refine (Ideal.multiReduction_add_single src 0x00000000#32 reduces_S5000x128_S128 hφ hacc (ix1 q)).trans ?_
  exact Finset.sum_congr rfl fun p _ => congrArg src (funext fun a => match a with | ⟨0, _⟩ => rfl | ⟨1, _⟩ => rfl)

theorem payR2_4_apply (x : Vec Ideal S5000x64 .f32) (w : Vec Ideal S64x128 .f32) (b : Vec Ideal S1x128 .f32)
    (s0 : Vec Ideal S1x128 .f32) (q : Fin 128) :
    k2_pay4 x w b s0 (ix2 0 q) = s0 (ix2 0 q) + ∑ p : Fin 5000, k2_pay3 x w b (ix2 p q) :=
  rowaddR2_apply s0 _ _ _ q

theorem payR2_5_apply (x : Vec Ideal S5000x64 .f32) (w : Vec Ideal S64x128 .f32) (b : Vec Ideal S1x128 .f32)
    (s1 : Vec Ideal S1x128 .f32) (q : Fin 128) :
    k2_pay5 x w b s1 (ix2 0 q) = s1 (ix2 0 q) + ∑ p : Fin 5000, k2_pay3 x w b (ix2 p q) * k2_pay3 x w b (ix2 p q) :=
  rowaddR2_apply s1 _ _ _ q

theorem payR2_1_apply (j : S1x128.Idx) : (k2_pay1 (F := Ideal)) j = 0 := by
  unfold k2_pay1; exact (congrFun (shapeCast_self _ shapeCasts_S1x128_S1x128) j).trans Ideal.ofBits_zero_f32

theorem payR2_2_apply (j : S1x128.Idx) : (k2_pay2 (F := Ideal)) j = 0 := by
  unfold k2_pay2; exact (congrFun (shapeCast_self _ shapeCasts_S1x128_S1x128) j).trans Ideal.ofBits_zero_f32

theorem idx_factsR2 : ∀ t : Fin cfg2.N,
    win2_0.index t (0 : Fin 2) = t.val ∧ win2_0.index t (1 : Fin 2) = 0
    ∧ win2_3.index t (0 : Fin 2) = t.val ∧ win2_3.index t (1 : Fin 2) = 0
    ∧ (∀ a, win2_1.index t a = 0) ∧ (∀ a, win2_2.index t a = 0) ∧ (∀ a, win2_4.index t a = 0) ∧ (∀ a, win2_5.index t a = 0) :=
  (by decide +kernel : ∀ t : Fin grid2.N, _)

variable (V : (c : Dev nD) → (b : Ref sig .tc) → Buf (Elt Ideal) ((c : Thread nD τ).loc b))

abbrev LR2 (c : Dev nD) : S100000x128.Idx → EReal :=
  Cert.Spec.lin (R := 100000) (K := 64) (N := 128) (V c main_v44) (V c main_v45) (V c main_v46)

theorem iblkR2_0_eq (c : Dev nD) (t : Fin cfg2.N) (y : S5000x64.Idx) (i : S100000x64.Idx)
    (h0 : (i 0).val = t.val * 5000 + (y 0).val) (h1 : (i 1).val = (y 1).val) :
    iblk2 V c 0 t y = V c main_v44 i := by
  obtain ⟨a0, a1, -⟩ := idx_factsR2 t
  show V c main_v44 (((cfg2.win 0).blk t).view.emb y) = V c main_v44 i
  refine congrArg (V c main_v44) (funext fun a => Fin.ext ?_)
  match a with
  | ⟨0, _⟩ => show win2_0.index t (0 : Fin 2) * 5000 + 1 * (y 0).val = (i 0).val; omega
  | ⟨1, _⟩ => show win2_0.index t (1 : Fin 2) * 64 + 1 * (y 1).val = (i 1).val; omega

-- A block at block index zero on both axes sits in its array at its own coordinates: the weights', the bias's and the small outputs' do.
theorem iblkR2_1_eq (c : Dev nD) (t : Fin cfg2.N) : iblk2 V c 1 t = V c main_v45 :=
  funext fun y => congrArg (V c main_v45) (funext fun a => Fin.ext (win2_1.rect_emb_val_of_index_zero t a ((idx_factsR2 t).2.2.2.2.1 a) y))

theorem iblkR2_2_eq (c : Dev nD) (t : Fin cfg2.N) : iblk2 V c 2 t = V c main_v46 :=
  funext fun y => congrArg (V c main_v46) (funext fun a => Fin.ext (win2_2.rect_emb_val_of_index_zero t a ((idx_factsR2 t).2.2.2.2.2.1 a) y))

theorem embR2_4 (t : Fin cfg2.N) (y : S1x128.Idx) : ((cfg2.win 4).blk t).view.emb y = y :=
  funext fun a => Fin.ext (win2_4.rect_emb_val_of_index_zero t a ((idx_factsR2 t).2.2.2.2.2.2.1 a) y)

theorem embR2_5 (t : Fin cfg2.N) (y : S1x128.Idx) : ((cfg2.win 5).blk t).view.emb y = y :=
  funext fun a => Fin.ext (win2_5.rect_emb_val_of_index_zero t a ((idx_factsR2 t).2.2.2.2.2.2.2 a) y)

theorem payR2_3_at (c : Dev nD) (t : Fin cfg2.N) (j : S5000x128.Idx) (i : S100000x128.Idx)
    (hi0 : (i 0).val = t.val * 5000 + (j 0).val) (hi1 : (i 1).val = (j 1).val) :
    k2_pay3 (iblk2 V c 0 t) (iblk2 V c 1 t) (iblk2 V c 2 t) j = LR2 V c i := by
  rw [iblkR2_1_eq, iblkR2_2_eq]
  obtain ⟨p, q, rfl⟩ : ∃ (p : Fin 5000) (q : Fin 128), j = ix2 p q := ⟨j 0, j 1, eq_ix2 j⟩
  obtain ⟨P, Q, rfl⟩ : ∃ (P : Fin 100000) (Q : Fin 128), i = ix2 P Q := ⟨i 0, i 1, eq_ix2 i⟩
  obtain rfl : Q = q := Fin.ext hi1
  rw [payR2_3_apply]
  unfold LR2 Cert.Spec.lin
  simp only [ix2_0, ix2_1, fun k : Fin 64 => iblkR2_0_eq V c t (ix2 p k) (ix2 P k) hi0 rfl]

theorem flushedR2_3_eq (c : Dev nD) (t : Fin cfg2.N) :
    (Reg.dat2 (F := Ideal) V c).flushed 3 t = ((cfg2.win 3).blk t).view.read (Elt Ideal) (LR2 V c) := by
  obtain ⟨-, -, d0, d1, -⟩ := idx_factsR2 t
  funext j
  show k2_pay3 (iblk2 V c 0 t) (iblk2 V c 1 t) (iblk2 V c 2 t) j = LR2 V c (((cfg2.win 3).blk t).view.emb j)
  refine payR2_3_at V c t j (((cfg2.win 3).blk t).view.emb j) ?_ ?_
  · show win2_3.index t (0 : Fin 2) * 5000 + 1 * (j 0).val = t.val * 5000 + (j 0).val; omega
  · show win2_3.index t (1 : Fin 2) * 128 + 1 * (j 1).val = (j 1).val; omega

theorem coverR2_3 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, d0, d1, -⟩ := idx_factsR2 t
  refine ⟨t, flush2_3 t, ?_⟩
  show i ∈ ((View.whole main_v47_0).slice (win2_3.rect t)).set
  rw [View.set_slice_whole, Rect.mem_set_unit]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

theorem final2_3 (c : Dev nD) : (Reg.dat2 (F := Ideal) V c).arrAt 3 cfg2.N
    = Cert.Spec.lin (R := 100000) (K := 64) (N := 128) (V c main_v44) (V c main_v45) (V c main_v46) :=
  (dat2 V c).arrAt_eq_of_cover 3 _ (fun t _ => flushedR2_3_eq V c t) coverR2_3

-- The linear layer's column q as a sequence over the natural numbers, zero from row 100000 on.
def LnatR2 (c : Dev nD) (q : Fin 128) (r : ℕ) : EReal :=
  if h : r < 100000 then LR2 V c (ix2 ⟨r, h⟩ q) else 0

theorem LnatR2_at (c : Dev nD) (q : Fin 128) (t : Fin cfg2.N) (p : Fin 5000) :
    k2_pay3 (iblk2 V c 0 t) (iblk2 V c 1 t) (iblk2 V c 2 t) (ix2 p q) = LnatR2 V c q (5000 * t.val + p.val) := by
  have hN : cfg2.N = 20 := N_2
  have ht : t.val < cfg2.N := t.isLt
  have hp : p.val < 5000 := p.isLt
  have hr : 5000 * t.val + p.val < 100000 := by omega
  unfold LnatR2
  rw [dif_pos hr]
  refine payR2_3_at V c t (ix2 p q) (ix2 ⟨5000 * t.val + p.val, hr⟩ q) ?_ rfl
  show 5000 * t.val + p.val = t.val * 5000 + p.val
  omega

-- A sequence that starts at 0 and adds G n at step n is the running sum of G.
theorem acc_of_rec {N : ℕ} (G : ℕ → EReal) (r : (n : ℕ) → n ≤ N → EReal) (h0 : ∀ h, r 0 h = 0)
    (hs : ∀ n h, r (n + 1) h = r n (Nat.le_of_lt h) + G n) : ∀ n h, r (n + 1) h = Cert.Algebra.acc G n
  | 0, h => by rw [hs, h0, Cert.Algebra.acc_zero]
  | n + 1, h => by rw [hs, acc_of_rec G r h0 hs n, Cert.Algebra.acc_succ]

-- After the last point the two rows are the column sums of the linear layer and of its squares.
theorem rowsR2_last (c : Dev nD) (q : Fin 128) (t : Fin cfg2.N) (ht : t.val = 19) :
    (rows2 V c (t.val + 1) t.isLt).1 (ix2 0 q) = Cert.Spec.colSum (LR2 V c) (ix2 0 q)
    ∧ (rows2 V c (t.val + 1) t.isLt).2 (ix2 0 q) = Cert.Spec.colSumSq (LR2 V c) (ix2 0 q) := by
  constructor
  · refine (acc_of_rec (fun n => ∑ p : Fin 5000, LnatR2 V c q (5000 * n + p.val)) (fun n h => (rows2 V c n h).1 (ix2 0 q))
      (fun _ => payR2_1_apply (ix2 0 q)) (fun n h => (payR2_4_apply _ _ _ _ q).trans
        (congrArg (_ + ·) (Finset.sum_congr rfl fun p _ => LnatR2_at V c q ⟨n, h⟩ p))) t.val t.isLt).trans ?_
    rw [ht, Cert.Algebra.acc_19_blocks (LnatR2 V c q)]
    unfold Cert.Spec.colSum
    refine Finset.sum_congr rfl fun i _ => ?_
    unfold LnatR2; rw [dif_pos i.isLt]
  · refine (acc_of_rec (fun n => ∑ p : Fin 5000, LnatR2 V c q (5000 * n + p.val) * LnatR2 V c q (5000 * n + p.val))
      (fun n h => (rows2 V c n h).2 (ix2 0 q)) (fun _ => payR2_2_apply (ix2 0 q)) (fun n h => (payR2_5_apply _ _ _ _ q).trans
        (congrArg (_ + ·) (Finset.sum_congr rfl fun p _ => by rw [LnatR2_at V c q ⟨n, h⟩ p]))) t.val t.isLt).trans ?_
    rw [ht, Cert.Algebra.acc_19_blocks (fun r => LnatR2 V c q r * LnatR2 V c q r)]
    unfold Cert.Spec.colSumSq
    refine Finset.sum_congr rfl fun i _ => ?_
    unfold LnatR2; rw [dif_pos i.isLt]

-- A 1 × 128 row is its values at (0, q).
theorem row_ext {f g : S1x128.Idx → EReal} (h : ∀ q : Fin 128, f (ix2 0 q) = g (ix2 0 q)) : f = g := funext fun j => by
  obtain ⟨u, q, rfl⟩ : ∃ (u : Fin 1) (q : Fin 128), j = ix2 u q := ⟨j 0, j 1, eq_ix2 j⟩
  obtain rfl : u = 0 := Subsingleton.elim _ _
  exact h q

-- Among twenty points, the one whose number is 19 modulo 20 is point 19.
theorem lastR2 (t : Fin cfg2.N) (h : t.val % 20 = 19) : t.val = 19 := by
  have := t.isLt; have : cfg2.N = 20 := N_2; omega

abbrev tLastR2 : Fin cfg2.N := ⟨19, by rw [show cfg2.N = 20 from N_2]; decide⟩

theorem flushedR2_4_eq (c : Dev nD) (t : Fin cfg2.N) (hf : (cfg2.win 4).flush t = true) :
    (Reg.dat2 (F := Ideal) V c).flushed 4 t
      = ((cfg2.win 4).blk t).view.read (Elt Ideal) (Cert.Spec.colSum (LR2 V c)) := by
  have h19 := lastR2 t ((flush2_4 t).mp hf)
  show (cfg2.win 4).cut (grid2.coords t) (rows2 V c (t.val + 1) t.isLt).1 = _
  rw [show (rows2 V c (t.val + 1) t.isLt).1 = Cert.Spec.colSum (LR2 V c) from row_ext fun q => (rowsR2_last V c q t h19).1]
  have hz' : (fun a => win2_4.index t a * main_v47_1.ty.shape.size a) = fun _ => 0 :=
    funext fun a => by rw [(idx_factsR2 t).2.2.2.2.2.2.1 a, Nat.zero_mul]
  exact (Memref.read_access_unit_zero (Elt Ideal) main_v47_1 hz'
    (fun a => by rw [congrFun hz' a]; exact Nat.le_of_eq (Nat.zero_add _)) (Cert.Spec.colSum (LR2 V c))).symm

theorem flushedR2_5_eq (c : Dev nD) (t : Fin cfg2.N) (hf : (cfg2.win 5).flush t = true) :
    (Reg.dat2 (F := Ideal) V c).flushed 5 t
      = ((cfg2.win 5).blk t).view.read (Elt Ideal) (Cert.Spec.colSumSq (LR2 V c)) := by
  have h19 := lastR2 t ((flush2_5 t).mp hf)
  show (cfg2.win 5).cut (grid2.coords t) (rows2 V c (t.val + 1) t.isLt).2 = _
  rw [show (rows2 V c (t.val + 1) t.isLt).2 = Cert.Spec.colSumSq (LR2 V c) from row_ext fun q => (rowsR2_last V c q t h19).2]
  have hz' : (fun a => win2_5.index t a * main_v47_2.ty.shape.size a) = fun _ => 0 :=
    funext fun a => by rw [(idx_factsR2 t).2.2.2.2.2.2.2 a, Nat.zero_mul]
  exact (Memref.read_access_unit_zero (Elt Ideal) main_v47_2 hz'
    (fun a => by rw [congrFun hz' a]; exact Nat.le_of_eq (Nat.zero_add _)) (Cert.Spec.colSumSq (LR2 V c))).symm

theorem final2_4 (c : Dev nD) : (Reg.dat2 (F := Ideal) V c).arrAt 4 cfg2.N
    = Cert.Spec.colSum (Cert.Spec.lin (R := 100000) (K := 64) (N := 128) (V c main_v44) (V c main_v45) (V c main_v46)) :=
  (dat2 V c).arrAt_eq_of_cover 4 _ (flushedR2_4_eq V c) fun i =>
    ⟨tLastR2, (flush2_4 tLastR2).mpr rfl, embR2_4 tLastR2 i ▸ ((cfg2.win 4).blk tLastR2).view.emb_mem_set i⟩

theorem final2_5 (c : Dev nD) : (Reg.dat2 (F := Ideal) V c).arrAt 5 cfg2.N
    = Cert.Spec.colSumSq (Cert.Spec.lin (R := 100000) (K := 64) (N := 128) (V c main_v44) (V c main_v45) (V c main_v46)) :=
  (dat2 V c).arrAt_eq_of_cover 5 _ (flushedR2_5_eq V c) fun i =>
    ⟨tLastR2, (flush2_5 tLastR2).mpr rfl, embR2_5 tLastR2 i ▸ ((cfg2.win 5).blk tLastR2).view.emb_mem_set i⟩

end Cert.KernelIdeal.Val

end
-- ==== Proof.ValR3.lean ====
import proofs.«117495_j42150809043597_1_alg».proof.Proof.RegR3
import proofs.«117495_j42150809043597_1_alg».proof.Proof.Spec
import proofs.«117495_j42150809043597_1_alg».proof.Proof.Algebra
import proofs.«117495_j42150809043597_1_alg».proof.Proof.LibPlainDot
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)

theorem dot3_eq : dot_S5000x128_S128x64_S5000x64_1_0_0_1_n_n = DotDims.plain 5000 128 64 := rfl

theorem bcast_row3 (v : Vec Ideal S1x128 .f32) (p : Fin 5000) (k : Fin 128) :
    broadcastTo S5000x128 v broadcasts_S1x128_S5000x128 (ix2 p k) = v (ix2 0 k) :=
  broadcastTo_apply v _ (ix2 p k) (ix2 0 k) (fun a => by match a with | ⟨0, _⟩ => rfl | ⟨1, _⟩ => rfl)

theorem bcast_bias3 (v : Vec Ideal S1x64 .f32) (p : Fin 5000) (q : Fin 64) :
    broadcastTo S5000x64 v broadcasts_S1x64_S5000x64 (ix2 p q) = v (ix2 0 q) :=
  broadcastTo_apply v _ (ix2 p q) (ix2 0 q) (fun a => by match a with | ⟨0, _⟩ => rfl | ⟨1, _⟩ => rfl)

-- The output block at (p, q): the rectified scaled and shifted row p against column q of the weights, plus the bias at q.
theorem pay4R3_apply (a : Vec Ideal S5000x128 .f32) (sc sh : Vec Ideal S1x128 .f32) (w : Vec Ideal S128x64 .f32)
    (b : Vec Ideal S1x64 .f32) (p : Fin 5000) (q : Fin 64) :
    k3_pay4 a sc sh w b (ix2 p q)
      = (∑ k : Fin 128, max (a (ix2 p k) * sc (ix2 0 k) + sh (ix2 0 k)) 0 * w (ix2 k q)) + b (ix2 0 q) := by
  unfold k3_pay4
  rw [addf_apply, dot3_eq]
  simp only [matmul]
  rw [Cert.LibPlainDot.matmul_zero_apply]
  refine congrArg₂ (· + ·) (Finset.sum_congr rfl fun k _ => ?_) ?_
  · show max (shapeCast S5000x128 a shapeCasts_S5000x128_S5000x128 (ix2 p k)
          * broadcastTo S5000x128 (shapeCast S1x128 sc shapeCasts_S1x128_S1x128) broadcasts_S1x128_S5000x128 (ix2 p k)
          + broadcastTo S5000x128 (shapeCast S1x128 sh shapeCasts_S1x128_S1x128) broadcasts_S1x128_S5000x128 (ix2 p k))
        (Ideal.ofBits .f32 0x00000000#32) * shapeCast S128x64 w shapeCasts_S128x64_S128x64 (ix2 k q) = _
    rw [bcast_row3, bcast_row3, shapeCast_self, shapeCast_self, shapeCast_self, shapeCast_self, Ideal.ofBits_zero_f32]
  · rw [bcast_bias3, shapeCast_self]

theorem colsum3_apply (src : FVec Ideal S5000x64 .f32) (hφ : FKind.Formats .f32)
    (hacc : (0x00000000#32 : BitVec 32) = 0x00000000#32) (q : Fin 64) :
    multiReduction (F := Ideal) .add [0] S64 src 0x00000000#32 reduces_S5000x64_S64 hφ hacc (ix1 q)
      = ∑ p : Fin 5000, src (ix2 p q) := by
  refine (Ideal.multiReduction_add_single src 0x00000000#32 reduces_S5000x64_S64 hφ hacc (ix1 q)).trans ?_
  exact Finset.sum_congr rfl fun p _ => congrArg src (funext fun a => match a with | ⟨0, _⟩ => rfl | ⟨1, _⟩ => rfl)

-- A carried row after a point: what it held plus the block's column sums (of the values; of their squares).
theorem pay5R3_apply (a : Vec Ideal S5000x128 .f32) (sc sh : Vec Ideal S1x128 .f32) (w : Vec Ideal S128x64 .f32)
    (b : Vec Ideal S1x64 .f32) (s0 : Vec Ideal S1x64 .f32) (q : Fin 64) :
    k3_pay5 a sc sh w b s0 (ix2 0 q) = s0 (ix2 0 q) + ∑ p : Fin 5000, k3_pay4 a sc sh w b (ix2 p q) := by
  unfold k3_pay5
  refine (congrFun (shapeCast_self _ shapeCasts_S1x64_S1x64) (ix2 0 q)).trans ?_
  rw [addf_apply]
  exact congrArg (s0 (ix2 0 q) + ·) ((shapeCast_a_1a_apply _ shapeCasts_S64_S1x64 0 q).trans (colsum3_apply _ _ _ q))

theorem pay1R3_apply (lin : FVec Ideal S5000x64 .f32) (s1 : Vec Ideal S1x64 .f32) (q : Fin 64) :
    k3_pay1 lin s1 (ix2 0 q) = s1 (ix2 0 q) + ∑ p : Fin 5000, lin (ix2 p q) * lin (ix2 p q) := by
  unfold k3_pay1
  refine (congrFun (shapeCast_self _ shapeCasts_S1x64_S1x64) (ix2 0 q)).trans ?_
  rw [addf_apply]
  exact congrArg (s1 (ix2 0 q) + ·) ((shapeCast_a_1a_apply _ shapeCasts_S64_S1x64 0 q).trans (colsum3_apply _ _ _ q))

theorem pay2R3_apply (j : S1x64.Idx) : (k3_pay2 (F := Ideal)) j = 0 := by
  unfold k3_pay2
  exact (congrFun (shapeCast_self _ shapeCasts_S1x64_S1x64) j).trans Ideal.ofBits_zero_f32

theorem pay3R3_apply (j : S1x64.Idx) : (k3_pay3 (F := Ideal)) j = 0 := by
  unfold k3_pay3
  exact (congrFun (shapeCast_self _ shapeCasts_S1x64_S1x64) j).trans Ideal.ofBits_zero_f32

theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

variable (V : (c : Dev nD) → (b : Ref sig .tc) → Buf (Elt Ideal) ((c : Thread nD τ).loc b))

abbrev L3 (c : Dev nD) : S100000x64.Idx → EReal :=
  Cert.Spec.lin (R := 100000) (K := 128) (N := 64)
    (Cert.Spec.bn (R := 100000) (N := 128) (V c main_v47_0) (V c main_v58) (V c main_v61)) (V c main_v62) (V c main_v63)

theorem iblk3_0_eq (c : Dev nD) (t : Fin cfg3.N) (y : S5000x128.Idx) (i : S100000x128.Idx)
    (h0 : (i 0).val = t.val * 5000 + (y 0).val) (h1 : (i 1).val = (y 1).val) :
    iblk3 V c 0 t y = V c main_v47_0 i := by
  obtain ⟨x0, x1, -⟩ := idx_facts3 t
  show V c main_v47_0 (((cfg3.win 0).blk t).view.emb y) = V c main_v47_0 i
  refine congrArg (V c main_v47_0) (funext fun a => Fin.ext ?_)
  match a with
  | ⟨0, _⟩ => show win3_0.index t (0 : Fin 2) * 5000 + 1 * (y 0).val = (i 0).val; omega
  | ⟨1, _⟩ => show win3_0.index t (1 : Fin 2) * 128 + 1 * (y 1).val = (i 1).val; omega

-- The scale's, the shift's, the weights' and the bias's blocks at every point are the whole arrays.
theorem iblk3_whole (c : Dev nD) (t : Fin cfg3.N) : iblk3 V c 1 t = V c main_v58 ∧ iblk3 V c 2 t = V c main_v61
    ∧ iblk3 V c 3 t = V c main_v62 ∧ iblk3 V c 4 t = V c main_v63 := by
  obtain ⟨-, -, a0, a1, b0, b1, c0, c1, d0, d1, -⟩ := idx_facts3 t
  refine ⟨funext fun y => ?_, funext fun y => ?_, funext fun y => ?_, funext fun y => ?_⟩
  · refine congrArg (V c main_v58) (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  · refine congrArg (V c main_v61) (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · refine congrArg (V c main_v62) (funext fun a => Fin.ext ?_)
    match a with
    | ⟨0, _⟩ => show win3_3.index t (0 : Fin 2) * 128 + 1 * (y 0).val = (y 0).val; omega
    | ⟨1, _⟩ => show win3_3.index t (1 : Fin 2) * 64 + 1 * (y 1).val = (y 1).val; omega
  · refine congrArg (V c main_v63) (funext fun a => Fin.ext ?_)
    match a with
    | ⟨0, _⟩ => show win3_4.index t (0 : Fin 2) * 1 + 1 * (y 0).val = (y 0).val; omega
    | ⟨1, _⟩ => show win3_4.index t (1 : Fin 2) * 64 + 1 * (y 1).val = (y 1).val; omega

-- The output block of point t at (p, q) is the layer of the arrays the region reads, at row t·5000 + p.
theorem pay4R3_at (c : Dev nD) (t : Fin cfg3.N) (j : S5000x64.Idx) (i : S100000x64.Idx)
    (hi0 : (i 0).val = t.val * 5000 + (j 0).val) (hi1 : (i 1).val = (j 1).val) :
    k3_pay4 (iblk3 V c 0 t) (iblk3 V c 1 t) (iblk3 V c 2 t) (iblk3 V c 3 t) (iblk3 V c 4 t) j = L3 V c i := by
  obtain ⟨e1, e2, e3, e4⟩ := iblk3_whole V c t
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  obtain rfl : Q = q := Fin.ext hi1
  have s0 : ∀ k : Fin 128, iblk3 V c 0 t (ix2 p k) = V c main_v47_0 (ix2 P k) := fun k => iblk3_0_eq V c t (ix2 p k) (ix2 P k) hi0 rfl
  rw [pay4R3_apply]
  unfold L3 Cert.Spec.lin Cert.Spec.bn
  simp only [ix2_0, ix2_1, s0, e1, e2, e3, e4]

theorem outs3_fst (c : Dev nD) (t : Fin cfg3.N) :
    (outsAt3 V c t.val t.isLt).1 = k3_pay4 (iblk3 V c 0 t) (iblk3 V c 1 t) (iblk3 V c 2 t) (iblk3 V c 3 t) (iblk3 V c 4 t) := by
  obtain ⟨n, hn⟩ := t
  cases n <;> rfl

theorem flushed3_5_eq (c : Dev nD) (t : Fin cfg3.N) :
    (Reg.dat3 (F := Ideal) V c).flushed 5 t = ((cfg3.win 5).blk t).view.read (Elt Ideal) (L3 V c) := by
  show (cfg3.win 5).cut (grid3.coords t) ((dat3 V c).after 5 t) = _
  rw [after3_5, outs3_fst]
  obtain ⟨-, -, -, -, -, -, -, -, -, -, x0, x1, -⟩ := idx_facts3 t
  funext j
  show k3_pay4 (iblk3 V c 0 t) (iblk3 V c 1 t) (iblk3 V c 2 t) (iblk3 V c 3 t) (iblk3 V c 4 t) j
    = L3 V c (((cfg3.win 5).blk t).view.emb j)
  refine pay4R3_at V c t j (((cfg3.win 5).blk t).view.emb j) ?_ ?_
  · show win3_5.index t (0 : Fin 2) * 5000 + 1 * (j 0).val = t.val * 5000 + (j 0).val; omega
  · show win3_5.index t (1 : Fin 2) * 64 + 1 * (j 1).val = (j 1).val; omega

-- Every index of the large array is in the block of the point its row divided by 5000 names.
theorem cover3_5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, -, -, x0, x1, -⟩ := idx_facts3 t
  refine ⟨t, flush3_5 t, ?_⟩
  show i ∈ ((View.whole main_v64_0).slice (win3_5.rect t)).set
  rw [View.set_slice_whole, Rect.mem_set_unit]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 64 ≤ (i 1).val ∧ (i 1).val < win3_5.index t (1 : Fin 2) * 64 + 64
    omega

theorem final3_5 (c : Dev nD) : (Reg.dat3 (F := Ideal) V c).arrAt 5 cfg3.N
    = Cert.Spec.lin (R := 100000) (K := 128) (N := 64)
        (Cert.Spec.bn (R := 100000) (N := 128) (V c main_v47_0) (V c main_v58) (V c main_v61)) (V c main_v62) (V c main_v63) :=
  (dat3 V c).arrAt_eq_of_cover 5 _ (fun t _ => flushed3_5_eq V c t) cover3_5

-- The whole-array function by natural row number (zero past the last row, which no block reaches).
def Lnat3 (c : Dev nD) (q : Fin 64) (r : ℕ) : EReal :=
  if h : r < 100000 then L3 V c (ix2 ⟨r, h⟩ q) else 0

theorem Lnat3_at (c : Dev nD) (q : Fin 64) (t : Fin cfg3.N) (p : Fin 5000) :
    k3_pay4 (iblk3 V c 0 t) (iblk3 V c 1 t) (iblk3 V c 2 t) (iblk3 V c 3 t) (iblk3 V c 4 t) (ix2 p q)
      = Lnat3 V c q (5000 * t.val + p.val) := by
  have hN : cfg3.N = 20 := N_3
  have ht : t.val < cfg3.N := t.isLt
  have hp : p.val < 5000 := p.isLt
  have hr : 5000 * t.val + p.val < 100000 := by omega
  unfold Lnat3
  rw [dif_pos hr]
  refine pay4R3_at V c t (ix2 p q) (ix2 ⟨5000 * t.val + p.val, hr⟩ q) ?_ rfl
  show 5000 * t.val + p.val = t.val * 5000 + p.val
  omega

-- After point n the carried rows hold, at column q, the running sums over the points of the blocks' column sums (of the values; of their squares).
theorem rows3_eq (c : Dev nD) (q : Fin 64) : ∀ (n : ℕ) (h : n < cfg3.N),
    (outsAt3 V c n h).2.2.2.1 (ix2 0 q) = Cert.Algebra.acc (fun t => ∑ p : Fin 5000, Lnat3 V c q (5000 * t + p.val)) n
      ∧ (outsAt3 V c n h).2.2.2.2 (ix2 0 q)
        = Cert.Algebra.acc (fun t => ∑ p : Fin 5000, Lnat3 V c q (5000 * t + p.val) * Lnat3 V c q (5000 * t + p.val)) n
  | 0, h => by
    show k3_pay5 _ _ _ _ _ k3_pay2 _ = _ ∧ k3_pay1 _ k3_pay3 _ = _
    rw [pay5R3_apply, pay1R3_apply, pay2R3_apply, pay3R3_apply, Cert.Algebra.acc_zero, Cert.Algebra.acc_zero]
    exact ⟨congrArg (0 + ·) (Finset.sum_congr rfl fun p _ => Lnat3_at V c q ⟨0, h⟩ p),
      congrArg (0 + ·) (Finset.sum_congr rfl fun p _ => by rw [Lnat3_at V c q ⟨0, h⟩ p])⟩
  | n + 1, h => by
    obtain ⟨e0, e1⟩ := rows3_eq c q n (Nat.lt_of_succ_lt h)
    show k3_pay5 _ _ _ _ _ (outsAt3 V c n _).2.2.2.1 _ = _ ∧ k3_pay1 _ (outsAt3 V c n _).2.2.2.2 _ = _
    rw [pay5R3_apply, pay1R3_apply, e0, e1, Cert.Algebra.acc_succ, Cert.Algebra.acc_succ]
    exact ⟨congrArg (_ + ·) (Finset.sum_congr rfl fun p _ => Lnat3_at V c q ⟨n + 1, h⟩ p),
      congrArg (_ + ·) (Finset.sum_congr rfl fun p _ => by rw [Lnat3_at V c q ⟨n + 1, h⟩ p])⟩

-- At the last point the running sums are the column sums, and the column sums of squares, over all rows.
theorem small3_last (c : Dev nD) (q : Fin 64) (t : Fin cfg3.N) (h19 : t.val = 19) :
    (outsAt3 V c t.val t.isLt).2.1 (ix2 0 q) = Cert.Spec.colSum (L3 V c) (ix2 0 q)
      ∧ (outsAt3 V c t.val t.isLt).2.2.1 (ix2 0 q) = Cert.Spec.colSumSq (L3 V c) (ix2 0 q) := by
  obtain ⟨n, hn⟩ := t
  dsimp only at h19
  subst h19
  obtain ⟨e0, e1⟩ := rows3_eq V c q 19 hn
  refine ⟨Eq.trans (b := (outsAt3 V c 19 hn).2.2.2.1 (ix2 0 q)) rfl (e0.trans ?_),
    Eq.trans (b := (outsAt3 V c 19 hn).2.2.2.2 (ix2 0 q)) rfl (e1.trans ?_)⟩
  · rw [Cert.Algebra.acc_19_blocks (Lnat3 V c q)]
    unfold Cert.Spec.colSum
    exact Finset.sum_congr rfl fun i _ => by unfold Lnat3; rw [dif_pos i.isLt]
  · rw [Cert.Algebra.acc_19_blocks (fun r => Lnat3 V c q r * Lnat3 V c q r)]
    unfold Cert.Spec.colSumSq
    exact Finset.sum_congr rfl fun i _ => by unfold Lnat3; rw [dif_pos i.isLt]

theorem read_blk3_6 (t : Fin cfg3.N) (G : S1x64.Idx → EReal) (j : ((cfg3.win 6).xblock (cfg3.grid.coords t)).Idx) :
    ((cfg3.win 6).blk t).view.read (Elt Ideal) G j = G (((cfg3.win 6).blk t).view.emb j) := rfl
theorem read_blk3_7 (t : Fin cfg3.N) (G : S1x64.Idx → EReal) (j : ((cfg3.win 7).xblock (cfg3.grid.coords t)).Idx) :
    ((cfg3.win 7).blk t).view.read (Elt Ideal) G j = G (((cfg3.win 7).blk t).view.emb j) := rfl

theorem flushed3_6_eq (c : Dev nD) (t : Fin cfg3.N) (hf : (cfg3.win 6).flush t = true) :
    (Reg.dat3 (F := Ideal) V c).flushed 6 t
      = ((cfg3.win 6).blk t).view.read (Elt Ideal) (Cert.Spec.colSum (L3 V c)) := by
  have hN : cfg3.N = 20 := N_3
  have h19 : t.val = 19 := by have := (flush3_6 t).mp hf; have := t.isLt; omega
  show (cfg3.win 6).cut (grid3.coords t) ((dat3 V c).after 6 t) = _
  rw [after3_6]
  obtain ⟨-, -, -, -, -, -, -, -, -, -, -, -, x0, x1, -⟩ := idx_facts3 t
  funext j
  refine Eq.trans ?_ (read_blk3_6 t (Cert.Spec.colSum (L3 V c)) j).symm
  show (outsAt3 V c t.val t.isLt).2.1 j = _
  obtain ⟨u, q, rfl⟩ : ∃ (u : Fin 1) (q : Fin 64), j = ix2 u q := ⟨j 0, j 1, eq_ix2 j⟩
  obtain rfl : u = 0 := Subsingleton.elim _ _
  rw [(small3_last V c q t h19).1]
  unfold Cert.Spec.colSum
  refine Finset.sum_congr rfl fun i _ => congrArg (L3 V c) (congrArg (ix2 i) (Fin.ext ?_))
  show q.val = win3_6.index t (1 : Fin 2) * 64 + 1 * q.val
  omega

theorem flushed3_7_eq (c : Dev nD) (t : Fin cfg3.N) (hf : (cfg3.win 7).flush t = true) :
    (Reg.dat3 (F := Ideal) V c).flushed 7 t
      = ((cfg3.win 7).blk t).view.read (Elt Ideal) (Cert.Spec.colSumSq (L3 V c)) := by
  have hN : cfg3.N = 20 := N_3
  have h19 : t.val = 19 := by have := (flush3_7 t).mp hf; have := t.isLt; omega
  show (cfg3.win 7).cut (grid3.coords t) ((dat3 V c).after 7 t) = _
  rw [after3_7]
  obtain ⟨-, -, -, -, -, -, -, -, -, -, -, -, -, -, x0, x1⟩ := idx_facts3 t
  funext j
  refine Eq.trans ?_ (read_blk3_7 t (Cert.Spec.colSumSq (L3 V c)) j).symm
  show (outsAt3 V c t.val t.isLt).2.2.1 j = _
  obtain ⟨u, q, rfl⟩ : ∃ (u : Fin 1) (q : Fin 64), j = ix2 u q := ⟨j 0, j 1, eq_ix2 j⟩
  obtain rfl : u = 0 := Subsingleton.elim _ _
  rw [(small3_last V c q t h19).2]
  unfold Cert.Spec.colSumSq
  refine Finset.sum_congr rfl fun i _ => ?_
  have e : L3 V c (ix2 i q) = L3 V c (ix2 i ((((cfg3.win 7).blk t).view.emb (ix2 (0 : Fin 1) q)) 1)) :=
    congrArg (L3 V c) (congrArg (ix2 i) (Fin.ext (by
      show q.val = win3_7.index t (1 : Fin 2) * 64 + 1 * q.val
      omega)))
  exact congrArg₂ (· * ·) e e

abbrev tLast3 : Fin cfg3.N := ⟨19, by rw [show cfg3.N = 20 from N_3]; decide⟩

-- Every index of a small output row is in the last point's block.
theorem cover3_6 (i : S1x64.Idx) :
    ∃ t : Fin cfg3.N, (cfg3.win 6).flush t = true ∧ i ∈ ((cfg3.win 6).blk t).view.set := by
  have hi0 : (i 0).val < 1 := (i 0).isLt
  have hi1 : (i 1).val < 64 := (i 1).isLt
  obtain ⟨-, -, -, -, -, -, -, -, -, -, -, -, x0, x1, -⟩ := idx_facts3 tLast3
  refine ⟨tLast3, (flush3_6 tLast3).mpr rfl, ?_⟩
  show i ∈ ((View.whole main_v64_1).slice (win3_6.rect tLast3)).set
  rw [View.set_slice_whole, Rect.mem_set_unit]
  intro a
  match a with
  | ⟨0, _⟩ =>
    show win3_6.index tLast3 (0 : Fin 2) * 1 ≤ (i 0).val ∧ (i 0).val < win3_6.index tLast3 (0 : Fin 2) * 1 + 1
    omega
  | ⟨1, _⟩ =>
    show win3_6.index tLast3 (1 : Fin 2) * 64 ≤ (i 1).val ∧ (i 1).val < win3_6.index tLast3 (1 : Fin 2) * 64 + 64
    omega

theorem cover3_7 (i : S1x64.Idx) :
    ∃ t : Fin cfg3.N, (cfg3.win 7).flush t = true ∧ i ∈ ((cfg3.win 7).blk t).view.set := by
  have hi0 : (i 0).val < 1 := (i 0).isLt
  have hi1 : (i 1).val < 64 := (i 1).isLt
  obtain ⟨-, -, -, -, -, -, -, -, -, -, -, -, -, -, x0, x1⟩ := idx_facts3 tLast3
  refine ⟨tLast3, (flush3_7 tLast3).mpr rfl, ?_⟩
  show i ∈ ((View.whole main_v64_2).slice (win3_7.rect tLast3)).set
  rw [View.set_slice_whole, Rect.mem_set_unit]
  intro a
  match a with
  | ⟨0, _⟩ =>
    show win3_7.index tLast3 (0 : Fin 2) * 1 ≤ (i 0).val ∧ (i 0).val < win3_7.index tLast3 (0 : Fin 2) * 1 + 1
    omega
  | ⟨1, _⟩ =>
    show win3_7.index tLast3 (1 : Fin 2) * 64 ≤ (i 1).val ∧ (i 1).val < win3_7.index tLast3 (1 : Fin 2) * 64 + 64
    omega

theorem final3_6 (c : Dev nD) : (Reg.dat3 (F := Ideal) V c).arrAt 6 cfg3.N
    = Cert.Spec.colSum (Cert.Spec.lin (R := 100000) (K := 128) (N := 64)
        (Cert.Spec.bn (R := 100000) (N := 128) (V c main_v47_0) (V c main_v58) (V c main_v61)) (V c main_v62) (V c main_v63)) :=
  (dat3 V c).arrAt_eq_of_cover 6 _ (flushed3_6_eq V c) cover3_6

theorem final3_7 (c : Dev nD) : (Reg.dat3 (F := Ideal) V c).arrAt 7 cfg3.N
    = Cert.Spec.colSumSq (Cert.Spec.lin (R := 100000) (K := 128) (N := 64)
        (Cert.Spec.bn (R := 100000) (N := 128) (V c main_v47_0) (V c main_v58) (V c main_v61)) (V c main_v62) (V c main_v63)) :=
  (dat3 V c).arrAt_eq_of_cover 7 _ (flushed3_7_eq V c) cover3_7

end Cert.KernelIdeal.Val

end
-- ==== Proof.ValA4.lean ====
import proofs.«117495_j42150809043597_1_alg».proof.Proof.RegA4
import proofs.«117495_j42150809043597_1_alg».proof.Proof.LibSage
import proofs.«117495_j42150809043597_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem bcast_row4 (v : Vec Ideal S1x64 .f32) (p : Fin 5000) (k : Fin 64) :
    broadcastTo S5000x64 v broadcasts_S1x64_S5000x64 (ix2 p k) = v (ix2 0 k) :=
  broadcastTo_apply v _ (ix2 p k) (ix2 0 k) (fun a => by match a with | ⟨0, _⟩ => rfl | ⟨1, _⟩ => rfl)

theorem bcast_one4 (v : Vec Ideal S1x1 .f32) (p : Fin 5000) (q : Fin 1) :
    broadcastTo S5000x1 v broadcasts_S1x1_S5000x1 (ix2 p q) = v (ix2 0 q) :=
  broadcastTo_apply v _ (ix2 p q) (ix2 0 q) (fun a => by
    match a with
    | ⟨0, _⟩ => rfl
    | ⟨1, _⟩ => show q.val = 0; omega)

-- The product into the zero accumulator is a sum over the 64 columns; the scale, shift and bias rows are read at row 0.
theorem payA4_apply (v0 : Vec Ideal S5000x64 .f32) (v2 v6 : Vec Ideal S1x64 .f32) (v13 : Vec Ideal S64x1 .f32)
    (v17 : Vec Ideal S1x1 .f32) (p : Fin 5000) (q : Fin 1) :
    k4_pay1 v0 v2 v6 v13 v17 (ix2 p q)
      = (∑ k : Fin 64, max (v0 (ix2 p k) * v2 (ix2 0 k) + v6 (ix2 0 k)) 0 * v13 (ix2 k q)) + v17 (ix2 0 q) := by
  unfold k4_pay1
  rw [addf_apply]
  rw [show dot_S5000x64_S64x1_S5000x1_1_0_0_1_n_n = DotDims.plain 5000 64 1 from rfl]
  simp only [matmul]
  rw [Cert.LibPlainDot.matmul_zero_apply]
  refine congrArg₂ (· + ·) (Finset.sum_congr rfl fun k _ => ?_) ?_
  · show max (shapeCast S5000x64 v0 shapeCasts_S5000x64_S5000x64 (ix2 p k)
          * broadcastTo S5000x64 (shapeCast S1x64 v2 shapeCasts_S1x64_S1x64) broadcasts_S1x64_S5000x64 (ix2 p k)
          + broadcastTo S5000x64 (shapeCast S1x64 v6 shapeCasts_S1x64_S1x64) broadcasts_S1x64_S5000x64 (ix2 p k))
        (Ideal.ofBits .f32 0x00000000#32) * shapeCast S64x1 v13 shapeCasts_S64x1_S64x1 (ix2 k q) = _
    rw [bcast_row4, bcast_row4, shapeCast_self, shapeCast_self, shapeCast_self, shapeCast_self, Ideal.ofBits_zero_f32]
  · rw [bcast_one4, shapeCast_self]

abbrev G4 (c : Dev nD) : (⟨2, ![100000, 1]⟩ : Shape).Idx → EReal :=
  Cert.Spec.lin (R := 100000) (K := 64) (N := 1) (Cert.Spec.bn (R := 100000) (N := 64) (V c main_v64_0) (V c main_v75) (V c main_v78)) (V c main_v79) (V c main_v80)

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

-- A block whose rows are rows of a whole array has, at each of its rows, the linear layer of the rectified normalisation of that array.
theorem point4 (x0 : Vec Ideal S5000x64 .f32) (x1 x2 : Vec Ideal S1x64 .f32) (x3 : Vec Ideal S64x1 .f32)
    (x4 : Vec Ideal S1x1 .f32) (A : (⟨2, ![100000, 64]⟩ : Shape).Idx → EReal) (y : S5000x1.Idx)
    (i : (⟨2, ![100000, 1]⟩ : Shape).Idx) (h0 : ∀ k : Fin 64, x0 (ix2 (y 0) k) = A (ix2 (i 0) k)) :
    k4_pay1 x0 x1 x2 x3 x4 y
      = Cert.Spec.lin (R := 100000) (K := 64) (N := 1) (Cert.Spec.bn (R := 100000) (N := 64) A x1 x2) x3 x4 i := by
  obtain ⟨p, q, rfl⟩ : ∃ (p : Fin 5000) (q : Fin 1), y = ix2 p q := ⟨y 0, y 1, eq_ix2 y⟩
  rw [payA4_apply]
  have hq : i 1 = q := Fin.ext (by have h1 : (i 1).val < 1 := (i 1).isLt; have h2 := q.isLt; omega)
  unfold Cert.Spec.lin Cert.Spec.bn
  refine congrArg₂ (· + ·) (Finset.sum_congr rfl fun k _ => ?_) (congrArg (fun r => x4 (ix2 0 r)) hq.symm)
  have h0' : x0 (ix2 p k) = A (ix2 (i 0) k) := h0 k
  show max (x0 (ix2 p k) * x1 (ix2 0 k) + x2 (ix2 0 k)) 0 * x3 (ix2 k q)
      = max (A (ix2 (i 0) k) * x1 (ix2 0 k) + x2 (ix2 0 k)) 0 * x3 (ix2 k (i 1))
  rw [h0', hq]

theorem iblk4_0_apply (c : Dev nD) (t : Fin cfg4.N) (p : Fin 5000) (k : Fin 64) (r : Fin 100000)
    (hr : r.val = 5000 * t.val + p.val) :
    (Reg.iblk4 (F := Ideal) V c 0 t : Vec Ideal S5000x64 .f32) (ix2 p k)
      = (V c main_v64_0 : (⟨2, ![100000, 64]⟩ : Shape).Idx → EReal) (ix2 r k) := by
  obtain ⟨e0, e1, -⟩ := idx_facts4 t
  exact congrArg (V c main_v64_0) (Shape.idx_ext₂ (x := ((cfg4.win 0).blk t).view.emb (ix2 p k))
    (by show win4_0.index t (0 : Fin 2) * 5000 + 1 * p.val = r.val; omega)
    (by show win4_0.index t (1 : Fin 2) * 64 + 1 * k.val = k.val; omega))

-- The four parameter blocks sit at block (0, 0) at every point: they are their whole arrays.
theorem iblk4_1 (c : Dev nD) (t : Fin cfg4.N) : (Reg.iblk4 (F := Ideal) V c 1 t : Vec Ideal S1x64 .f32) = V c main_v75 := by
  obtain ⟨-, -, e0, e1, -⟩ := idx_facts4 t
  exact funext fun y => congrArg (V c main_v75) (Shape.idx_ext₂ (x := ((cfg4.win 1).blk t).view.emb y)
    (by show win4_1.index t (0 : Fin 2) * 1 + 1 * (y 0).val = (y 0).val; omega)
    (by show win4_1.index t (1 : Fin 2) * 64 + 1 * (y 1).val = (y 1).val; omega))
theorem iblk4_2 (c : Dev nD) (t : Fin cfg4.N) : (Reg.iblk4 (F := Ideal) V c 2 t : Vec Ideal S1x64 .f32) = V c main_v78 := by
  obtain ⟨-, -, -, -, e0, e1, -⟩ := idx_facts4 t
  exact funext fun y => congrArg (V c main_v78) (Shape.idx_ext₂ (x := ((cfg4.win 2).blk t).view.emb y)
    (by show win4_2.index t (0 : Fin 2) * 1 + 1 * (y 0).val = (y 0).val; omega)
    (by show win4_2.index t (1 : Fin 2) * 64 + 1 * (y 1).val = (y 1).val; omega))
theorem iblk4_3 (c : Dev nD) (t : Fin cfg4.N) : (Reg.iblk4 (F := Ideal) V c 3 t : Vec Ideal S64x1 .f32) = V c main_v79 := by
  obtain ⟨-, -, -, -, -, -, e0, e1, -⟩ := idx_facts4 t
  exact funext fun y => congrArg (V c main_v79) (Shape.idx_ext₂ (x := ((cfg4.win 3).blk t).view.emb y)
    (by show win4_3.index t (0 : Fin 2) * 64 + 1 * (y 0).val = (y 0).val; omega)
    (by show win4_3.index t (1 : Fin 2) * 1 + 1 * (y 1).val = (y 1).val; omega))
theorem iblk4_4 (c : Dev nD) (t : Fin cfg4.N) : (Reg.iblk4 (F := Ideal) V c 4 t : Vec Ideal S1x1 .f32) = V c main_v80 := by
  obtain ⟨-, -, -, -, -, -, -, -, e0, e1, -⟩ := idx_facts4 t
  exact funext fun y => congrArg (V c main_v80) (Shape.idx_ext₂ (x := ((cfg4.win 4).blk t).view.emb y)
    (by show win4_4.index t (0 : Fin 2) * 1 + 1 * (y 0).val = (y 0).val; omega)
    (by show win4_4.index t (1 : Fin 2) * 1 + 1 * (y 1).val = (y 1).val; omega))

theorem flushed4_eq (c : Dev nD) (t : Fin cfg4.N) :
    (Reg.dat4 (F := Ideal) V c).flushed 5 t = ((cfg4.win 5).blk t).view.read (Elt Ideal) (G4 V c) := by
  show (cfg4.win 5).cut (grid4.coords t) ((Reg.dat4 (F := Ideal) V c).after 5 t) = _
  rw [Reg.after4_5]
  unfold Reg.out4_5
  rw [View.canon_unit_zero LibSage.zero2]
  simp only [View.ld_unit_zero (S := S5000x64) LibSage.zero2, View.ld_unit_zero (S := S1x64) LibSage.zero2,
    View.ld_unit_zero (S := S64x1) LibSage.zero2, View.ld_unit_zero (S := S1x1) LibSage.zero2]
  funext j
  show k4_pay1 (Reg.iblk4 V c 0 t) (Reg.iblk4 V c 1 t) (Reg.iblk4 V c 2 t) (Reg.iblk4 V c 3 t) (Reg.iblk4 V c 4 t) j
      = G4 V c (((cfg4.win 5).blk t).view.emb j)
  rw [iblk4_1 V c t, iblk4_2 V c t, iblk4_3 V c t, iblk4_4 V c t]
  refine point4 (Reg.iblk4 V c 0 t) (V c main_v75) (V c main_v78) (V c main_v79) (V c main_v80) (V c main_v64_0) j _ (fun k => ?_)
  refine iblk4_0_apply V c t (j 0) k _ ?_
  obtain ⟨-, -, -, -, -, -, -, -, -, -, e0, e1⟩ := idx_facts4 t
  show win4_5.index t (0 : Fin 2) * 5000 + 1 * (j 0).val = 5000 * t.val + (j 0).val
  omega

-- Row r lies in the block of point r / 5000.
theorem cover4 (i : S100000x1.Idx) : ∃ t : Fin cfg4.N, (cfg4.win 5).flush t = true ∧ i ∈ ((cfg4.win 5).blk t).view.set := by
  have hi0 : (i 0).val < 100000 := (i 0).isLt
  have hi1 : (i 1).val < 1 := (i 1).isLt
  obtain ⟨t, ht⟩ : ∃ t : Fin cfg4.N, t.val = (i 0).val / 5000 :=
    ⟨⟨(i 0).val / 5000, by show (i 0).val / 5000 < grid4.N; rw [N_4]; omega⟩, rfl⟩
  obtain ⟨-, -, -, -, -, -, -, -, -, -, e0, e1⟩ := idx_facts4 t
  refine ⟨t, flush4_5 t, ?_⟩
  show i ∈ ((View.whole main_v81).slice (win4_5.rect t)).set
  rw [View.set_slice_whole, Rect.mem_set_unit]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 1 ≤ (i 1).val ∧ (i 1).val < win4_5.index t (1 : Fin 2) * 1 + 1; omega

theorem final4 (c : Dev nD) : (Reg.dat4 (F := Ideal) V c).arrAt 5 cfg4.N
    = Cert.Spec.lin (R := 100000) (K := 64) (N := 1) (Cert.Spec.bn (R := 100000) (N := 64) (V c main_v64_0) (V c main_v75) (V c main_v78)) (V c main_v79) (V c main_v80) :=
  (Reg.dat4 (F := Ideal) V c).arrAt_eq_of_cover 5 (G4 V c) (fun t _ => flushed4_eq V c t) (fun i => cover4 i)

end Cert.KernelIdeal.Val

end
-- ==== Proof.HostK.lean ====
import proofs.«117495_j42150809043597_1_alg».proof.Proof.Gen.KernelIdeal.Launch
import Idealize.ShloMosaic.Lib.StableHlo.Run
import Idealize.ShloMosaic.PureOps.Ideal

set_option maxRecDepth 16384

noncomputable section

namespace Cert.KernelIdeal.HostK

open Cert.KernelIdeal Cert.KernelIdeal.Gen
open Idealize.ShloMosaic Idealize.ShloMosaic.TcCoe

def src (ei : S2x1600000.Idx → BitVec 32) : S1600000.Idx → BitVec 32 :=
  shapeCast S1600000 (extractStridedSlice S1x1600000 ![0, 0] ei slices_S2x1600000_S1x1600000_0_0) shapeCasts_S1x1600000_S1600000

def tgt (ei : S2x1600000.Idx → BitVec 32) : S1600000.Idx → BitVec 32 :=
  shapeCast S1600000 (extractStridedSlice S1x1600000 ![1, 0] ei slices_S2x1600000_S1x1600000_1_0) shapeCasts_S1x1600000_S1600000

def wrap (s : S1600000.Idx → BitVec 32) : S1600000.Idx → BitVec 32 :=
  select (cmpi .slt s (broadcastInDim S1600000 ![] bcast_S_S1600000 (constantI S_ 32 0#32)))
    (addi s (broadcastInDim S1600000 ![] bcast_S_S1600000 (constantI S_ 32 100000#32))) s

def cnt (t : S1600000.Idx → BitVec 32) : S100000.Idx → EReal :=
  Host.scatterAdd (F := Ideal) (φ := .f32) scatter_S100000_S1600000x1_S1600000_n_0_0_1
    (broadcastInDim S100000 ![] bcast_S_S100000 (constant (F := Ideal) S_ .f32 0x00000000#32))
    (broadcastInDim S1600000x1 ![0] bcast_S1600000_S1600000x1_0 t)
    (broadcastInDim S1600000 ![] bcast_S_S1600000 (constant (F := Ideal) S_ .f32 0x3F800000#32))

def invCnt (t : S1600000.Idx → BitVec 32) : S100000x1.Idx → EReal :=
  broadcastInDim S100000x1 ![0] bcast_S100000_S100000x1_0
    (Host.divf (F := Ideal) (φ := .f32) (broadcastInDim S100000 ![] bcast_S_S100000 (constant (F := Ideal) S_ .f32 0x3F800000#32))
      (maximumf (F := Ideal) (φ := .f32) (cnt t) (broadcastInDim S100000 ![] bcast_S_S100000 (constant (F := Ideal) S_ .f32 0x3F800000#32))))

def agg32 (x : S100000x32.Idx → EReal) (s t : S1600000.Idx → BitVec 32) : S100000x32.Idx → EReal :=
  Host.scatterAdd (F := Ideal) (φ := .f32) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 t)
    (Host.gather gather_S100000x32_S1600000x1_S1600000x32_1_0_n_n_0_1_132 x (broadcastInDim S1600000x1 ![0] bcast_S1600000_S1600000x1_0 (wrap s)))

def agg64 (h : S100000x64.Idx → EReal) (s t : S1600000.Idx → BitVec 32) : S100000x64.Idx → EReal :=
  Host.scatterAdd (F := Ideal) (φ := .f32) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 t)
    (Host.gather gather_S100000x64_S1600000x1_S1600000x64_1_0_n_n_0_1_164 h (broadcastInDim S1600000x1 ![0] bcast_S1600000_S1600000x1_0 (wrap s)))

def mean32 (x : S100000x32.Idx → EReal) (s t : S1600000.Idx → BitVec 32) (ic : S100000x1.Idx → EReal) : S100000x32.Idx → EReal :=
  mulf (F := Ideal) (φ := .f32) (agg32 x s t) (broadcastInDim S100000x32 ![0, 1] bcast_S100000x1_S100000x32_0_1 ic)

def mean64 (h : S100000x64.Idx → EReal) (s t : S1600000.Idx → BitVec 32) (ic : S100000x1.Idx → EReal) : S100000x64.Idx → EReal :=
  mulf (F := Ideal) (φ := .f32) (agg64 h s t) (broadcastInDim S100000x64 ![0, 1] bcast_S100000x1_S100000x64_0_1 ic)

def meanOf {S : Shape} (hb : S_.BroadcastsInDim S (![] : Fin 0 → Fin S.rank)) (s : S.Idx → EReal) : S.Idx → EReal :=
  Host.divf (F := Ideal) (φ := .f32) s (broadcastInDim S ![] hb (constant (F := Ideal) S_ .f32 0x47C35000#32))

def scaleOf {S1 S : Shape} (hb : S_.BroadcastsInDim S (![] : Fin 0 → Fin S.rank)) (hc : S1.ShapeCasts S)
    (s ss : S.Idx → EReal) (γ : S1.Idx → EReal) : S.Idx → EReal :=
  mulf (F := Ideal) (φ := .f32) (shapeCast S γ hc)
    (Host.rsqrt (F := Ideal) (φ := .f32)
      (addf (F := Ideal) (φ := .f32)
        (subf (F := Ideal) (φ := .f32)
          (Host.divf (F := Ideal) (φ := .f32) ss (broadcastInDim S ![] hb (constant (F := Ideal) S_ .f32 0x47C35000#32)))
          (mulf (F := Ideal) (φ := .f32) (meanOf hb s) (meanOf hb s)))
        (broadcastInDim S ![] hb (constant (F := Ideal) S_ .f32 0x3727C5AC#32))))

def shiftOf {S1 S : Shape} (hb : S_.BroadcastsInDim S (![] : Fin 0 → Fin S.rank)) (hc : S1.ShapeCasts S)
    (s ss : S.Idx → EReal) (γ β : S1.Idx → EReal) : S.Idx → EReal :=
  subf (F := Ideal) (φ := .f32) (shapeCast S β hc) (mulf (F := Ideal) (φ := .f32) (meanOf hb s) (scaleOf hb hc s ss γ))

variable (W : Valuation τ sig (Elt Ideal))

theorem after0_v1 :
    (StableHlo.after hostOps0 W (Proc.devRef .tc main_v1) : S1600000.Idx → BitVec 32) = src (W (Proc.devRef .tc main_arg1)) := by
  after_results_simp <;> rfl

theorem after0_v3 :
    (StableHlo.after hostOps0 W (Proc.devRef .tc main_v3) : S1600000.Idx → BitVec 32) = tgt (W (Proc.devRef .tc main_arg1)) := by
  after_results_simp <;> rfl

theorem after0_v12 :
    (StableHlo.after hostOps0 W (Proc.devRef .tc main_v12) : S100000x1.Idx → EReal) = invCnt (tgt (W (Proc.devRef .tc main_arg1))) := by
  after_results_simp <;> rfl

theorem after0_v24 :
    (StableHlo.after hostOps0 W (Proc.devRef .tc main_v24) : S100000x32.Idx → EReal)
      = mean32 (W (Proc.devRef .tc main_arg0)) (src (W (Proc.devRef .tc main_arg1))) (tgt (W (Proc.devRef .tc main_arg1)))
          (invCnt (tgt (W (Proc.devRef .tc main_arg1)))) := by
  after_results_simp <;> rfl

theorem after0_v25 :
    (StableHlo.after hostOps0 W (Proc.devRef .tc main_v25) : S32x64.Idx → EReal)
      = transpose S32x64 [1, 0] (W (Proc.devRef .tc main_arg2) : S64x32.Idx → EReal) transposes_S64x32_S32x64_1_0 := by
  after_results_simp <;> rfl

theorem after0_v26 :
    (StableHlo.after hostOps0 W (Proc.devRef .tc main_v26) : S1x64.Idx → EReal)
      = shapeCast S1x64 (W (Proc.devRef .tc main_arg3) : S64.Idx → EReal) shapeCasts_S64_S1x64 := by
  after_results_simp <;> rfl

theorem after0_v27 :
    (StableHlo.after hostOps0 W (Proc.devRef .tc main_v27) : S32x64.Idx → EReal)
      = transpose S32x64 [1, 0] (W (Proc.devRef .tc main_arg4) : S64x32.Idx → EReal) transposes_S64x32_S32x64_1_0 := by
  after_results_simp <;> rfl

theorem after1_v40 :
    (StableHlo.after hostOps1 W (Proc.devRef .tc main_v40) : S100000x64.Idx → EReal)
      = mean64 (W (Proc.devRef .tc main_v28)) (W (Proc.devRef .tc main_v1)) (W (Proc.devRef .tc main_v3)) (W (Proc.devRef .tc main_v12)) := by
  after_results_simp <;> rfl

theorem after1_v41 :
    (StableHlo.after hostOps1 W (Proc.devRef .tc main_v41) : S64x64.Idx → EReal)
      = transpose S64x64 [1, 0] (W (Proc.devRef .tc main_arg5) : S64x64.Idx → EReal) transposes_S64x64_S64x64_1_0 := by
  after_results <;> rfl

theorem after1_v42 :
    (StableHlo.after hostOps1 W (Proc.devRef .tc main_v42) : S1x64.Idx → EReal)
      = shapeCast S1x64 (W (Proc.devRef .tc main_arg6) : S64.Idx → EReal) shapeCasts_S64_S1x64 := by
  after_results <;> rfl

theorem after1_v43 :
    (StableHlo.after hostOps1 W (Proc.devRef .tc main_v43) : S64x64.Idx → EReal)
      = transpose S64x64 [1, 0] (W (Proc.devRef .tc main_arg7) : S64x64.Idx → EReal) transposes_S64x64_S64x64_1_0 := by
  after_results <;> rfl

theorem after2_v45 :
    (StableHlo.after hostOps2 W (Proc.devRef .tc main_v45) : S64x128.Idx → EReal)
      = transpose S64x128 [1, 0] (W (Proc.devRef .tc main_arg8) : S128x64.Idx → EReal) transposes_S128x64_S64x128_1_0 := by
  after_results <;> rfl

theorem after2_v46 :
    (StableHlo.after hostOps2 W (Proc.devRef .tc main_v46) : S1x128.Idx → EReal)
      = shapeCast S1x128 (W (Proc.devRef .tc main_arg9) : S128.Idx → EReal) shapeCasts_S128_S1x128 := by
  after_results <;> rfl

theorem after3_v58 :
    (StableHlo.after hostOps3 W (Proc.devRef .tc main_v58) : S1x128.Idx → EReal)
      = scaleOf bcast_S_S1x128 shapeCasts_S128_S1x128 (W (Proc.devRef .tc main_v47_1)) (W (Proc.devRef .tc main_v47_2))
          (W (Proc.devRef .tc main_arg10)) := by
  after_results_simp <;> rfl

theorem after3_v61 :
    (StableHlo.after hostOps3 W (Proc.devRef .tc main_v61) : S1x128.Idx → EReal)
      = shiftOf bcast_S_S1x128 shapeCasts_S128_S1x128 (W (Proc.devRef .tc main_v47_1)) (W (Proc.devRef .tc main_v47_2))
          (W (Proc.devRef .tc main_arg10)) (W (Proc.devRef .tc main_arg11)) := by
  after_results_simp <;> rfl

theorem after3_v62 :
    (StableHlo.after hostOps3 W (Proc.devRef .tc main_v62) : S128x64.Idx → EReal)
      = transpose S128x64 [1, 0] (W (Proc.devRef .tc main_arg12) : S64x128.Idx → EReal) transposes_S64x128_S128x64_1_0 := by
  after_results <;> rfl

theorem after3_v63 :
    (StableHlo.after hostOps3 W (Proc.devRef .tc main_v63) : S1x64.Idx → EReal)
      = shapeCast S1x64 (W (Proc.devRef .tc main_arg13) : S64.Idx → EReal) shapeCasts_S64_S1x64 := by
  after_results <;> rfl

theorem after4_v75 :
    (StableHlo.after hostOps4 W (Proc.devRef .tc main_v75) : S1x64.Idx → EReal)
      = scaleOf bcast_S_S1x64 shapeCasts_S64_S1x64 (W (Proc.devRef .tc main_v64_1)) (W (Proc.devRef .tc main_v64_2))
          (W (Proc.devRef .tc main_arg14)) := by
  after_results_simp <;> rfl

theorem after4_v78 :
    (StableHlo.after hostOps4 W (Proc.devRef .tc main_v78) : S1x64.Idx → EReal)
      = shiftOf bcast_S_S1x64 shapeCasts_S64_S1x64 (W (Proc.devRef .tc main_v64_1)) (W (Proc.devRef .tc main_v64_2))
          (W (Proc.devRef .tc main_arg14)) (W (Proc.devRef .tc main_arg15)) := by
  after_results_simp <;> rfl

theorem after4_v79 :
    (StableHlo.after hostOps4 W (Proc.devRef .tc main_v79) : S64x1.Idx → EReal)
      = transpose S64x1 [1, 0] (W (Proc.devRef .tc main_arg16) : S1x64.Idx → EReal) transposes_S1x64_S64x1_1_0 := by
  after_results <;> rfl

theorem after4_v80 :
    (StableHlo.after hostOps4 W (Proc.devRef .tc main_v80) : S1x1.Idx → EReal)
      = shapeCast S1x1 (W (Proc.devRef .tc main_arg17) : S1.Idx → EReal) shapeCasts_S1_S1x1 := by
  after_results <;> rfl

theorem after5_v82 :
    (StableHlo.after hostOps5 W (Proc.devRef .tc main_v82) : S100000.Idx → EReal)
      = shapeCast S100000 (W (Proc.devRef .tc main_v81) : S100000x1.Idx → EReal) shapeCasts_S100000x1_S100000 := by
  after_results <;> rfl

end Cert.KernelIdeal.HostK
-- ==== Proof.Bridge.lean ====
import proofs.«117495_j42150809043597_1_alg».proof.Proof.Algebra
import proofs.«117495_j42150809043597_1_alg».proof.Proof.Spec

noncomputable section

open scoped BigOperators

namespace Cert.Spec

open Idealize.ShloMosaic Idealize.ShloMosaic.ValueIdx Cert.Algebra

abbrev nn : EReal := Ideal.ofBits .f32 0x47C35000#32

abbrev ee : EReal := Ideal.ofBits .f32 0x3727C5AC#32

theorem nn_eq : nn = ((100000 : ℝ) : EReal) := ofBits_100000

variable {R K N : Nat}

def colMean (a : (⟨2, ![R, N]⟩ : Shape).Idx → EReal) : (⟨2, ![1, N]⟩ : Shape).Idx → EReal :=
  fun j => Ideal.div (colSum a j) nn

def scaleK (a : (⟨2, ![R, N]⟩ : Shape).Idx → EReal) (g : (⟨2, ![1, N]⟩ : Shape).Idx → EReal) :
    (⟨2, ![1, N]⟩ : Shape).Idx → EReal :=
  fun j => g j * Ideal.rsqrt (Ideal.div (colSumSq a j) nn - colMean a j * colMean a j + ee)

def shiftK (a : (⟨2, ![R, N]⟩ : Shape).Idx → EReal) (g β : (⟨2, ![1, N]⟩ : Shape).Idx → EReal) :
    (⟨2, ![1, N]⟩ : Shape).Idx → EReal :=
  fun j => β j - colMean a j * scaleK a g j

def bnR (a : (⟨2, ![R, N]⟩ : Shape).Idx → EReal) (g β : (⟨2, ![1, N]⟩ : Shape).Idx → EReal) :
    (⟨2, ![R, N]⟩ : Shape).Idx → EReal :=
  fun j => max ((a j - colMean a (ix2 0 (j 1)))
      * Ideal.rsqrt (Ideal.div (∑ i : Fin R, (a (ix2 i (j 1)) - colMean a (ix2 0 (j 1)))
          * (a (ix2 i (j 1)) - colMean a (ix2 0 (j 1)))) nn + ee)
      * g (ix2 0 (j 1)) + β (ix2 0 (j 1))) 0

def bnK (a : (⟨2, ![R, N]⟩ : Shape).Idx → EReal) (g β : (⟨2, ![1, N]⟩ : Shape).Idx → EReal) :
    (⟨2, ![R, N]⟩ : Shape).Idx → EReal :=
  bn a (scaleK a g) (shiftK a g β)

section Real

variable (a : (⟨2, ![100000, N]⟩ : Shape).Idx → EReal) (g β : (⟨2, ![1, N]⟩ : Shape).Idx → EReal)
  (ha : ∀ j, IsReal (a j)) (hg : ∀ j, IsReal (g j)) (hβ : ∀ j, IsReal (β j))

include ha hg hβ

-- Over 100000 real rows both normalisations are, at every index, the rectified value of one real.
theorem bn_real (j : (⟨2, ![100000, N]⟩ : Shape).Idx) :
    ∃ r : ℝ, bnK a g β j = max (r : EReal) 0 ∧ bnR a g β j = max (r : EReal) 0 := by
  obtain ⟨e, he, hE⟩ := ofBits_eps
  obtain ⟨r, h1, h2⟩ := bn_eq_real (fun i : Fin 100000 => a (ix2 i (j 1))) (fun i => ha _) 100000 (by simp)
    (by norm_num) e he (ha j) (hg (ix2 0 (j 1))) (hβ (ix2 0 (j 1)))
  simp only [bnK, bnR, bn, scaleK, shiftK, colMean, colSum, colSumSq, nn, ee, ofBits_100000, hE]
  exact ⟨r, congrArg (max · 0) h1, congrArg (max · 0) h2⟩

theorem bnK_eq : bnK a g β = bnR a g β := funext fun j => by
  obtain ⟨r, h1, h2⟩ := bn_real a g β ha hg hβ j
  rw [h1, h2]

theorem isReal_bnR (j : (⟨2, ![100000, N]⟩ : Shape).Idx) : IsReal (bnR a g β j) := by
  obtain ⟨r, -, h2⟩ := bn_real a g β ha hg hβ j
  rw [h2]
  exact IsReal.max ⟨r, rfl⟩ isReal_zero

end Real

theorem isReal_sage (mean x : (⟨2, ![R, K]⟩ : Shape).Idx → EReal) (wl : (⟨2, ![K, N]⟩ : Shape).Idx → EReal)
    (b : (⟨2, ![1, N]⟩ : Shape).Idx → EReal) (wr : (⟨2, ![K, N]⟩ : Shape).Idx → EReal)
    (hm : ∀ j, IsReal (mean j)) (hx : ∀ j, IsReal (x j)) (hwl : ∀ j, IsReal (wl j)) (hb : ∀ j, IsReal (b j))
    (hwr : ∀ j, IsReal (wr j)) : ∀ j, IsReal (sage mean x wl b wr j) := fun j =>
  (((IsReal.sum _ _ fun k _ => (hm _).mul (hwl _)).add (hb _)).add
    (IsReal.sum _ _ fun k _ => (hx _).mul (hwr _))).max isReal_zero

theorem isReal_lin (h : (⟨2, ![R, K]⟩ : Shape).Idx → EReal) (w : (⟨2, ![K, N]⟩ : Shape).Idx → EReal)
    (b : (⟨2, ![1, N]⟩ : Shape).Idx → EReal) (hh : ∀ j, IsReal (h j)) (hw : ∀ j, IsReal (w j))
    (hb : ∀ j, IsReal (b j)) : ∀ j, IsReal (lin h w b j) := fun j =>
  (IsReal.sum _ _ fun k _ => (hh _).mul (hw _)).add (hb _)

variable (h2 : (⟨2, ![100000, 64]⟩ : Shape).Idx → EReal) (w1 : (⟨2, ![64, 128]⟩ : Shape).Idx → EReal)
  (b1 g1 β1 : (⟨2, ![1, 128]⟩ : Shape).Idx → EReal) (w2 : (⟨2, ![128, 64]⟩ : Shape).Idx → EReal)
  (b2 g2 β2 : (⟨2, ![1, 64]⟩ : Shape).Idx → EReal) (w3 : (⟨2, ![64, 1]⟩ : Shape).Idx → EReal)
  (b3 : (⟨2, ![1, 1]⟩ : Shape).Idx → EReal)

-- The head (three linear layers, two normalisations between them) with the folded normalisations.
def headK : (⟨2, ![100000, 1]⟩ : Shape).Idx → EReal :=
  lin (bnK (lin (bnK (lin h2 w1 b1) g1 β1) w2 b2) g2 β2) w3 b3

-- The head with the centred normalisations.
def headR : (⟨2, ![100000, 1]⟩ : Shape).Idx → EReal :=
  lin (bnR (lin (bnR (lin h2 w1 b1) g1 β1) w2 b2) g2 β2) w3 b3

theorem headK_def (l1 : (⟨2, ![100000, 128]⟩ : Shape).Idx → EReal) (hl1 : l1 = lin h2 w1 b1)
    (l2 : (⟨2, ![100000, 64]⟩ : Shape).Idx → EReal)
    (hl2 : l2 = lin (bn l1 (scaleK l1 g1) (shiftK l1 g1 β1)) w2 b2) :
    headK h2 w1 b1 g1 β1 w2 b2 g2 β2 w3 b3 = lin (bn l2 (scaleK l2 g2) (shiftK l2 g2 β2)) w3 b3 := by
  subst hl1; subst hl2; rfl

-- Over real inputs the two heads are one function.
theorem head_eq (hh2 : ∀ j, IsReal (h2 j)) (hw1 : ∀ j, IsReal (w1 j)) (hb1 : ∀ j, IsReal (b1 j))
    (hg1 : ∀ j, IsReal (g1 j)) (hβ1 : ∀ j, IsReal (β1 j)) (hw2 : ∀ j, IsReal (w2 j)) (hb2 : ∀ j, IsReal (b2 j))
    (hg2 : ∀ j, IsReal (g2 j)) (hβ2 : ∀ j, IsReal (β2 j)) :
    headK h2 w1 b1 g1 β1 w2 b2 g2 β2 w3 b3 = headR h2 w1 b1 g1 β1 w2 b2 g2 β2 w3 b3 := by
  have r1 := isReal_lin h2 w1 b1 hh2 hw1 hb1
  unfold headK headR
  rw [bnK_eq _ g1 β1 r1 hg1 hβ1,
    bnK_eq _ g2 β2 (isReal_lin _ w2 b2 (isReal_bnR _ g1 β1 r1 hg1 hβ1) hw2 hb2) hg2 hβ2]

end Cert.Spec

end
-- ==== Proof.KernelValue.lean ====
import proofs.«117495_j42150809043597_1_alg».proof.Proof.Run
import proofs.«117495_j42150809043597_1_alg».proof.Proof.ValA0
import proofs.«117495_j42150809043597_1_alg».proof.Proof.ValA1
import proofs.«117495_j42150809043597_1_alg».proof.Proof.ValR2
import proofs.«117495_j42150809043597_1_alg».proof.Proof.ValR3
import proofs.«117495_j42150809043597_1_alg».proof.Proof.ValA4
import proofs.«117495_j42150809043597_1_alg».proof.Proof.HostK
import proofs.«117495_j42150809043597_1_alg».proof.Proof.Bridge
import proofs.«117495_j42150809043597_1_alg».proof.Proof.Spec
import Idealize.ShloMosaic.Lib.Pipeline.FrameSuffix
import Idealize.ShloMosaic.Lib.StableHlo.Run

set_option maxRecDepth 16384

noncomputable section

namespace Cert.KernelIdeal.KVal

open Cert.KernelIdeal Cert.KernelIdeal.Gen Cert.KernelIdeal.Reg
open Idealize.ShloMosaic Idealize.ShloMosaic.TcCoe Idealize.SL.Sem

variable (m : (ℓ : Loc nD τ sig) → Buf (Elt Ideal) ℓ) (ρ : Dev nD → PrngReg)

abbrev arg0 (c : Dev nD) : S100000x32.Idx → EReal := m ((c : Thread nD τ).loc main_arg0)
abbrev arg1 (c : Dev nD) : S2x1600000.Idx → BitVec 32 := m ((c : Thread nD τ).loc main_arg1)
abbrev arg2 (c : Dev nD) : S64x32.Idx → EReal := m ((c : Thread nD τ).loc main_arg2)
abbrev arg3 (c : Dev nD) : S64.Idx → EReal := m ((c : Thread nD τ).loc main_arg3)
abbrev arg4 (c : Dev nD) : S64x32.Idx → EReal := m ((c : Thread nD τ).loc main_arg4)
abbrev arg5 (c : Dev nD) : S64x64.Idx → EReal := m ((c : Thread nD τ).loc main_arg5)
abbrev arg6 (c : Dev nD) : S64.Idx → EReal := m ((c : Thread nD τ).loc main_arg6)
abbrev arg7 (c : Dev nD) : S64x64.Idx → EReal := m ((c : Thread nD τ).loc main_arg7)
abbrev arg8 (c : Dev nD) : S128x64.Idx → EReal := m ((c : Thread nD τ).loc main_arg8)
abbrev arg9 (c : Dev nD) : S128.Idx → EReal := m ((c : Thread nD τ).loc main_arg9)
abbrev arg10 (c : Dev nD) : S128.Idx → EReal := m ((c : Thread nD τ).loc main_arg10)
abbrev arg11 (c : Dev nD) : S128.Idx → EReal := m ((c : Thread nD τ).loc main_arg11)
abbrev arg12 (c : Dev nD) : S64x128.Idx → EReal := m ((c : Thread nD τ).loc main_arg12)
abbrev arg13 (c : Dev nD) : S64.Idx → EReal := m ((c : Thread nD τ).loc main_arg13)
abbrev arg14 (c : Dev nD) : S64.Idx → EReal := m ((c : Thread nD τ).loc main_arg14)
abbrev arg15 (c : Dev nD) : S64.Idx → EReal := m ((c : Thread nD τ).loc main_arg15)
abbrev arg16 (c : Dev nD) : S1x64.Idx → EReal := m ((c : Thread nD τ).loc main_arg16)
abbrev arg17 (c : Dev nD) : S1.Idx → EReal := m ((c : Thread nD τ).loc main_arg17)

def KH1 (c : Dev nD) : S100000x64.Idx → EReal :=
  Cert.Spec.sage (R := 100000) (K := 32) (N := 64)
    (HostK.mean32 (arg0 m c) (HostK.src (arg1 m c)) (HostK.tgt (arg1 m c)) (HostK.invCnt (HostK.tgt (arg1 m c))))
    (arg0 m c) (transpose S32x64 [1, 0] (arg2 m c) transposes_S64x32_S32x64_1_0)
    (shapeCast S1x64 (arg3 m c) shapeCasts_S64_S1x64) (transpose S32x64 [1, 0] (arg4 m c) transposes_S64x32_S32x64_1_0)

theorem V1_v24 (c : Dev nD) : (Run.V1 m ρ c main_v24 : S100000x32.Idx → EReal)
    = HostK.mean32 (arg0 m c) (HostK.src (arg1 m c)) (HostK.tgt (arg1 m c)) (HostK.invCnt (HostK.tgt (arg1 m c))) :=
  HostK.after0_v24 (Run.W0 m ρ c)
theorem V1_arg0 (c : Dev nD) : (Run.V1 m ρ c main_arg0 : S100000x32.Idx → EReal) = arg0 m c :=
  StableHlo.after_of_writes_sub hostOps0 _ hostOps0_writes (by decide)
theorem V1_v25 (c : Dev nD) : (Run.V1 m ρ c main_v25 : S32x64.Idx → EReal)
    = transpose S32x64 [1, 0] (arg2 m c) transposes_S64x32_S32x64_1_0 := HostK.after0_v25 (Run.W0 m ρ c)
theorem V1_v26 (c : Dev nD) : (Run.V1 m ρ c main_v26 : S1x64.Idx → EReal)
    = shapeCast S1x64 (arg3 m c) shapeCasts_S64_S1x64 := HostK.after0_v26 (Run.W0 m ρ c)
theorem V1_v27 (c : Dev nD) : (Run.V1 m ρ c main_v27 : S32x64.Idx → EReal)
    = transpose S32x64 [1, 0] (arg4 m c) transposes_S64x32_S32x64_1_0 := HostK.after0_v27 (Run.W0 m ρ c)

theorem W2_v28 (c : Dev nD) : (Run.W2 m ρ c (Proc.devRef .tc main_v28) : S100000x64.Idx → EReal) = KH1 m c := by
  refine (Run.exitOf_arr launch0 _ _ c 5).trans ?_
  refine (Val.final0 (Run.V1 m ρ) c).trans ?_
  rw [V1_v24, V1_arg0, V1_v25, V1_v26, V1_v27]
  rfl

theorem h1_eq (c : Dev nD) : (Run.W11 m ρ c (Proc.devRef .tc main_v28) : S100000x64.Idx → EReal) = KH1 m c :=
  (StableHlo.after_of_writes_sub hostOps5 _ hostOps5_writes (by decide)).trans <| (Run.exitOf_of_ne 4 _ _ c main_v28 (by decide)).trans <|
  (StableHlo.after_of_writes_sub hostOps4 _ hostOps4_writes (by decide)).trans <| (Run.exitOf_of_ne 3 _ _ c main_v28 (by decide)).trans <|
  (StableHlo.after_of_writes_sub hostOps3 _ hostOps3_writes (by decide)).trans <| (Run.exitOf_of_ne 2 _ _ c main_v28 (by decide)).trans <|
  (StableHlo.after_of_writes_sub hostOps2 _ hostOps2_writes (by decide)).trans <| (Run.exitOf_in launch1 _ _ c 1 rfl (A_eq1 (Run.V3 m ρ) c 1)).trans <|
  (StableHlo.after_of_writes_sub hostOps1 _ hostOps1_writes (by decide)).trans (W2_v28 m ρ c)

theorem W2_v1 (c : Dev nD) : (Run.W2 m ρ c (Proc.devRef .tc main_v1) : S1600000.Idx → BitVec 32) = HostK.src (arg1 m c) :=
  (Run.exitOf_of_ne 0 _ _ c main_v1 (by decide)).trans (HostK.after0_v1 (Run.W0 m ρ c))
theorem W2_v3 (c : Dev nD) : (Run.W2 m ρ c (Proc.devRef .tc main_v3) : S1600000.Idx → BitVec 32) = HostK.tgt (arg1 m c) :=
  (Run.exitOf_of_ne 0 _ _ c main_v3 (by decide)).trans (HostK.after0_v3 (Run.W0 m ρ c))
theorem W2_v12 (c : Dev nD) : (Run.W2 m ρ c (Proc.devRef .tc main_v12) : S100000x1.Idx → EReal)
    = HostK.invCnt (HostK.tgt (arg1 m c)) :=
  (Run.exitOf_of_ne 0 _ _ c main_v12 (by decide)).trans (HostK.after0_v12 (Run.W0 m ρ c))

theorem V3_v40 (c : Dev nD) : (Run.V3 m ρ c main_v40 : S100000x64.Idx → EReal)
    = HostK.mean64 (KH1 m c) (HostK.src (arg1 m c)) (HostK.tgt (arg1 m c)) (HostK.invCnt (HostK.tgt (arg1 m c))) := by
  refine (HostK.after1_v40 (Run.W2 m ρ c)).trans ?_
  rw [W2_v28, W2_v1, W2_v3, W2_v12]
theorem V3_v28 (c : Dev nD) : (Run.V3 m ρ c main_v28 : S100000x64.Idx → EReal) = KH1 m c :=
  (StableHlo.after_of_writes_sub hostOps1 _ hostOps1_writes (by decide)).trans (W2_v28 m ρ c)
theorem V3_v41 (c : Dev nD) : (Run.V3 m ρ c main_v41 : S64x64.Idx → EReal)
    = transpose S64x64 [1, 0] (arg5 m c) transposes_S64x64_S64x64_1_0 := by
  refine (HostK.after1_v41 (Run.W2 m ρ c)).trans ?_
  rw [(Run.kept m ρ c main_arg5 (by decide)).1]
theorem V3_v42 (c : Dev nD) : (Run.V3 m ρ c main_v42 : S1x64.Idx → EReal)
    = shapeCast S1x64 (arg6 m c) shapeCasts_S64_S1x64 := by
  refine (HostK.after1_v42 (Run.W2 m ρ c)).trans ?_
  rw [(Run.kept m ρ c main_arg6 (by decide)).1]
theorem V3_v43 (c : Dev nD) : (Run.V3 m ρ c main_v43 : S64x64.Idx → EReal)
    = transpose S64x64 [1, 0] (arg7 m c) transposes_S64x64_S64x64_1_0 := by
  refine (HostK.after1_v43 (Run.W2 m ρ c)).trans ?_
  rw [(Run.kept m ρ c main_arg7 (by decide)).1]

def KH2 (c : Dev nD) : S100000x64.Idx → EReal :=
  Cert.Spec.sage (R := 100000) (K := 64) (N := 64)
    (HostK.mean64 (KH1 m c) (HostK.src (arg1 m c)) (HostK.tgt (arg1 m c)) (HostK.invCnt (HostK.tgt (arg1 m c))))
    (KH1 m c) (transpose S64x64 [1, 0] (arg5 m c) transposes_S64x64_S64x64_1_0)
    (shapeCast S1x64 (arg6 m c) shapeCasts_S64_S1x64) (transpose S64x64 [1, 0] (arg7 m c) transposes_S64x64_S64x64_1_0)

theorem W4_v44 (c : Dev nD) : (Run.W4 m ρ c (Proc.devRef .tc main_v44) : S100000x64.Idx → EReal) = KH2 m c := by
  refine (Run.exitOf_arr launch1 _ _ c 5).trans ?_
  refine (Val.final1 (Run.V3 m ρ) c).trans ?_
  rw [V3_v40, V3_v28, V3_v41, V3_v42, V3_v43]
  rfl

theorem h2_eq (c : Dev nD) : (Run.W11 m ρ c (Proc.devRef .tc main_v44) : S100000x64.Idx → EReal) = KH2 m c :=
  (StableHlo.after_of_writes_sub hostOps5 _ hostOps5_writes (by decide)).trans <| (Run.exitOf_of_ne 4 _ _ c main_v44 (by decide)).trans <|
  (StableHlo.after_of_writes_sub hostOps4 _ hostOps4_writes (by decide)).trans <| (Run.exitOf_of_ne 3 _ _ c main_v44 (by decide)).trans <|
  (StableHlo.after_of_writes_sub hostOps3 _ hostOps3_writes (by decide)).trans <| (Run.exitOf_in launch2 _ _ c 0 rfl (A_eq2 (Run.V5 m ρ) c 0)).trans <|
  (StableHlo.after_of_writes_sub hostOps2 _ hostOps2_writes (by decide)).trans (W4_v44 m ρ c)

abbrev w1 (c : Dev nD) : S64x128.Idx → EReal := transpose S64x128 [1, 0] (arg8 m c) transposes_S128x64_S64x128_1_0
abbrev b1 (c : Dev nD) : S1x128.Idx → EReal := shapeCast S1x128 (arg9 m c) shapeCasts_S128_S1x128
abbrev g1 (c : Dev nD) : S1x128.Idx → EReal := shapeCast S1x128 (arg10 m c) shapeCasts_S128_S1x128
abbrev β1 (c : Dev nD) : S1x128.Idx → EReal := shapeCast S1x128 (arg11 m c) shapeCasts_S128_S1x128
abbrev w2 (c : Dev nD) : S128x64.Idx → EReal := transpose S128x64 [1, 0] (arg12 m c) transposes_S64x128_S128x64_1_0
abbrev b2 (c : Dev nD) : S1x64.Idx → EReal := shapeCast S1x64 (arg13 m c) shapeCasts_S64_S1x64
abbrev g2 (c : Dev nD) : S1x64.Idx → EReal := shapeCast S1x64 (arg14 m c) shapeCasts_S64_S1x64
abbrev β2 (c : Dev nD) : S1x64.Idx → EReal := shapeCast S1x64 (arg15 m c) shapeCasts_S64_S1x64
abbrev w3 (c : Dev nD) : S64x1.Idx → EReal := transpose S64x1 [1, 0] (arg16 m c) transposes_S1x64_S64x1_1_0
abbrev b3 (c : Dev nD) : S1x1.Idx → EReal := shapeCast S1x1 (arg17 m c) shapeCasts_S1_S1x1

def L1 (c : Dev nD) : S100000x128.Idx → EReal :=
  Cert.Spec.lin (R := 100000) (K := 64) (N := 128) (KH2 m c) (w1 m c) (b1 m c)

def L2 (c : Dev nD) : S100000x64.Idx → EReal :=
  Cert.Spec.lin (R := 100000) (K := 128) (N := 64)
    (Cert.Spec.bn (L1 m c) (Cert.Spec.scaleK (L1 m c) (g1 m c)) (Cert.Spec.shiftK (L1 m c) (g1 m c) (β1 m c))) (w2 m c) (b2 m c)

theorem V5_v44 (c : Dev nD) : (Run.V5 m ρ c main_v44 : S100000x64.Idx → EReal) = KH2 m c :=
  (StableHlo.after_of_writes_sub hostOps2 _ hostOps2_writes (by decide)).trans (W4_v44 m ρ c)
theorem V5_v45 (c : Dev nD) : (Run.V5 m ρ c main_v45 : S64x128.Idx → EReal) = w1 m c := by
  refine (HostK.after2_v45 (Run.W4 m ρ c)).trans ?_
  rw [(Run.kept m ρ c main_arg8 (by decide)).2.1]
theorem V5_v46 (c : Dev nD) : (Run.V5 m ρ c main_v46 : S1x128.Idx → EReal) = b1 m c := by
  refine (HostK.after2_v46 (Run.W4 m ρ c)).trans ?_
  rw [(Run.kept m ρ c main_arg9 (by decide)).2.1]

theorem W6_v47 (c : Dev nD) : (Run.W6 m ρ c (Proc.devRef .tc main_v47_0) : S100000x128.Idx → EReal) = L1 m c
    ∧ (Run.W6 m ρ c (Proc.devRef .tc main_v47_1) : S1x128.Idx → EReal) = Cert.Spec.colSum (L1 m c)
    ∧ (Run.W6 m ρ c (Proc.devRef .tc main_v47_2) : S1x128.Idx → EReal) = Cert.Spec.colSumSq (L1 m c) := by
  refine ⟨(Run.exitOf_arr launch2 _ _ c 3).trans ((Val.final2_3 (Run.V5 m ρ) c).trans ?_),
    (Run.exitOf_arr launch2 _ _ c 4).trans ((Val.final2_4 (Run.V5 m ρ) c).trans ?_),
    (Run.exitOf_arr launch2 _ _ c 5).trans ((Val.final2_5 (Run.V5 m ρ) c).trans ?_)⟩ <;>
  · rw [V5_v44, V5_v45, V5_v46]; rfl

theorem V7_v47_0 (c : Dev nD) : (Run.V7 m ρ c main_v47_0 : S100000x128.Idx → EReal) = L1 m c :=
  (StableHlo.after_of_writes_sub hostOps3 _ hostOps3_writes (by decide)).trans (W6_v47 m ρ c).1
theorem V7_v58 (c : Dev nD) : (Run.V7 m ρ c main_v58 : S1x128.Idx → EReal) = Cert.Spec.scaleK (L1 m c) (g1 m c) := by
  refine (HostK.after3_v58 (Run.W6 m ρ c)).trans ?_
  rw [(W6_v47 m ρ c).2.1, (W6_v47 m ρ c).2.2, (Run.kept m ρ c main_arg10 (by decide)).2.2.1]
  funext j; rfl
theorem V7_v61 (c : Dev nD) : (Run.V7 m ρ c main_v61 : S1x128.Idx → EReal)
    = Cert.Spec.shiftK (L1 m c) (g1 m c) (β1 m c) := by
  refine (HostK.after3_v61 (Run.W6 m ρ c)).trans ?_
  rw [(W6_v47 m ρ c).2.1, (W6_v47 m ρ c).2.2, (Run.kept m ρ c main_arg10 (by decide)).2.2.1, (Run.kept m ρ c main_arg11 (by decide)).2.2.1]
  funext j; rfl
theorem V7_v62 (c : Dev nD) : (Run.V7 m ρ c main_v62 : S128x64.Idx → EReal) = w2 m c := by
  refine (HostK.after3_v62 (Run.W6 m ρ c)).trans ?_
  rw [(Run.kept m ρ c main_arg12 (by decide)).2.2.1]
theorem V7_v63 (c : Dev nD) : (Run.V7 m ρ c main_v63 : S1x64.Idx → EReal) = b2 m c := by
  refine (HostK.after3_v63 (Run.W6 m ρ c)).trans ?_
  rw [(Run.kept m ρ c main_arg13 (by decide)).2.2.1]

theorem W8_v64_0 (c : Dev nD) : (Run.W8 m ρ c (Proc.devRef .tc main_v64_0) : S100000x64.Idx → EReal) = L2 m c := by
  refine (Run.exitOf_arr launch3 _ _ c 5).trans ((Val.final3_5 (Run.V7 m ρ) c).trans ?_)
  rw [V7_v47_0, V7_v58, V7_v61, V7_v62, V7_v63]; rfl
theorem W8_v64_1 (c : Dev nD) : (Run.W8 m ρ c (Proc.devRef .tc main_v64_1) : S1x64.Idx → EReal) = Cert.Spec.colSum (L2 m c) := by
  refine (Run.exitOf_arr launch3 _ _ c 6).trans ((Val.final3_6 (Run.V7 m ρ) c).trans ?_)
  rw [V7_v47_0, V7_v58, V7_v61, V7_v62, V7_v63]; rfl
theorem W8_v64_2 (c : Dev nD) : (Run.W8 m ρ c (Proc.devRef .tc main_v64_2) : S1x64.Idx → EReal) = Cert.Spec.colSumSq (L2 m c) := by
  refine (Run.exitOf_arr launch3 _ _ c 7).trans ((Val.final3_7 (Run.V7 m ρ) c).trans ?_)
  rw [V7_v47_0, V7_v58, V7_v61, V7_v62, V7_v63]; rfl

theorem V9_v64_0 (c : Dev nD) : (Run.V9 m ρ c main_v64_0 : S100000x64.Idx → EReal) = L2 m c :=
  (StableHlo.after_of_writes_sub hostOps4 _ hostOps4_writes (by decide)).trans (W8_v64_0 m ρ c)
theorem V9_v75 (c : Dev nD) : (Run.V9 m ρ c main_v75 : S1x64.Idx → EReal) = Cert.Spec.scaleK (L2 m c) (g2 m c) := by
  refine (HostK.after4_v75 (Run.W8 m ρ c)).trans ?_
  rw [W8_v64_1, W8_v64_2, (Run.kept m ρ c main_arg14 (by decide)).2.2.2.1]
  funext j; rfl
theorem V9_v78 (c : Dev nD) : (Run.V9 m ρ c main_v78 : S1x64.Idx → EReal)
    = Cert.Spec.shiftK (L2 m c) (g2 m c) (β2 m c) := by
  refine (HostK.after4_v78 (Run.W8 m ρ c)).trans ?_
  rw [W8_v64_1, W8_v64_2, (Run.kept m ρ c main_arg14 (by decide)).2.2.2.1, (Run.kept m ρ c main_arg15 (by decide)).2.2.2.1]
  funext j; rfl
theorem V9_v79 (c : Dev nD) : (Run.V9 m ρ c main_v79 : S64x1.Idx → EReal) = w3 m c := by
  refine (HostK.after4_v79 (Run.W8 m ρ c)).trans ?_
  rw [(Run.kept m ρ c main_arg16 (by decide)).2.2.2.1]
theorem V9_v80 (c : Dev nD) : (Run.V9 m ρ c main_v80 : S1x1.Idx → EReal) = b3 m c := by
  refine (HostK.after4_v80 (Run.W8 m ρ c)).trans ?_
  rw [(Run.kept m ρ c main_arg17 (by decide)).2.2.2.1]

theorem W10_v81 (c : Dev nD) : (Run.W10 m ρ c (Proc.devRef .tc main_v81) : S100000x1.Idx → EReal)
    = Cert.Spec.lin (R := 100000) (K := 64) (N := 1)
        (Cert.Spec.bn (L2 m c) (Cert.Spec.scaleK (L2 m c) (g2 m c)) (Cert.Spec.shiftK (L2 m c) (g2 m c) (β2 m c))) (w3 m c) (b3 m c) := by
  refine (Run.exitOf_arr launch4 _ _ c 5).trans ?_
  refine (Val.final4 (Run.V9 m ρ) c).trans ?_
  rw [V9_v64_0, V9_v75, V9_v78, V9_v79, V9_v80]

def KOUT (c : Dev nD) : S100000.Idx → EReal :=
  shapeCast S100000 (Cert.Spec.headK (KH2 m c) (w1 m c) (b1 m c) (g1 m c) (β1 m c) (w2 m c) (b2 m c) (g2 m c) (β2 m c)
    (w3 m c) (b3 m c)) shapeCasts_S100000x1_S100000

theorem out_eq (c : Dev nD) : (Run.W11 m ρ c (Proc.devRef .tc main_v82) : S100000.Idx → EReal) = KOUT m c := by
  unfold KOUT
  refine (HostK.after5_v82 (Run.W10 m ρ c)).trans ?_
  rw [W10_v81, Cert.Spec.headK_def (KH2 m c) (w1 m c) (b1 m c) (g1 m c) (β1 m c) (w2 m c) (b2 m c) (g2 m c) (β2 m c)
    (w3 m c) (b3 m c) (L1 m c) rfl (L2 m c) rfl]

end Cert.KernelIdeal.KVal

end
-- ==== Proof.RefValue.lean ====
import proofs.«117495_j42150809043597_1_alg».proof.Proof.RefRun
import proofs.«117495_j42150809043597_1_alg».proof.Proof.Spec
import proofs.«117495_j42150809043597_1_alg».proof.Proof.LibPlainDot
import proofs.«117495_j42150809043597_1_alg».proof.Proof.Bridge
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

variable {F : FTy → Type} [FloatOps F]

def src (ei : (⟨S2x1600000, .i32⟩ : BufTy).Contents (Elt F)) :=
  shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) ei) shapeCasts_S1x1600000_S1600000

def tgt (ei : (⟨S2x1600000, .i32⟩ : BufTy).Contents (Elt F)) :=
  shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) ei) shapeCasts_S1x1600000_S1600000

def srcN (ei : (⟨S2x1600000, .i32⟩ : BufTy).Contents (Elt F)) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (src ei) ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) (src ei) ((broadcastInDim S1600000 ![] bcast_S_S1600000 : (⟨S_, .i32⟩ : BufTy).Contents (Elt F) → (⟨S1600000, .i32⟩ : BufTy).Contents (Elt F)) (constantI S_ 32 100000#32))) (src ei)

def agg32 (x : (⟨S100000x32, .f32⟩ : BufTy).Contents (Elt F)) (ei : (⟨S2x1600000, .i32⟩ : BufTy).Contents (Elt F)) :=
  ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) ((broadcastInDim S100000x32 ![] bcast_S_S100000x32 : (⟨S_, .f32⟩ : BufTy).Contents (Elt F) → (⟨S100000x32, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (tgt ei)) (((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) x ((broadcastInDim S1600000x1 ![0] bcast_S1600000_S1600000x1_0 : (⟨S1600000, .i32⟩ : BufTy).Contents (Elt F) → (⟨S1600000x1, .i32⟩ : BufTy).Contents (Elt F)) (srcN ei)))

def cntMax (ei : (⟨S2x1600000, .i32⟩ : BufTy).Contents (Elt F)) :=
  (maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (tgt ei)) ((broadcastInDim S1600000 ![] bcast_S_S1600000 : (⟨S_, .f32⟩ : BufTy).Contents (Elt F) → (⟨S1600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32))

def meanR32 (x : (⟨S100000x32, .f32⟩ : BufTy).Contents (Elt F)) (ei : (⟨S2x1600000, .i32⟩ : BufTy).Contents (Elt F)) :=
  (Host.divf : (⟨S100000x32, .f32⟩ : BufTy).Contents (Elt F) → (⟨S100000x32, .f32⟩ : BufTy).Contents (Elt F) → (⟨S100000x32, .f32⟩ : BufTy).Contents (Elt F)) (agg32 x ei) ((broadcastInDim S100000x32 ![0, 1] bcast_S100000x1_S100000x32_0_1 : (⟨S100000x1, .f32⟩ : BufTy).Contents (Elt F) → (⟨S100000x32, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (cntMax ei)))

def rowOf64 (b : (⟨S64, .f32⟩ : BufTy).Contents (Elt F)) :=
  (broadcastInDim S1x64 ![1] bcast_S64_S1x64_1 : (⟨S64, .f32⟩ : BufTy).Contents (Elt F) → (⟨S1x64, .f32⟩ : BufTy).Contents (Elt F)) b

def agg64 (x : (⟨S100000x64, .f32⟩ : BufTy).Contents (Elt F)) (ei : (⟨S2x1600000, .i32⟩ : BufTy).Contents (Elt F)) :=
  ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (tgt ei)) (((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) x ((broadcastInDim S1600000x1 ![0] bcast_S1600000_S1600000x1_0 : (⟨S1600000, .i32⟩ : BufTy).Contents (Elt F) → (⟨S1600000x1, .i32⟩ : BufTy).Contents (Elt F)) (srcN ei)))

def meanR64 (x : (⟨S100000x64, .f32⟩ : BufTy).Contents (Elt F)) (ei : (⟨S2x1600000, .i32⟩ : BufTy).Contents (Elt F)) :=
  (Host.divf : (⟨S100000x64, .f32⟩ : BufTy).Contents (Elt F) → (⟨S100000x64, .f32⟩ : BufTy).Contents (Elt F) → (⟨S100000x64, .f32⟩ : BufTy).Contents (Elt F)) (agg64 x ei) ((broadcastInDim S100000x64 ![0, 1] bcast_S100000x1_S100000x64_0_1 : (⟨S100000x1, .f32⟩ : BufTy).Contents (Elt F) → (⟨S100000x64, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (cntMax ei)))

def rowOf128 (b : (⟨S128, .f32⟩ : BufTy).Contents (Elt F)) :=
  (broadcastInDim S1x128 ![1] bcast_S128_S1x128_1 : (⟨S128, .f32⟩ : BufTy).Contents (Elt F) → (⟨S1x128, .f32⟩ : BufTy).Contents (Elt F)) b

def mean64 (x : (⟨S100000x64, .f32⟩ : BufTy).Contents (Elt F)) :=
  (Host.divf : (⟨S64, .f32⟩ : BufTy).Contents (Elt F) → (⟨S64, .f32⟩ : BufTy).Contents (Elt F) → (⟨S64, .f32⟩ : BufTy).Contents (Elt F)) (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) x (constant S_ .f32 0x00000000#32)) ((broadcastInDim S64 ![] bcast_S_S64 : (⟨S_, .f32⟩ : BufTy).Contents (Elt F) → (⟨S64, .f32⟩ : BufTy).Contents (Elt F)) (constant S_ .f32 0x47C35000#32))

def rowOf1 (b : (⟨S1, .f32⟩ : BufTy).Contents (Elt F)) :=
  (broadcastInDim S1x1 ![1] bcast_S1_S1x1_1 : (⟨S1, .f32⟩ : BufTy).Contents (Elt F) → (⟨S1x1, .f32⟩ : BufTy).Contents (Elt F)) b

def H1 (V : Valuation τ sig (Elt Ideal)) : (⟨2, ![100000, 64]⟩ : Shape).Idx → EReal :=
  Cert.Spec.sage (R := 100000) (K := 32) (N := 64) (meanR32 (V (Proc.devRef .tc main_arg0)) (V (Proc.devRef .tc main_arg1))) (V (Proc.devRef .tc main_arg0))
    (transpose S32x64 [1, 0] (V (Proc.devRef .tc main_arg2)) transposes_S64x32_S32x64_1_0) (rowOf64 (V (Proc.devRef .tc main_arg3)))
    (transpose S32x64 [1, 0] (V (Proc.devRef .tc main_arg4)) transposes_S64x32_S32x64_1_0)

def H2 (V : Valuation τ sig (Elt Ideal)) : (⟨2, ![100000, 64]⟩ : Shape).Idx → EReal :=
  Cert.Spec.sage (R := 100000) (K := 64) (N := 64) (meanR64 (H1 V) (V (Proc.devRef .tc main_arg1))) (H1 V)
    (transpose S64x64 [1, 0] (V (Proc.devRef .tc main_arg5)) transposes_S64x64_S64x64_1_0) (rowOf64 (V (Proc.devRef .tc main_arg6)))
    (transpose S64x64 [1, 0] (V (Proc.devRef .tc main_arg7)) transposes_S64x64_S64x64_1_0)

def OUT (V : Valuation τ sig (Elt Ideal)) : (⟨2, ![100000, 1]⟩ : Shape).Idx → EReal :=
  Cert.Spec.headR (H2 V) (transpose S64x128 [1, 0] (V (Proc.devRef .tc main_arg8)) transposes_S128x64_S64x128_1_0) (rowOf128 (V (Proc.devRef .tc main_arg9)))
    (rowOf128 (V (Proc.devRef .tc main_arg10))) (rowOf128 (V (Proc.devRef .tc main_arg11)))
    (transpose S128x64 [1, 0] (V (Proc.devRef .tc main_arg12)) transposes_S64x128_S128x64_1_0) (rowOf64 (V (Proc.devRef .tc main_arg13)))
    (rowOf64 (V (Proc.devRef .tc main_arg14))) (rowOf64 (V (Proc.devRef .tc main_arg15)))
    (transpose S64x1 [1, 0] (V (Proc.devRef .tc main_arg16)) transposes_S1x64_S64x1_1_0) (rowOf1 (V (Proc.devRef .tc main_arg17)))

section Reads

variable {R K N : Nat} {α : Type}

theorem bcastRows_apply (h : (⟨2, ![1, N]⟩ : Shape).BroadcastsInDim ⟨2, ![R, N]⟩ ![0, 1])
    (r : (⟨2, ![1, N]⟩ : Shape).Idx → α) (j : (⟨2, ![R, N]⟩ : Shape).Idx) :
    broadcastInDim ⟨2, ![R, N]⟩ ![0, 1] h r j = r (ix2 0 (j 1)) := by
  refine broadcastInDim_apply _ h r j (ix2 0 (j 1)) fun a => ?_
  have hj := idx2_lt1 j
  match a with
  | ⟨0, _⟩ => exact (if_pos rfl).symm
  | ⟨1, _⟩ =>
    show (j 1).val = if N = 1 then 0 else (j 1).val
    split_ifs with h1 <;> omega

theorem rowOf_apply (h : (⟨1, ![N]⟩ : Shape).BroadcastsInDim ⟨2, ![1, N]⟩ ![1])
    (b : (⟨1, ![N]⟩ : Shape).Idx → α) (j : (⟨2, ![1, N]⟩ : Shape).Idx) :
    broadcastInDim ⟨2, ![1, N]⟩ ![1] h b j = b (ix1 (j 1)) := by
  refine broadcastInDim_apply _ h b j (ix1 (j 1)) fun a => ?_
  have hj := idx2_lt1 j
  match a with
  | ⟨0, _⟩ =>
    show (j 1).val = if N = 1 then 0 else (j 1).val
    split_ifs with h1 <;> omega

theorem reduceRows_apply (h' : (⟨2, ![R, N]⟩ : Shape).ReducesTo [0] ⟨1, ![N]⟩) (h : (⟨2, ![R, N]⟩ : Shape).Reduces [0] ⟨1, ![N]⟩)
    (hu : 0 < (⟨0, ![]⟩ : Shape).numel)
    (x : FVec Ideal ⟨2, ![R, N]⟩ .f32) (c : FVec Ideal ⟨0, ![]⟩ .f32) (j : (⟨1, ![N]⟩ : Shape).Idx) :
    Host.reduceAdd x c h' hu j = c (Shape.Idx.first hu) + ∑ i : Fin R, x (ix2 i (j 0)) := by
  show Ideal.hostReduceAdd h' x (c (Shape.Idx.first hu)) j = _
  rw [Ideal.hostReduceAdd_single h' h]
  refine congrArg (c (Shape.Idx.first hu) + ·) (Finset.sum_congr rfl fun i _ => congrArg x ?_)
  funext a
  match a with
  | ⟨0, _⟩ => rfl
  | ⟨1, _⟩ => rfl

end Reads

section Funs

variable {R N : Nat} {α : Type}

theorem bcastScalar_fun {t : Shape} (h : (⟨0, ![]⟩ : Shape).BroadcastsInDim t ![]) (c : (⟨0, ![]⟩ : Shape).Idx → α) :
    broadcastInDim t ![] h c = fun _ => c ix0 :=
  funext fun j => broadcastInDim_scalar_apply h c j

theorem bcastRows_fun (h : (⟨2, ![1, N]⟩ : Shape).BroadcastsInDim ⟨2, ![R, N]⟩ ![0, 1]) (r : (⟨2, ![1, N]⟩ : Shape).Idx → α) :
    broadcastInDim ⟨2, ![R, N]⟩ ![0, 1] h r = fun j => r (ix2 0 (j 1)) :=
  funext fun j => bcastRows_apply h r j

theorem rowOf_fun (h : (⟨1, ![N]⟩ : Shape).BroadcastsInDim ⟨2, ![1, N]⟩ ![1]) (b : (⟨1, ![N]⟩ : Shape).Idx → α) :
    broadcastInDim ⟨2, ![1, N]⟩ ![1] h b = fun j => b (ix1 (j 1)) :=
  funext fun j => rowOf_apply h b j

theorem reduceRows_fun (h' : (⟨2, ![R, N]⟩ : Shape).ReducesTo [0] ⟨1, ![N]⟩) (h : (⟨2, ![R, N]⟩ : Shape).Reduces [0] ⟨1, ![N]⟩)
    (hu : 0 < (⟨0, ![]⟩ : Shape).numel) (x : FVec Ideal ⟨2, ![R, N]⟩ .f32) (c : FVec Ideal ⟨0, ![]⟩ .f32) :
    Host.reduceAdd x c h' hu = fun j => c (Shape.Idx.first hu) + ∑ i : Fin R, x (ix2 i (j 0)) :=
  funext fun j => reduceRows_apply h' h hu x c j

variable {s : Shape}

theorem hostDivf_fun (a b : FVec Ideal s .f32) : Host.divf a b = fun i => Ideal.div (a i) (b i) := rfl
theorem hostRsqrt_fun (a : FVec Ideal s .f32) : Host.rsqrt a = fun i => Ideal.rsqrt (a i) := rfl
theorem mulf_fun (a b : FVec Ideal s .f32) : mulf a b = fun i => a i * b i := rfl
theorem subf_fun (a b : FVec Ideal s .f32) : subf a b = fun i => a i - b i := rfl
theorem addf_fun (a b : FVec Ideal s .f32) : addf a b = fun i => a i + b i := rfl
theorem maximumf_fun (a b : FVec Ideal s .f32) : maximumf a b = fun i => max (a i) (b i) := rfl
theorem select_fun (c : IVec s 1) (a b : s.Idx → α) : select c a b = fun i => Scalar.select (c i) (a i) (b i) := rfl
theorem cmpf_fun (p : CmpFPredicate) (a b : FVec Ideal s .f32) : cmpf p a b = fun i => Ideal.cmp p (a i) (b i) := rfl
theorem sitofp_fun (x : IVec s 32) : (sitofp .f32 x : FVec Ideal s .f32) = fun i => (((x i).toInt : ℝ) : EReal) := rfl
theorem constant_fun (b : BitVec 32) : (constant s .f32 b : FVec Ideal s .f32) = fun _ => Ideal.ofBits .f32 b := rfl
theorem constantI_fun (b : BitVec 32) : constantI s 32 b = fun _ => b := rfl

end Funs

theorem nn_sub_zero : (Ideal.ofBits .f32 0x47C35000#32 : EReal) - (((0#32 : BitVec 32).toInt : ℝ) : EReal) = Cert.Spec.nn := by
  have h0 : (0#32 : BitVec 32).toInt = 0 := by decide
  rw [h0, Int.cast_zero, EReal.coe_zero, sub_zero]

theorem guard_true : Ideal.cmp .ogt Cert.Spec.nn (Ideal.ofBits .f32 0x00000000#32) = 1#1 := by
  have h : (Ideal.ofBits .f32 0x00000000#32 : EReal) < Cert.Spec.nn := by
    rw [Ideal.ofBits_zero_f32, Cert.Spec.nn_eq]
    exact_mod_cast (by norm_num : (0 : ℝ) < 100000)
  show BitVec.ofBool (decide (Ideal.ofBits .f32 0x00000000#32 < Cert.Spec.nn)) = 1#1
  rw [decide_eq_true h]
  rfl

section Dense

variable {R K N : Nat}

def sageT (D : DotDims ⟨2, ![R, K]⟩ ⟨2, ![K, N]⟩ ⟨2, ![R, N]⟩) (hb : (⟨2, ![1, N]⟩ : Shape).BroadcastsInDim ⟨2, ![R, N]⟩ ![0, 1])
    (hz : S_.BroadcastsInDim ⟨2, ![R, N]⟩ ![]) (M X : FVec F ⟨2, ![R, K]⟩ .f32) (Wl Wr : FVec F ⟨2, ![K, N]⟩ .f32)
    (row : FVec F ⟨2, ![1, N]⟩ .f32) : FVec F ⟨2, ![R, N]⟩ .f32 :=
  maximumf (addf (addf (Host.dotGeneral D none M Wl) (broadcastInDim ⟨2, ![R, N]⟩ ![0, 1] hb row)) (Host.dotGeneral D none X Wr))
    (broadcastInDim ⟨2, ![R, N]⟩ ![] hz (constant S_ .f32 0x00000000#32))

def linT (D : DotDims ⟨2, ![R, K]⟩ ⟨2, ![K, N]⟩ ⟨2, ![R, N]⟩) (hb : (⟨2, ![1, N]⟩ : Shape).BroadcastsInDim ⟨2, ![R, N]⟩ ![0, 1])
    (H : FVec F ⟨2, ![R, K]⟩ .f32) (W : FVec F ⟨2, ![K, N]⟩ .f32) (row : FVec F ⟨2, ![1, N]⟩ .f32) : FVec F ⟨2, ![R, N]⟩ .f32 :=
  addf (Host.dotGeneral D none H W) (broadcastInDim ⟨2, ![R, N]⟩ ![0, 1] hb row)

-- two products, the bias row and the rectifier, read at an index, are `sage`
theorem sage_read (D : DotDims ⟨2, ![R, K]⟩ ⟨2, ![K, N]⟩ ⟨2, ![R, N]⟩) (hD : D = DotDims.plain R K N)
    (hb : (⟨2, ![1, N]⟩ : Shape).BroadcastsInDim ⟨2, ![R, N]⟩ ![0, 1]) (hz : S_.BroadcastsInDim ⟨2, ![R, N]⟩ ![])
    (M X : FVec Ideal ⟨2, ![R, K]⟩ .f32) (Wl Wr : FVec Ideal ⟨2, ![K, N]⟩ .f32) (row : FVec Ideal ⟨2, ![1, N]⟩ .f32) :
    sageT D hb hz M X Wl Wr row = Cert.Spec.sage M X Wl row Wr := by
  subst hD
  funext j
  unfold sageT
  rw [maximumf_apply, addf_apply, addf_apply, bcastRows_apply, broadcastInDim_scalar_apply, constant_apply, Ideal.ofBits_zero_f32]
  show max (FloatOps.dotGeneral (DotDims.plain R K N) none .single M Wl j + row (ix2 0 (j 1))
    + FloatOps.dotGeneral (DotDims.plain R K N) none .single X Wr j) 0 = _
  rw [Cert.LibPlainDot.dotGeneral_apply, Cert.LibPlainDot.dotGeneral_apply]
  rfl

theorem lin_read (D : DotDims ⟨2, ![R, K]⟩ ⟨2, ![K, N]⟩ ⟨2, ![R, N]⟩) (hD : D = DotDims.plain R K N)
    (hb : (⟨2, ![1, N]⟩ : Shape).BroadcastsInDim ⟨2, ![R, N]⟩ ![0, 1])
    (H : FVec Ideal ⟨2, ![R, K]⟩ .f32) (W : FVec Ideal ⟨2, ![K, N]⟩ .f32) (row : FVec Ideal ⟨2, ![1, N]⟩ .f32) :
    linT D hb H W row = Cert.Spec.lin H W row := by
  subst hD
  funext j
  unfold linT
  rw [addf_apply, bcastRows_apply]
  show FloatOps.dotGeneral (DotDims.plain R K N) none .single H W j + row (ix2 0 (j 1)) = _
  rw [Cert.LibPlainDot.dotGeneral_apply]
  rfl

end Dense

section Norm

variable {N : Nat} (hr : (⟨2, ![100000, N]⟩ : Shape).ReducesTo [0] ⟨1, ![N]⟩) (hr' : (⟨2, ![100000, N]⟩ : Shape).Reduces [0] ⟨1, ![N]⟩)
  (hN : S_.BroadcastsInDim ⟨1, ![N]⟩ ![]) (h1N : S_.BroadcastsInDim ⟨2, ![1, N]⟩ ![])
  (hrow : (⟨1, ![N]⟩ : Shape).BroadcastsInDim ⟨2, ![1, N]⟩ ![1])
  (hrows : (⟨2, ![1, N]⟩ : Shape).BroadcastsInDim ⟨2, ![100000, N]⟩ ![0, 1])
  (hRN : S_.BroadcastsInDim ⟨2, ![100000, N]⟩ ![])

def colMean (x : FVec F ⟨2, ![100000, N]⟩ .f32) : FVec F ⟨1, ![N]⟩ .f32 :=
  Host.divf (Host.reduceAdd x (constant S_ .f32 0x00000000#32) hr h_S_) (broadcastInDim ⟨1, ![N]⟩ ![] hN (constant S_ .f32 0x47C35000#32))

def centred (x : FVec F ⟨2, ![100000, N]⟩ .f32) : FVec F ⟨2, ![100000, N]⟩ .f32 :=
  subf x (broadcastInDim ⟨2, ![100000, N]⟩ ![0, 1] hrows (Host.divf (broadcastInDim ⟨2, ![1, N]⟩ ![1] hrow (Host.reduceAdd x (constant S_ .f32 0x00000000#32) hr h_S_))
    (broadcastInDim ⟨2, ![1, N]⟩ ![] h1N (constant S_ .f32 0x47C35000#32))))

def colVar (x : FVec F ⟨2, ![100000, N]⟩ .f32) : FVec F ⟨1, ![N]⟩ .f32 :=
  select (broadcastInDim ⟨1, ![N]⟩ ![] hN (cmpf .ogt (subf (constant (F := F) S_ .f32 0x47C35000#32) (sitofp .f32 (constantI S_ 32 0#32))) (constant S_ .f32 0x00000000#32)))
    (Host.divf (Host.reduceAdd (mulf (centred hr h1N hrow hrows x) (centred hr h1N hrow hrows x)) (constant S_ .f32 0x00000000#32) hr h_S_)
      (broadcastInDim ⟨1, ![N]⟩ ![] hN (subf (constant S_ .f32 0x47C35000#32) (sitofp .f32 (constantI S_ 32 0#32)))))
    (broadcastInDim ⟨1, ![N]⟩ ![] hN (constant S_ .f32 0x7FC00000#32))

def bnT (x : FVec F ⟨2, ![100000, N]⟩ .f32) (g β : FVec F ⟨2, ![1, N]⟩ .f32) : FVec F ⟨2, ![100000, N]⟩ .f32 :=
  maximumf (addf (mulf (mulf (subf x (broadcastInDim ⟨2, ![100000, N]⟩ ![0, 1] hrows (broadcastInDim ⟨2, ![1, N]⟩ ![1] hrow (colMean hr hN x))))
      (broadcastInDim ⟨2, ![100000, N]⟩ ![0, 1] hrows (broadcastInDim ⟨2, ![1, N]⟩ ![1] hrow
        (Host.rsqrt (addf (colVar hr hN h1N hrow hrows x) (broadcastInDim ⟨1, ![N]⟩ ![] hN (constant S_ .f32 0x3727C5AC#32)))))))
      (broadcastInDim ⟨2, ![100000, N]⟩ ![0, 1] hrows g)) (broadcastInDim ⟨2, ![100000, N]⟩ ![0, 1] hrows β))
    (broadcastInDim ⟨2, ![100000, N]⟩ ![] hRN (constant S_ .f32 0x00000000#32))

include hr' in
theorem colMean_fun (x : FVec Ideal ⟨2, ![100000, N]⟩ .f32) :
    colMean hr hN x = fun j => Ideal.div (∑ i : Fin 100000, x (ix2 i (j 0))) Cert.Spec.nn := by
  unfold colMean
  rw [reduceRows_fun hr hr' h_S_, bcastScalar_fun, hostDivf_fun, constant_fun, constant_fun]
  beta_reduce
  rw [Ideal.ofBits_zero_f32]
  simp only [zero_add]

include hr' in
-- the guard on the row count holds, so the quotient is taken
theorem colVar_fun (x : FVec Ideal ⟨2, ![100000, N]⟩ .f32) :
    colVar hr hN h1N hrow hrows x = fun j => Ideal.div (∑ i : Fin 100000, (x (ix2 i (j 0)) - Ideal.div (∑ i' : Fin 100000, x (ix2 i' (j 0))) Cert.Spec.nn)
      * (x (ix2 i (j 0)) - Ideal.div (∑ i' : Fin 100000, x (ix2 i' (j 0))) Cert.Spec.nn)) Cert.Spec.nn := by
  unfold colVar centred
  repeat rw [reduceRows_fun hr hr' h_S_]
  repeat rw [rowOf_fun]
  repeat rw [bcastRows_fun]
  repeat rw [bcastScalar_fun]
  simp only [hostDivf_fun, select_fun, cmpf_fun, subf_fun, mulf_fun, sitofp_fun, constantI_fun, constant_fun]
  funext j
  rw [nn_sub_zero, guard_true, ValueIdx.select_one, Ideal.ofBits_zero_f32]
  simp only [zero_add]
  rfl

include hr' in
-- centred, scaled by the inverse root of the variance, then the affine map and the rectifier
theorem bnT_eq (x : FVec Ideal ⟨2, ![100000, N]⟩ .f32) (g β : FVec Ideal ⟨2, ![1, N]⟩ .f32) :
    bnT hr hN h1N hrow hrows hRN x g β = Cert.Spec.bnR (R := 100000) (N := N) x g β := by
  unfold bnT
  rw [colMean_fun hr hr', colVar_fun hr hr']
  repeat rw [rowOf_fun]
  repeat rw [bcastRows_fun]
  repeat rw [bcastScalar_fun]
  simp only [hostRsqrt_fun, maximumf_fun, addf_fun, mulf_fun, subf_fun, constant_fun]
  funext j
  rw [Ideal.ofBits_zero_f32]
  unfold Cert.Spec.bnR Cert.Spec.colMean Cert.Spec.colSum
  rfl

end Norm

set_option maxRecDepth 8192 in
set_option maxHeartbeats 4000000 in
theorem seg0_out (W : Valuation τ sig (Elt F)) :
    after seg0 W (Proc.devRef .tc main_v31) = sageT dot_S100000x32_S32x64_S100000x64_1_0_0_1_n_n bcast_S1x64_S100000x64_0_1 bcast_S_S100000x64
      (meanR32 (W (Proc.devRef .tc main_arg0)) (W (Proc.devRef .tc main_arg1))) (W (Proc.devRef .tc main_arg0)) (transpose S32x64 [1, 0] (W (Proc.devRef .tc main_arg2)) transposes_S64x32_S32x64_1_0)
      (transpose S32x64 [1, 0] (W (Proc.devRef .tc main_arg4)) transposes_S64x32_S32x64_1_0) (rowOf64 (W (Proc.devRef .tc main_arg3))) := by
  after_results_simp
  rfl

set_option maxRecDepth 8192 in
set_option maxHeartbeats 4000000 in
theorem seg1_out (W : Valuation τ sig (Elt F)) :
    after seg1 W (Proc.devRef .tc main_v63) = sageT dot_S100000x64_S64x64_S100000x64_1_0_0_1_n_n bcast_S1x64_S100000x64_0_1 bcast_S_S100000x64
      (meanR64 (W (Proc.devRef .tc main_v31)) (W (Proc.devRef .tc main_arg1))) (W (Proc.devRef .tc main_v31)) (transpose S64x64 [1, 0] (W (Proc.devRef .tc main_arg5)) transposes_S64x64_S64x64_1_0)
      (transpose S64x64 [1, 0] (W (Proc.devRef .tc main_arg7)) transposes_S64x64_S64x64_1_0) (rowOf64 (W (Proc.devRef .tc main_arg6))) := by
  after_results_simp
  rfl

theorem seg2_out (W : Valuation τ sig (Elt F)) :
    after seg2 W (Proc.devRef .tc main_v68) = linT dot_S100000x64_S64x128_S100000x128_1_0_0_1_n_n bcast_S1x128_S100000x128_0_1 (W (Proc.devRef .tc main_v63))
      (transpose S64x128 [1, 0] (W (Proc.devRef .tc main_arg8)) transposes_S128x64_S64x128_1_0) (rowOf128 (W (Proc.devRef .tc main_arg9))) := by
  after_results_simp
  rfl

set_option maxRecDepth 8192 in
set_option maxHeartbeats 4000000 in
theorem seg3_out (W : Valuation τ sig (Elt F)) :
    after seg3 W (Proc.devRef .tc main_v88) = bnT reducesTo_S100000x128_S128_d0 bcast_S_S128 bcast_S_S1x128 bcast_S128_S1x128_1 bcast_S1x128_S100000x128_0_1 bcast_S_S100000x128 (W (Proc.devRef .tc main_v68)) (rowOf128 (W (Proc.devRef .tc main_arg10))) (rowOf128 (W (Proc.devRef .tc main_arg11))) := by
  after_results_simp
  rfl

theorem seg4_out (W : Valuation τ sig (Elt F)) :
    after seg4 W (Proc.devRef .tc main_v93) = linT dot_S100000x128_S128x64_S100000x64_1_0_0_1_n_n bcast_S1x64_S100000x64_0_1 (W (Proc.devRef .tc main_v88))
      (transpose S128x64 [1, 0] (W (Proc.devRef .tc main_arg12)) transposes_S64x128_S128x64_1_0) (rowOf64 (W (Proc.devRef .tc main_arg13))) := by
  after_results_simp
  rfl

set_option maxRecDepth 8192 in
set_option maxHeartbeats 4000000 in
theorem seg5_out (W : Valuation τ sig (Elt F)) :
    after seg5 W (Proc.devRef .tc main_v113) = bnT reducesTo_S100000x64_S64_d0 bcast_S_S64 bcast_S_S1x64 bcast_S64_S1x64_1 bcast_S1x64_S100000x64_0_1 bcast_S_S100000x64 (W (Proc.devRef .tc main_v93)) (rowOf64 (W (Proc.devRef .tc main_arg14))) (rowOf64 (W (Proc.devRef .tc main_arg15))) := by
  after_results_simp
  rfl

theorem seg6_out (W : Valuation τ sig (Elt F)) :
    after seg6 W (Proc.devRef .tc main_v119) = shapeCast S100000 (linT dot_S100000x64_S64x1_S100000x1_1_0_0_1_n_n bcast_S1x1_S100000x1_0_1 (W (Proc.devRef .tc main_v113))
      (transpose S64x1 [1, 0] (W (Proc.devRef .tc main_arg16)) transposes_S1x64_S64x1_1_0) (rowOf1 (W (Proc.devRef .tc main_arg17)))) shapeCasts_S100000x1_S100000 := by
  after_results_simp
  rfl

theorem ref_h1 (V : Valuation τ sig (Elt Ideal)) :
    (after ops V (Proc.devRef .tc main_v31) : (⟨2, ![100000, 64]⟩ : Shape).Idx → EReal) = H1 V := by
  rw [after_segs, keep6 _ main_v31 (by decide), keep5 _ main_v31 (by decide), keep4 _ main_v31 (by decide), keep3 _ main_v31 (by decide), keep2 _ main_v31 (by decide), keep1 _ main_v31 (by decide), seg0_out, sage_read dot_S100000x32_S32x64_S100000x64_1_0_0_1_n_n rfl]
  rfl

theorem ref_h2 (V : Valuation τ sig (Elt Ideal)) :
    (after ops V (Proc.devRef .tc main_v63) : (⟨2, ![100000, 64]⟩ : Shape).Idx → EReal) = H2 V := by
  rw [after_segs, keep6 _ main_v63 (by decide), keep5 _ main_v63 (by decide), keep4 _ main_v63 (by decide), keep3 _ main_v63 (by decide), keep2 _ main_v63 (by decide), seg1_out, seg0_out,
    keep0 _ main_arg1 (by decide), keep0 _ main_arg5 (by decide), keep0 _ main_arg6 (by decide), keep0 _ main_arg7 (by decide), sage_read dot_S100000x32_S32x64_S100000x64_1_0_0_1_n_n rfl, sage_read dot_S100000x64_S64x64_S100000x64_1_0_0_1_n_n rfl]
  rfl

set_option maxRecDepth 8192 in
theorem ref_out (V : Valuation τ sig (Elt Ideal)) :
    (after ops V (Proc.devRef .tc main_v119) : S100000.Idx → EReal) = shapeCast S100000 (OUT V) shapeCasts_S100000x1_S100000 := by
  rw [after_segs, seg6_out, seg5_out, keep5 _ main_arg16 (by decide), keep5 _ main_arg17 (by decide),
    seg4_out, keep4 _ main_arg16 (by decide), keep4 _ main_arg17 (by decide), keep4 _ main_arg14 (by decide), keep4 _ main_arg15 (by decide),
    seg3_out, keep3 _ main_arg16 (by decide), keep3 _ main_arg17 (by decide), keep3 _ main_arg14 (by decide), keep3 _ main_arg15 (by decide), keep3 _ main_arg12 (by decide), keep3 _ main_arg13 (by decide),
    seg2_out, keep2 _ main_arg16 (by decide), keep2 _ main_arg17 (by decide), keep2 _ main_arg14 (by decide), keep2 _ main_arg15 (by decide), keep2 _ main_arg12 (by decide), keep2 _ main_arg13 (by decide), keep2 _ main_arg10 (by decide), keep2 _ main_arg11 (by decide),
    seg1_out, keep1 _ main_arg16 (by decide), keep1 _ main_arg17 (by decide), keep1 _ main_arg14 (by decide), keep1 _ main_arg15 (by decide), keep1 _ main_arg12 (by decide), keep1 _ main_arg13 (by decide), keep1 _ main_arg10 (by decide), keep1 _ main_arg11 (by decide), keep1 _ main_arg8 (by decide), keep1 _ main_arg9 (by decide),
    seg0_out, keep0 _ main_arg16 (by decide), keep0 _ main_arg17 (by decide), keep0 _ main_arg14 (by decide), keep0 _ main_arg15 (by decide), keep0 _ main_arg12 (by decide), keep0 _ main_arg13 (by decide), keep0 _ main_arg10 (by decide), keep0 _ main_arg11 (by decide), keep0 _ main_arg8 (by decide), keep0 _ main_arg9 (by decide), keep0 _ main_arg1 (by decide), keep0 _ main_arg5 (by decide), keep0 _ main_arg6 (by decide), keep0 _ main_arg7 (by decide),
    sage_read dot_S100000x32_S32x64_S100000x64_1_0_0_1_n_n rfl, sage_read dot_S100000x64_S64x64_S100000x64_1_0_0_1_n_n rfl, lin_read dot_S100000x64_S64x128_S100000x128_1_0_0_1_n_n rfl,
    bnT_eq reducesTo_S100000x128_S128_d0 (by decide), lin_read dot_S100000x128_S128x64_S100000x64_1_0_0_1_n_n rfl,
    bnT_eq reducesTo_S100000x64_S64_d0 (by decide), lin_read dot_S100000x64_S64x1_S100000x1_1_0_0_1_n_n rfl]
  rfl

end Cert.ReferenceIdeal.RefVal

end
-- ==== Proof.Reindex.lean ====
import Idealize.ShloMosaic.Lib.Pipeline.Value
import Idealize.ShloMosaic.Lib.ValueIdx
import proofs.«117495_j42150809043597_1_alg».proof.Proof.Algebra

namespace Cert.Reindex

open Idealize.ShloMosaic Idealize.ShloMosaic.ValueIdx Cert.Algebra

-- A transpose and a broadcast read the operand at a re-computed index, so real arrays stay real.
theorem isReal_transpose {s t : Shape} (perm : List (Fin s.rank)) (x : s.Idx → EReal) (h : s.Transposes perm t)
    (hx : ∀ i, IsReal (x i)) : ∀ j, IsReal (transpose t perm x h j) := fun _ => hx _

theorem isReal_broadcastInDim {s t : Shape} (dims : Fin s.rank → Fin t.rank) (h : s.BroadcastsInDim t dims)
    (x : s.Idx → EReal) (hx : ∀ i, IsReal (x i)) : ∀ j, IsReal (broadcastInDim t dims h x j) := fun _ => hx _

-- A vector laid as a one-row matrix is the same row whether it is reshaped or broadcast along a new leading axis.
theorem row_eq {α : Type} {n : Nat} (v : (⟨1, ![n]⟩ : Shape).Idx → α) (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext j
  have hj1 : (j 1).val < n := (j 1).isLt
  have hj0 : (j 0).val = 0 := Nat.lt_one_iff.mp (j 0).isLt
  rw [shapeCast_apply v hc j (ix1 ⟨(j 1).val, hj1⟩) (by
        rw [Shape.rowMajor_val_one, Shape.rowMajor_val_two]
        change (j 1).val = (j 0).val * n + (j 1).val
        rw [hj0, Nat.zero_mul, Nat.zero_add]),
    broadcastInDim_apply ![1] hb v j (ix1 ⟨(j 1).val, hj1⟩) (fun a => by
        match a with
        | ⟨0, _⟩ => change (j 1).val = if n = 1 then 0 else (j 1).val; split <;> omega)]

end Cert.Reindex
-- ==== Proof.HostKFacts.lean ====
import proofs.«117495_j42150809043597_1_alg».proof.Proof.HostK
import proofs.«117495_j42150809043597_1_alg».proof.Proof.Reindex
import Idealize.ShloMosaic.Lib.IdealHost

set_option maxRecDepth 16384

noncomputable section

namespace Cert.KernelIdeal.HostK

open Cert.KernelIdeal Cert.KernelIdeal.Gen
open Idealize.ShloMosaic Idealize.ShloMosaic.TcCoe Idealize.ShloMosaic.ValueIdx Cert.Algebra Cert.Reindex

theorem scatterAdd_apply {s si su : Shape} (d : ScatterDims s si su) {w : Nat} (x : s.Idx → EReal) (idx : si.Idx → BitVec w)
    (upd : su.Idx → EReal) (i : s.Idx) :
    Host.scatterAdd (F := Ideal) (φ := .f32) d x idx upd i
      = x i + ∑ j ∈ Finset.univ.filter (fun j => d.resultIdx? j idx = some i), upd j := rfl

-- The constant 1.0 broadcast to any shape is one at every index.
theorem ones_apply {S : Shape} (hb : S_.BroadcastsInDim S (![] : Fin 0 → Fin S.rank)) (i : S.Idx) :
    broadcastInDim S ![] hb (constant (F := Ideal) S_ .f32 0x3F800000#32) i = 1 := Ideal.ofBits_one_f32

-- Real updates scattered and added onto zeros give real entries.
theorem isReal_scatterAdd {s si su : Shape} (d : ScatterDims s si su) {w : Nat}
    (hb : S_.BroadcastsInDim s (![] : Fin 0 → Fin s.rank)) (idx : si.Idx → BitVec w) (upd : su.Idx → EReal)
    (hu : ∀ i, IsReal (upd i)) (i : s.Idx) :
    IsReal (Host.scatterAdd (F := Ideal) (φ := .f32) d
      (broadcastInDim s ![] hb (constant (F := Ideal) S_ .f32 0x00000000#32)) idx upd i) := by
  rw [scatterAdd_apply, broadcastInDim_scalar_apply, constant_apply, Ideal.ofBits_zero_f32]
  exact isReal_zero.add (IsReal.sum _ _ fun j _ => hu j)

-- A node's count is a zero plus a sum of ones, so its maximum with one is a nonzero real.
theorem max_cnt_ne (t : S1600000.Idx → BitVec 32) (i : S100000.Idx) :
    ∃ r : ℝ, maximumf (F := Ideal) (φ := .f32) (cnt t)
        (broadcastInDim S100000 ![] bcast_S_S100000 (constant (F := Ideal) S_ .f32 0x3F800000#32)) i = (r : EReal) ∧ r ≠ 0 := by
  rw [maximumf_apply, ones_apply, cnt, scatterAdd_apply, broadcastInDim_scalar_apply, constant_apply,
    Ideal.ofBits_zero_f32]
  exact max_count_one_ne _ _ fun _ _ => ones_apply _ _

theorem isReal_hostDivf {S : Shape} (a c : S.Idx → EReal) (ha : ∀ i, IsReal (a i))
    (hc : ∀ i, ∃ r : ℝ, c i = (r : EReal) ∧ r ≠ 0) : ∀ i, IsReal (Host.divf (F := Ideal) (φ := .f32) a c i) :=
  fun i => (ha i).div (hc i)

theorem isReal_invCnt (t : S1600000.Idx → BitVec 32) : ∀ k, IsReal (invCnt t k) :=
  isReal_broadcastInDim _ _ _ (isReal_hostDivf _ _ (fun i => by rw [ones_apply]; exact isReal_one) (max_cnt_ne t))

-- Entry by entry, a product with the twice-broadcast reciprocal of nonzero reals is the quotient by them.
theorem mul_bcast_recip {S0 S1 S : Shape} {d1 : Fin S0.rank → Fin S1.rank} {d2 : Fin S1.rank → Fin S.rank}
    (hb1 : S0.BroadcastsInDim S1 d1) (hb2 : S1.BroadcastsInDim S d2) (A : S.Idx → EReal) (one M : S0.Idx → EReal)
    (h1 : ∀ i, one i = 1) (hM : ∀ i, ∃ r : ℝ, M i = (r : EReal) ∧ r ≠ 0) :
    mulf (F := Ideal) (φ := .f32) A (broadcastInDim S d2 hb2 (broadcastInDim S1 d1 hb1 (Host.divf (F := Ideal) (φ := .f32) one M)))
      = Host.divf (F := Ideal) (φ := .f32) A (broadcastInDim S d2 hb2 (broadcastInDim S1 d1 hb1 M)) :=
  funext fun _ => mul_div_one_eq_div _ _ _ (h1 _) (hM _)

variable {C : Nat} (hb : S100000x1.BroadcastsInDim ⟨2, ![100000, C]⟩ ![0, 1]) (A : (⟨2, ![100000, C]⟩ : Shape).Idx → EReal)
  (t : S1600000.Idx → BitVec 32)

-- So a product with the inverse counts along the rows is the quotient by the counts (at least one).
theorem mulf_invCnt :
    mulf (F := Ideal) (φ := .f32) A (broadcastInDim _ ![0, 1] hb (invCnt t))
      = Host.divf (F := Ideal) (φ := .f32) A (broadcastInDim _ ![0, 1] hb
          (broadcastInDim S100000x1 ![0] bcast_S100000_S100000x1_0 (maximumf (F := Ideal) (φ := .f32) (cnt t)
            (broadcastInDim S100000 ![] bcast_S_S100000 (constant (F := Ideal) S_ .f32 0x3F800000#32))))) :=
  mul_bcast_recip _ hb A _ _ (ones_apply _) (max_cnt_ne t)

theorem isReal_mulf_invCnt (hA : ∀ i, IsReal (A i)) (j : (⟨2, ![100000, C]⟩ : Shape).Idx) :
    IsReal (mulf (F := Ideal) (φ := .f32) A (broadcastInDim _ ![0, 1] hb (invCnt t)) j) :=
  (hA j).mul (isReal_broadcastInDim _ hb _ (isReal_invCnt t) j)

end Cert.KernelIdeal.HostK

end
-- ==== Proof.FinalEq.lean ====
import proofs.«117495_j42150809043597_1_alg».proof.Proof.HostKFacts
import proofs.«117495_j42150809043597_1_alg».proof.Proof.RefValue
import proofs.«117495_j42150809043597_1_alg».proof.Proof.Bridge

set_option maxRecDepth 16384

noncomputable section

namespace Cert.Final

open Idealize.ShloMosaic Idealize.ShloMosaic.ValueIdx Cert.Algebra Cert.KernelIdeal.HostK Cert.Reindex

section Layer1

variable (x : Cert.KernelIdeal.S100000x32.Idx → EReal) (ei : Cert.KernelIdeal.S2x1600000.Idx → BitVec 32) (a2 : Cert.KernelIdeal.S64x32.Idx → EReal)
    (a3 : Cert.KernelIdeal.S64.Idx → EReal) (a4 : Cert.KernelIdeal.S64x32.Idx → EReal)

def K1 : (⟨2, ![100000, 64]⟩ : Shape).Idx → EReal :=
  Cert.Spec.sage (R := 100000) (K := 32) (N := 64)
    (Cert.KernelIdeal.HostK.mean32 x (Cert.KernelIdeal.HostK.src ei) (Cert.KernelIdeal.HostK.tgt ei) (Cert.KernelIdeal.HostK.invCnt (Cert.KernelIdeal.HostK.tgt ei))) x
    (transpose Cert.KernelIdeal.S32x64 [1, 0] a2 Cert.KernelIdeal.Gen.transposes_S64x32_S32x64_1_0) (shapeCast Cert.KernelIdeal.S1x64 a3 Cert.KernelIdeal.Gen.shapeCasts_S64_S1x64)
    (transpose Cert.KernelIdeal.S32x64 [1, 0] a4 Cert.KernelIdeal.Gen.transposes_S64x32_S32x64_1_0)

def R1 (x : Cert.ReferenceIdeal.S100000x32.Idx → EReal) (ei : Cert.ReferenceIdeal.S2x1600000.Idx → BitVec 32) (a2 : Cert.ReferenceIdeal.S64x32.Idx → EReal)
    (a3 : Cert.ReferenceIdeal.S64.Idx → EReal) (a4 : Cert.ReferenceIdeal.S64x32.Idx → EReal) : (⟨2, ![100000, 64]⟩ : Shape).Idx → EReal :=
  Cert.Spec.sage (R := 100000) (K := 32) (N := 64)
    (Cert.ReferenceIdeal.RefVal.meanR32 (F := Ideal) x ei) x
    (transpose Cert.ReferenceIdeal.S32x64 [1, 0] a2 Cert.ReferenceIdeal.Gen.transposes_S64x32_S32x64_1_0) (Cert.ReferenceIdeal.RefVal.rowOf64 (F := Ideal) a3)
    (transpose Cert.ReferenceIdeal.S32x64 [1, 0] a4 Cert.ReferenceIdeal.Gen.transposes_S64x32_S32x64_1_0)

-- The two sides' graph layers differ in the mean (reciprocal against quotient) and in how the bias row is laid.
theorem e1 : K1 x ei a2 a3 a4 = R1 x ei a2 a3 a4 := by
  unfold K1 R1 mean32
  rw [mulf_invCnt, row_eq a3 Cert.KernelIdeal.Gen.shapeCasts_S64_S1x64 Cert.ReferenceIdeal.Gen.bcast_S64_S1x64_1]
  rfl

theorem real1 (hx : ∀ i, IsReal (x i)) (h2 : ∀ i, IsReal (a2 i)) (h3 : ∀ i, IsReal (a3 i)) (h4 : ∀ i, IsReal (a4 i)) :
    ∀ j, IsReal (K1 x ei a2 a3 a4 j) :=
  Cert.Spec.isReal_sage _ _ _ _ _ (isReal_mulf_invCnt _ _ _ (isReal_scatterAdd _ _ _ _ fun _ => hx _)) hx
    (fun _ => h2 _) (fun _ => h3 _) (fun _ => h4 _)

end Layer1

section Layer2

variable (h1 : Cert.KernelIdeal.S100000x64.Idx → EReal) (ei : Cert.KernelIdeal.S2x1600000.Idx → BitVec 32) (a5 : Cert.KernelIdeal.S64x64.Idx → EReal)
    (a6 : Cert.KernelIdeal.S64.Idx → EReal) (a7 : Cert.KernelIdeal.S64x64.Idx → EReal)

def K2 : (⟨2, ![100000, 64]⟩ : Shape).Idx → EReal :=
  Cert.Spec.sage (R := 100000) (K := 64) (N := 64)
    (Cert.KernelIdeal.HostK.mean64 h1 (Cert.KernelIdeal.HostK.src ei) (Cert.KernelIdeal.HostK.tgt ei) (Cert.KernelIdeal.HostK.invCnt (Cert.KernelIdeal.HostK.tgt ei))) h1
    (transpose Cert.KernelIdeal.S64x64 [1, 0] a5 Cert.KernelIdeal.Gen.transposes_S64x64_S64x64_1_0) (shapeCast Cert.KernelIdeal.S1x64 a6 Cert.KernelIdeal.Gen.shapeCasts_S64_S1x64)
    (transpose Cert.KernelIdeal.S64x64 [1, 0] a7 Cert.KernelIdeal.Gen.transposes_S64x64_S64x64_1_0)

def R2 (h1 : Cert.ReferenceIdeal.S100000x64.Idx → EReal) (ei : Cert.ReferenceIdeal.S2x1600000.Idx → BitVec 32) (a5 : Cert.ReferenceIdeal.S64x64.Idx → EReal)
    (a6 : Cert.ReferenceIdeal.S64.Idx → EReal) (a7 : Cert.ReferenceIdeal.S64x64.Idx → EReal) : (⟨2, ![100000, 64]⟩ : Shape).Idx → EReal :=
  Cert.Spec.sage (R := 100000) (K := 64) (N := 64)
    (Cert.ReferenceIdeal.RefVal.meanR64 (F := Ideal) h1 ei) h1
    (transpose Cert.ReferenceIdeal.S64x64 [1, 0] a5 Cert.ReferenceIdeal.Gen.transposes_S64x64_S64x64_1_0) (Cert.ReferenceIdeal.RefVal.rowOf64 (F := Ideal) a6)
    (transpose Cert.ReferenceIdeal.S64x64 [1, 0] a7 Cert.ReferenceIdeal.Gen.transposes_S64x64_S64x64_1_0)

theorem e2 : K2 h1 ei a5 a6 a7 = R2 h1 ei a5 a6 a7 := by
  unfold K2 R2 mean64
  rw [mulf_invCnt, row_eq a6 Cert.KernelIdeal.Gen.shapeCasts_S64_S1x64 Cert.ReferenceIdeal.Gen.bcast_S64_S1x64_1]
  rfl

theorem real2 (hh : ∀ i, IsReal (h1 i)) (h5 : ∀ i, IsReal (a5 i)) (h6 : ∀ i, IsReal (a6 i)) (h7 : ∀ i, IsReal (a7 i)) :
    ∀ j, IsReal (K2 h1 ei a5 a6 a7 j) :=
  Cert.Spec.isReal_sage _ _ _ _ _ (isReal_mulf_invCnt _ _ _ (isReal_scatterAdd _ _ _ _ fun _ => hh _)) hh
    (fun _ => h5 _) (fun _ => h6 _) (fun _ => h7 _)

end Layer2

-- Over real rows and real parameters the folded head with reshaped rows is the centred head with broadcast rows.
theorem e3 (h2v : (⟨2, ![100000, 64]⟩ : Shape).Idx → EReal) (a8 : Cert.KernelIdeal.S128x64.Idx → EReal) (a9 a10 a11 : Cert.KernelIdeal.S128.Idx → EReal)
    (a12 : Cert.KernelIdeal.S64x128.Idx → EReal) (a13 a14 a15 : Cert.KernelIdeal.S64.Idx → EReal) (a16 : Cert.KernelIdeal.S1x64.Idx → EReal) (a17 : Cert.KernelIdeal.S1.Idx → EReal)
    (hh : ∀ j, IsReal (h2v j)) (h8 : ∀ i, IsReal (a8 i)) (h9 : ∀ i, IsReal (a9 i)) (h10 : ∀ i, IsReal (a10 i))
    (h11 : ∀ i, IsReal (a11 i)) (h12 : ∀ i, IsReal (a12 i)) (h13 : ∀ i, IsReal (a13 i)) (h14 : ∀ i, IsReal (a14 i))
    (h15 : ∀ i, IsReal (a15 i)) :
    shapeCast Cert.KernelIdeal.S100000 (Cert.Spec.headK h2v
        (transpose Cert.KernelIdeal.S64x128 [1, 0] a8 Cert.KernelIdeal.Gen.transposes_S128x64_S64x128_1_0)
        (shapeCast Cert.KernelIdeal.S1x128 a9 Cert.KernelIdeal.Gen.shapeCasts_S128_S1x128) (shapeCast Cert.KernelIdeal.S1x128 a10 Cert.KernelIdeal.Gen.shapeCasts_S128_S1x128)
        (shapeCast Cert.KernelIdeal.S1x128 a11 Cert.KernelIdeal.Gen.shapeCasts_S128_S1x128)
        (transpose Cert.KernelIdeal.S128x64 [1, 0] a12 Cert.KernelIdeal.Gen.transposes_S64x128_S128x64_1_0)
        (shapeCast Cert.KernelIdeal.S1x64 a13 Cert.KernelIdeal.Gen.shapeCasts_S64_S1x64) (shapeCast Cert.KernelIdeal.S1x64 a14 Cert.KernelIdeal.Gen.shapeCasts_S64_S1x64)
        (shapeCast Cert.KernelIdeal.S1x64 a15 Cert.KernelIdeal.Gen.shapeCasts_S64_S1x64)
        (transpose Cert.KernelIdeal.S64x1 [1, 0] a16 Cert.KernelIdeal.Gen.transposes_S1x64_S64x1_1_0)
        (shapeCast Cert.KernelIdeal.S1x1 a17 Cert.KernelIdeal.Gen.shapeCasts_S1_S1x1)) Cert.KernelIdeal.Gen.shapeCasts_S100000x1_S100000
      = shapeCast Cert.ReferenceIdeal.S100000 (Cert.Spec.headR h2v
        (transpose Cert.ReferenceIdeal.S64x128 [1, 0] a8 Cert.ReferenceIdeal.Gen.transposes_S128x64_S64x128_1_0)
        (Cert.ReferenceIdeal.RefVal.rowOf128 (F := Ideal) a9) (Cert.ReferenceIdeal.RefVal.rowOf128 (F := Ideal) a10) (Cert.ReferenceIdeal.RefVal.rowOf128 (F := Ideal) a11)
        (transpose Cert.ReferenceIdeal.S128x64 [1, 0] a12 Cert.ReferenceIdeal.Gen.transposes_S64x128_S128x64_1_0)
        (Cert.ReferenceIdeal.RefVal.rowOf64 (F := Ideal) a13) (Cert.ReferenceIdeal.RefVal.rowOf64 (F := Ideal) a14) (Cert.ReferenceIdeal.RefVal.rowOf64 (F := Ideal) a15)
        (transpose Cert.ReferenceIdeal.S64x1 [1, 0] a16 Cert.ReferenceIdeal.Gen.transposes_S1x64_S64x1_1_0)
        (Cert.ReferenceIdeal.RefVal.rowOf1 (F := Ideal) a17)) Cert.ReferenceIdeal.Gen.shapeCasts_S100000x1_S100000 := by
  simp only [row_eq _ Cert.KernelIdeal.Gen.shapeCasts_S128_S1x128 Cert.ReferenceIdeal.Gen.bcast_S128_S1x128_1,
    row_eq _ Cert.KernelIdeal.Gen.shapeCasts_S64_S1x64 Cert.ReferenceIdeal.Gen.bcast_S64_S1x64_1,
    row_eq _ Cert.KernelIdeal.Gen.shapeCasts_S1_S1x1 Cert.ReferenceIdeal.Gen.bcast_S1_S1x1_1]
  rw [Cert.Spec.head_eq _ _ _ _ _ _ _ _ _ _ _ hh (isReal_transpose _ a8 _ h8) (isReal_broadcastInDim _ _ a9 h9)
    (isReal_broadcastInDim _ _ a10 h10) (isReal_broadcastInDim _ _ a11 h11) (isReal_transpose _ a12 _ h12)
    (isReal_broadcastInDim _ _ a13 h13) (isReal_broadcastInDim _ _ a14 h14) (isReal_broadcastInDim _ _ a15 h15)]
  rfl

end Cert.Final

end
-- ==== Proof.PreReal.lean ====
import proofs.«117495_j42150809043597_1_alg».proof.Pre_finite_inputs
import Idealize.ShloMosaic.Lib.ReduceAll
import Idealize.ShloMosaic.Lib.ValueIdx
import Idealize.ShloMosaic.PureOps.Ideal

noncomputable section

namespace Cert.PreReal

open Idealize.ShloMosaic Cert.Pre_finite_inputs

instance : Subsingleton S_.Idx := ⟨fun a b => funext fun d => d.elim0⟩

theorem inf_bits : Ideal.ofBits .f32 0x7F800000#32 = (⊤ : EReal) := by
  simp [Ideal.ofBits, Ideal.ieee]

theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_bits] at h
  induction x using EReal.rec with
  | bot => simp [Ideal.cmp] at h
  | top => simp [Ideal.cmp] at h
  | coe r => exact ⟨r, rfl⟩

theorem real_of_all {s : Shape} {axes : List (Fin s.rank)} (x : FVec Ideal s .f32)
    (bc : S_.BroadcastsInDim s (![] : Fin 0 → Fin s.rank)) (rd : s.ReducesTo axes S_) (hu : 0 < S_.numel)
    (e : Host.reduce IntOp.andi
        (cmpf .olt (Host.absf x) (broadcastInDim s ![] bc (constant (F := Ideal) S_ .f32 0x7F800000#32)))
        (constantI S_ 1 1#1) rd hu ValueIdx.ix0 = 1#1) :
    ∀ i, ∃ r : ℝ, x i = (r : EReal) := fun i =>
  real_of_abs_lt (x i) (Host.reduce_andi_all _ _ rd hu _ e i)

variable [Cert.Pre_finite_inputs.Facts]

theorem real_of_pre
    (a0 : FVec Ideal S100000x32 .f32)
    (a1 : IVec S2x1600000 32)
    (a2 : FVec Ideal S64x32 .f32)
    (a3 : FVec Ideal S64 .f32)
    (a4 : FVec Ideal S64x32 .f32)
    (a5 : FVec Ideal S64x64 .f32)
    (a6 : FVec Ideal S64 .f32)
    (a7 : FVec Ideal S64x64 .f32)
    (a8 : FVec Ideal S128x64 .f32)
    (a9 : FVec Ideal S128 .f32)
    (a10 : FVec Ideal S128 .f32)
    (a11 : FVec Ideal S128 .f32)
    (a12 : FVec Ideal S64x128 .f32)
    (a13 : FVec Ideal S64 .f32)
    (a14 : FVec Ideal S64 .f32)
    (a15 : FVec Ideal S64 .f32)
    (a16 : FVec Ideal S1x64 .f32)
    (a17 : FVec Ideal S1 .f32)
    (h : fn (F := Ideal) a0 a1 a2 a3 a4 a5 a6 a7 a8 a9 a10 a11 a12 a13 a14 a15 a16 a17 = fun _ => 1#1) :
    (∀ i, ∃ r : ℝ, a0 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal)) := by
  have h0 := congrFun h ValueIdx.ix0
  simp only [fn, fn_part1, fn_part2, fn_part3, fn_part4, andi, IntOp.andi_eq_one] at h0
  obtain ⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩ := h0
  exact ⟨real_of_all a0 _ _ _ e0,
    real_of_all a2 _ _ _ e2,
    real_of_all a3 _ _ _ e3,
    real_of_all a4 _ _ _ e4,
    real_of_all a5 _ _ _ e5,
    real_of_all a6 _ _ _ e6,
    real_of_all a7 _ _ _ e7,
    real_of_all a8 _ _ _ e8,
    real_of_all a9 _ _ _ e9,
    real_of_all a10 _ _ _ e10,
    real_of_all a11 _ _ _ e11,
    real_of_all a12 _ _ _ e12,
    real_of_all a13 _ _ _ e13,
    real_of_all a14 _ _ _ e14,
    real_of_all a15 _ _ _ e15,
    real_of_all a16 _ _ _ e16,
    real_of_all a17 _ _ _ e17⟩

end Cert.PreReal

end
-- ==== Proof.Assemble.lean ====
import proofs.«117495_j42150809043597_1_alg».proof.Defs
import proofs.«117495_j42150809043597_1_alg».proof.Proof.Gen.Kernel
import proofs.«117495_j42150809043597_1_alg».proof.Proof.Gen.KernelIdeal
import proofs.«117495_j42150809043597_1_alg».proof.Proof.Gen.ReferenceIdeal
import proofs.«117495_j42150809043597_1_alg».proof.Proof.Gen.Pre_finite_inputs
import proofs.«117495_j42150809043597_1_alg».proof.Proof.Run
import proofs.«117495_j42150809043597_1_alg».proof.Proof.RefRun
import proofs.«117495_j42150809043597_1_alg».proof.Proof.KernelValue
import proofs.«117495_j42150809043597_1_alg».proof.Proof.RefValue
import proofs.«117495_j42150809043597_1_alg».proof.Proof.FinalEq
import proofs.«117495_j42150809043597_1_alg».proof.Proof.PreReal

set_option maxRecDepth 16384

noncomputable section

namespace Cert.Assemble

open Idealize.ShloMosaic Idealize.ShloMosaic.TcCoe Idealize.SL.Sem Cert.Algebra
open Cert.KernelIdeal.KVal Cert.ReferenceIdeal.RefVal Cert.Final

-- Each side's results are functions of its launch memory: the layers' rows agree outright, the head's vector where the arguments are real.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hag
  have l1 : ∀ c, KH1 m c = H1 (StableHlo.launchContents m' c) := fun c => by
    obtain ⟨g0, g1, g2, g3, g4, -⟩ := hag c
    refine (e1 (arg0 m c) (arg1 m c) (arg2 m c) (arg3 m c) (arg4 m c)).trans ?_
    rw [show arg0 m c = _ from g0.symm, show arg1 m c = _ from g1.symm, show arg2 m c = _ from g2.symm, show arg3 m c = _ from g3.symm, show arg4 m c = _ from g4.symm]
    rfl
  have l2 : ∀ c, KH2 m c = H2 (StableHlo.launchContents m' c) := fun c => by
    obtain ⟨-, g1, -, -, -, g5, g6, g7, -⟩ := hag c
    refine (e2 (KH1 m c) (arg1 m c) (arg5 m c) (arg6 m c) (arg7 m c)).trans ?_
    rw [l1 c, show arg1 m c = _ from g1.symm, show arg5 m c = _ from g5.symm, show arg6 m c = _ from g6.symm, show arg7 m c = _ from g7.symm]
    rfl
  have l3 : ∀ c, KOUT m c = shapeCast Cert.ReferenceIdeal.S100000 (OUT (StableHlo.launchContents m' c))
      Cert.ReferenceIdeal.Gen.shapeCasts_S100000x1_S100000 := fun c => by
    obtain ⟨r0, r2, r3, r4, r5, r6, r7, r8, r9, r10, r11, r12, r13, r14, r15, r16, r17⟩ :=
      Cert.PreReal.real_of_pre _ _ _ _ _ _ _ _ _ _ _ _ _ _ _ _ _ _ (hpre c)
    obtain ⟨-, -, -, -, -, -, -, -, g8, g9, g10, g11, g12, g13, g14, g15, g16, g17⟩ := hag c
    have hh2 : ∀ j, IsReal (KH2 m c j) := real2 (KH1 m c) (arg1 m c) (arg5 m c) (arg6 m c) (arg7 m c)
      (real1 (arg0 m c) (arg1 m c) (arg2 m c) (arg3 m c) (arg4 m c) r0 r2 r3 r4) r5 r6 r7
    refine (e3 (KH2 m c) (arg8 m c) (arg9 m c) (arg10 m c) (arg11 m c) (arg12 m c) (arg13 m c) (arg14 m c) (arg15 m c) (arg16 m c) (arg17 m c) hh2 r8 r9 r10 r11 r12 r13 r14 r15).trans ?_
    rw [l2 c, show arg8 m c = _ from g8.symm, show arg9 m c = _ from g9.symm, show arg10 m c = _ from g10.symm, show arg11 m c = _ from g11.symm, show arg12 m c = _ from g12.symm, show arg13 m c = _ from g13.symm, show arg14 m c = _ from g14.symm, show arg15 m c = _ from g15.symm, show arg16 m c = _ from g16.symm, show arg17 m c = _ from g17.symm]
    rfl
  refine ⟨_, _, _, ?_, Cert.ReferenceIdeal.RefRun.run (F := Ideal) m' ρ'⟩
  refine (θ_run _ _ _).mono (fun r h c => ⟨
    (h c _ (Cert.KernelIdeal.Run.mem_uc Cert.KernelIdeal.main_v82 (by decide))).trans ((out_eq m ρ c).trans ((l3 c).trans (ref_out _).symm)),
    (h c _ (Cert.KernelIdeal.Run.mem_uc Cert.KernelIdeal.main_v28 (by decide))).trans ((h1_eq m ρ c).trans ((l1 c).trans (ref_h1 _).symm)),
    (h c _ (Cert.KernelIdeal.Run.mem_uc Cert.KernelIdeal.main_v44 (by decide))).trans ((h2_eq m ρ c).trans ((l2 c).trans (ref_h2 _).symm)),
    ?_⟩) (Cert.KernelIdeal.Run.run_all (F := Ideal) m ρ)
  and_intros <;> exact Cert.KernelIdeal.Run.arg_kept m ρ c _ (by decide) _ (h c)

end Cert.Assemble

end
-- ==== Proof.lean ====
import proofs.«117495_j42150809043597_1_alg».proof.Defs
import proofs.«117495_j42150809043597_1_alg».proof.Proof.Gen.Kernel
import proofs.«117495_j42150809043597_1_alg».proof.Proof.Gen.KernelIdeal
import proofs.«117495_j42150809043597_1_alg».proof.Proof.Gen.ReferenceIdeal
import proofs.«117495_j42150809043597_1_alg».proof.Proof.Gen.Pre_finite_inputs
import proofs.«117495_j42150809043597_1_alg».proof.Proof.Run
import proofs.«117495_j42150809043597_1_alg».proof.Proof.KRun
import proofs.«117495_j42150809043597_1_alg».proof.Proof.RefRun
import proofs.«117495_j42150809043597_1_alg».proof.Proof.Assemble

noncomputable section

namespace Cert.Proof

open Idealize.ShloMosaic Idealize.SL.Sem

-- Each kernel frame is the program's run with every argument read back; the ledger is empty, so nothing is owed for the idealization.
theorem claim : Cert.Claim :=
  ⟨Cert.Kernel.Gen.facts, Cert.KernelIdeal.Gen.facts, Cert.ReferenceIdeal.Gen.facts, Cert.Pre_finite_inputs.Gen.facts,
    fun m ρ _ => (θ_run _ _ _).mono (fun r h c => by and_intros <;> exact Cert.Kernel.Run.arg_kept m ρ c _ (by decide) _ (h c))
      (Cert.Kernel.Run.run_all (F := Bits) m ρ),
    fun m ρ _ => (θ_run _ _ _).mono (fun r h c => by and_intros <;> exact Cert.KernelIdeal.Run.arg_kept m ρ c _ (by decide) _ (h c))
      (Cert.KernelIdeal.Run.run_all (F := Ideal) m ρ),
    fun m ρ _ => Cert.ReferenceIdeal.RefRun.frame (F := Ideal) m ρ,
    trivial,
    Cert.Assemble.algebraic⟩

end Cert.Proof

end
